-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1250000 : Shape := ⟨1, ![1250000]⟩
abbrev S32x64 : Shape := ⟨2, ![32, 64]⟩
abbrev S64 : Shape := ⟨1, ![64]⟩
abbrev S64x64 : Shape := ⟨2, ![64, 64]⟩
abbrev S4 : Shape := ⟨1, ![4]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4 : S_.BroadcastsInDim S4 (![] : Fin 0 → Fin S4.rank)
  reducesTo_S4_S_d0 : S4.ReducesTo [0] S_
  bcast_S_S1250000 : S_.BroadcastsInDim S1250000 (![] : Fin 0 → Fin S1250000.rank)
  reducesTo_S1250000_S_d0 : S1250000.ReducesTo [0] S_

variable [Facts]

def fn_part3 {F : FTy → Type} [FloatOps F] (main_arg3 : IVec S1250000 32) (main_v47 : IVec S_ 1) (main_v49 : IVec S1250000 1) (main_c_19 : IVec S_ 32) : IVec S_ 1 :=
  let main_v50 : IVec S1250000 32 := broadcastInDim S1250000 ![] bcast_S_S1250000 main_c_19
  let main_v51 : IVec S1250000 1 := cmpi .slt main_arg3 main_v50
  let main_v52 : IVec S1250000 1 := andi main_v49 main_v51
  let main_c_20 : IVec S_ 1 := constantI S_ 1 1#1
  let main_v53 : IVec S_ 1 := (fun x v => Host.reduce IntOp.andi x v reducesTo_S1250000_S_d0 h_S_) main_v52 main_c_20
  let main_v54 : IVec S_ 1 := andi main_v47 main_v53
  main_v54

def fn_part2 {F : FTy → Type} [FloatOps F] (main_arg1 : IVec S1250000 32) (main_arg2 : IVec S1250000 32) (main_arg3 : IVec S1250000 32) (main_v33 : IVec S_ 1) : IVec S_ 1 :=
  let main_c_12 : IVec S_ 32 := constantI S_ 32 0#32
  let main_v34 : IVec S1250000 32 := broadcastInDim S1250000 ![] bcast_S_S1250000 main_c_12
  let main_v35 : IVec S1250000 1 := cmpi .sge main_arg1 main_v34
  let main_c_13 : IVec S_ 32 := constantI S_ 32 100000#32
  let main_v36 : IVec S1250000 32 := broadcastInDim S1250000 ![] bcast_S_S1250000 main_c_13
  let main_v37 : IVec S1250000 1 := cmpi .slt main_arg1 main_v36
  let main_v38 : IVec S1250000 1 := andi main_v35 main_v37
  let main_c_14 : IVec S_ 1 := constantI S_ 1 1#1
  let main_v39 : IVec S_ 1 := (fun x v => Host.reduce IntOp.andi x v reducesTo_S1250000_S_d0 h_S_) main_v38 main_c_14
  let main_v40 : IVec S_ 1 := andi main_v33 main_v39
  let main_c_15 : IVec S_ 32 := constantI S_ 32 0#32
  let main_v41 : IVec S1250000 32 := broadcastInDim S1250000 ![] bcast_S_S1250000 main_c_15
  let main_v42 : IVec S1250000 1 := cmpi .sge main_arg2 main_v41
  let main_c_16 : IVec S_ 32 := constantI S_ 32 100000#32
  let main_v43 : IVec S1250000 32 := broadcastInDim S1250000 ![] bcast_S_S1250000 main_c_16
  let main_v44 : IVec S1250000 1 := cmpi .slt main_arg2 main_v43
  let main_v45 : IVec S1250000 1 := andi main_v42 main_v44
  let main_c_17 : IVec S_ 1 := constantI S_ 1 1#1
  let main_v46 : IVec S_ 1 := (fun x v => Host.reduce IntOp.andi x v reducesTo_S1250000_S_d0 h_S_) main_v45 main_c_17
  let main_v47 : IVec S_ 1 := andi main_v40 main_v46
  let main_c_18 : IVec S_ 32 := constantI S_ 32 0#32
  let main_v48 : IVec S1250000 32 := broadcastInDim S1250000 ![] bcast_S_S1250000 main_c_18
  let main_v49 : IVec S1250000 1 := cmpi .sge main_arg3 main_v48
  let main_c_19 : IVec S_ 32 := constantI S_ 32 4#32
  fn_part3 (F := F) main_arg3 main_v47 main_v49 main_c_19

def fn_part1 {F : FTy → Type} [FloatOps F] (main_arg1 : IVec S1250000 32) (main_arg2 : IVec S1250000 32) (main_arg3 : IVec S1250000 32) (main_arg7 : FVec F S64 .f32) (main_arg8 : FVec F S4 .f32) (main_arg9 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4 .f32 := Host.absf main_arg8
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4 .f32 := Host.absf main_arg9
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg1 main_arg2 main_arg3 main_v33

def fn {F : FTy → Type} [FloatOps F] (main_arg0 : FVec F S100000x32 .f32) (main_arg1 : IVec S1250000 32) (main_arg2 : IVec S1250000 32) (main_arg3 : IVec S1250000 32) (main_arg4 : FVec F S32x64 .f32) (main_arg5 : FVec F S64 .f32) (main_arg6 : FVec F S64x64 .f32) (main_arg7 : FVec F S64 .f32) (main_arg8 : FVec F S4 .f32) (main_arg9 : FVec F S4 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg4
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg3 main_arg7 main_arg8 main_arg9 main_v13 main_v16
-- ==== Kernel.lean ====
abbrev S100000x32 : Shape := ⟨2, ![100000, 32]⟩
abbrev S1250000 : Shape := ⟨1, ![1250000]⟩
abbrev S32x64 : Shape := ⟨2, ![32, 64]⟩
abbrev S64 : Shape := ⟨1, ![64]⟩
abbrev S64x64 : Shape := ⟨2, ![64, 64]⟩
abbrev S4 : Shape := ⟨1, ![4]⟩
abbrev S_ : Shape := ⟨0, ![]⟩
abbrev S1250000x1 : Shape := ⟨2, ![1250000, 1]⟩
abbrev S1 : Shape := ⟨1, ![1]⟩
abbrev S1x1 : Shape := ⟨2, ![1, 1]⟩
abbrev S1250000x32 : Shape := ⟨2, ![1250000, 32]⟩
abbrev S100000 : Shape := ⟨1, ![100000]⟩
abbrev S100000x1 : Shape := ⟨2, ![100000, 1]⟩
abbrev S100000x2 : Shape := ⟨2, ![100000, 2]⟩
abbrev S1x64 : Shape := ⟨2, ![1, 64]⟩
abbrev S100000x64 : Shape := ⟨2, ![100000, 64]⟩
abbrev S10000x32 : Shape := ⟨2, ![10000, 32]⟩
abbrev S10000x2 : Shape := ⟨2, ![10000, 2]⟩
abbrev S10000x64 : Shape := ⟨2, ![10000, 64]⟩
abbrev S10000x1 : Shape := ⟨2, ![10000, 1]⟩
abbrev S1250000x64 : Shape := ⟨2, ![1250000, 64]⟩
abbrev S5x64 : Shape := ⟨2, ![5, 64]⟩

abbrev nBuf : Space → Nat
  | .hbm => 201
  | .vmem => 18
  | .smem => 0
  | _ => 0

abbrev hbmTy0_0 (i : Nat) : BufTy := match i % 128 with
  | 0 => ⟨S100000x32, .f32⟩
  | 1 => ⟨S1250000, .i32⟩
  | 2 => ⟨S1250000, .i32⟩
  | 3 => ⟨S1250000, .i32⟩
  | 4 => ⟨S32x64, .f32⟩
  | 5 => ⟨S64, .f32⟩
  | 6 => ⟨S64x64, .f32⟩
  | 7 => ⟨S64, .f32⟩
  | 8 => ⟨S4, .f32⟩
  | 9 => ⟨S4, .f32⟩
  | 10 => ⟨S_, .i32⟩
  | 11 => ⟨S1250000, .i32⟩
  | 12 => ⟨S1250000, .i1⟩
  | 13 => ⟨S_, .i32⟩
  | 14 => ⟨S1250000, .i32⟩
  | 15 => ⟨S1250000, .i32⟩
  | 16 => ⟨S1250000, .i32⟩
  | 17 => ⟨S1250000x1, .i32⟩
  | 18 => ⟨S1, .i32⟩
  | 19 => ⟨S_, .i32⟩
  | 20 => ⟨S1250000x1, .i32⟩
  | 21 => ⟨S1250000x1, .i1⟩
  | 22 => ⟨S1x1, .i32⟩
  | 23 => ⟨S1250000x1, .i32⟩
  | 24 => ⟨S1250000x1, .i1⟩
  | 25 => ⟨S1250000x1, .i1⟩
  | 26 => ⟨S_, .i1⟩
  | 27 => ⟨S1250000, .i1⟩
  | 28 => ⟨S1250000x32, .f32⟩
  | 29 => ⟨S1250000x32, .i1⟩
  | 30 => ⟨S_, .f32⟩
  | 31 => ⟨S1250000x32, .f32⟩
  | 32 => ⟨S1250000x32, .f32⟩
  | 33 => ⟨S_, .i32⟩
  | 34 => ⟨S1250000, .i32⟩
  | 35 => ⟨S1250000, .i1⟩
  | 36 => ⟨S_, .i32⟩
  | 37 => ⟨S1250000, .i32⟩
  | 38 => ⟨S1250000, .i32⟩
  | 39 => ⟨S1250000, .i32⟩
  | 40 => ⟨S1250000x1, .i32⟩
  | 41 => ⟨S1, .i32⟩
  | 42 => ⟨S_, .i32⟩
  | 43 => ⟨S1250000x1, .i32⟩
  | 44 => ⟨S1250000x1, .i1⟩
  | 45 => ⟨S1x1, .i32⟩
  | 46 => ⟨S1250000x1, .i32⟩
  | 47 => ⟨S1250000x1, .i1⟩
  | 48 => ⟨S1250000x1, .i1⟩
  | 49 => ⟨S_, .i1⟩
  | 50 => ⟨S1250000, .i1⟩
  | 51 => ⟨S1250000x32, .f32⟩
  | 52 => ⟨S1250000x32, .i1⟩
  | 53 => ⟨S_, .f32⟩
  | 54 => ⟨S1250000x32, .f32⟩
  | 55 => ⟨S1250000x32, .f32⟩
  | 56 => ⟨S_, .i32⟩
  | 57 => ⟨S1250000, .i32⟩
  | 58 => ⟨S1250000, .i1⟩
  | 59 => ⟨S_, .i32⟩
  | 60 => ⟨S1250000, .i32⟩
  | 61 => ⟨S1250000, .i32⟩
  | 62 => ⟨S1250000, .i32⟩
  | 63 => ⟨S1250000x1, .i32⟩
  | 64 => ⟨S1, .i32⟩
  | 65 => ⟨S_, .i32⟩
  | 66 => ⟨S1250000x1, .i32⟩
  | 67 => ⟨S1250000x1, .i1⟩
  | 68 => ⟨S1x1, .i32⟩
  | 69 => ⟨S1250000x1, .i32⟩
  | 70 => ⟨S1250000x1, .i1⟩
  | 71 => ⟨S1250000x1, .i1⟩
  | 72 => ⟨S_, .i1⟩
  | 73 => ⟨S1250000, .i1⟩
  | 74 => ⟨S1250000, .f32⟩
  | 75 => ⟨S_, .f32⟩
  | 76 => ⟨S1250000, .f32⟩
  | 77 => ⟨S1250000, .f32⟩
  | 78 => ⟨S_, .i32⟩
  | 79 => ⟨S1250000, .i32⟩
  | 80 => ⟨S1250000, .i1⟩
  | 81 => ⟨S_, .i32⟩
  | 82 => ⟨S1250000, .i32⟩
  | 83 => ⟨S1250000, .i32⟩
  | 84 => ⟨S1250000, .i32⟩
  | 85 => ⟨S1250000x1, .i32⟩
  | 86 => ⟨S1, .i32⟩
  | 87 => ⟨S_, .i32⟩
  | 88 => ⟨S1250000x1, .i32⟩
  | 89 => ⟨S1250000x1, .i1⟩
  | 90 => ⟨S1x1, .i32⟩
  | 91 => ⟨S1250000x1, .i32⟩
  | 92 => ⟨S1250000x1, .i1⟩
  | 93 => ⟨S1250000x1, .i1⟩
  | 94 => ⟨S_, .i1⟩
  | 95 => ⟨S1250000, .i1⟩
  | 96 => ⟨S1250000, .f32⟩
  | 97 => ⟨S_, .f32⟩
  | 98 => ⟨S1250000, .f32⟩
  | 99 => ⟨S1250000, .f32⟩
  | 100 => ⟨S1250000x32, .f32⟩
  | 101 => ⟨S1250000x32, .f32⟩
  | 102 => ⟨S_, .f32⟩
  | 103 => ⟨S1250000, .f32⟩
  | 104 => ⟨S1250000, .f32⟩
  | 105 => ⟨S1250000, .f32⟩
  | 106 => ⟨S1250000, .f32⟩
  | 107 => ⟨S_, .f32⟩
  | 108 => ⟨S1250000, .f32⟩
  | 109 => ⟨S1250000, .f32⟩
  | 110 => ⟨S1250000, .f32⟩
  | 111 => ⟨S1250000, .f32⟩
  | 112 => ⟨S_, .f32⟩
  | 113 => ⟨S1250000, .f32⟩
  | 114 => ⟨S_, .f32⟩
  | 115 => ⟨S100000, .f32⟩
  | 116 => ⟨S1250000x1, .i32⟩
  | 117 => ⟨S100000, .f32⟩
  | 118 => ⟨S_, .f32⟩
  | 119 => ⟨S100000, .f32⟩
  | 120 => ⟨S1250000x1, .i32⟩
  | 121 => ⟨S100000, .f32⟩
  | 122 => ⟨S_, .f32⟩
  | 123 => ⟨S100000, .f32⟩
  | 124 => ⟨S100000, .f32⟩
  | 125 => ⟨S_, .f32⟩
  | 126 => ⟨S100000, .f32⟩
  | 127 => ⟨S100000, .f32⟩
  | _ => ⟨S100000x32, .f32⟩

abbrev hbmTy0_1 (i : Nat) : BufTy := match i % 128 with
  | 0 => ⟨S_, .f32⟩
  | 1 => ⟨S100000, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x1, .f32⟩
  | 8 => ⟨S100000x2, .f32⟩
  | 9 => ⟨S_, .i32⟩
  | 10 => ⟨S1250000, .i32⟩
  | 11 => ⟨S1250000, .i1⟩
  | 12 => ⟨S_, .i32⟩
  | 13 => ⟨S1250000, .i32⟩
  | 14 => ⟨S1250000, .i32⟩
  | 15 => ⟨S1250000, .i32⟩
  | 16 => ⟨S1250000x1, .i32⟩
  | 17 => ⟨S1, .i32⟩
  | 18 => ⟨S_, .i32⟩
  | 19 => ⟨S1250000x1, .i32⟩
  | 20 => ⟨S1250000x1, .i1⟩
  | 21 => ⟨S1x1, .i32⟩
  | 22 => ⟨S1250000x1, .i32⟩
  | 23 => ⟨S1250000x1, .i1⟩
  | 24 => ⟨S1250000x1, .i1⟩
  | 25 => ⟨S_, .i1⟩
  | 26 => ⟨S1250000, .i1⟩
  | 27 => ⟨S1250000, .f32⟩
  | 28 => ⟨S_, .f32⟩
  | 29 => ⟨S1250000, .f32⟩
  | 30 => ⟨S1250000, .f32⟩
  | 31 => ⟨S1250000, .f32⟩
  | 32 => ⟨S1250000x1, .f32⟩
  | 33 => ⟨S1250000x32, .f32⟩
  | 34 => ⟨S1250000x32, .f32⟩
  | 35 => ⟨S_, .f32⟩
  | 36 => ⟨S100000x32, .f32⟩
  | 37 => ⟨S1250000x1, .i32⟩
  | 38 => ⟨S100000x32, .f32⟩
  | 39 => ⟨S1x64, .f32⟩
  | 40 => ⟨S100000x64, .f32⟩
  | 41 => ⟨S_, .i32⟩
  | 42 => ⟨S1250000, .i32⟩
  | 43 => ⟨S1250000, .i1⟩
  | 44 => ⟨S_, .i32⟩
  | 45 => ⟨S1250000, .i32⟩
  | 46 => ⟨S1250000, .i32⟩
  | 47 => ⟨S1250000, .i32⟩
  | 48 => ⟨S1250000x1, .i32⟩
  | 49 => ⟨S1, .i32⟩
  | 50 => ⟨S_, .i32⟩
  | 51 => ⟨S1250000x1, .i32⟩
  | 52 => ⟨S1250000x1, .i1⟩
  | 53 => ⟨S1x1, .i32⟩
  | 54 => ⟨S1250000x1, .i32⟩
  | 55 => ⟨S1250000x1, .i1⟩
  | 56 => ⟨S1250000x1, .i1⟩
  | 57 => ⟨S_, .i1⟩
  | 58 => ⟨S1250000, .i1⟩
  | 59 => ⟨S1250000x64, .f32⟩
  | 60 => ⟨S1250000x64, .i1⟩
  | 61 => ⟨S_, .f32⟩
  | 62 => ⟨S1250000x64, .f32⟩
  | 63 => ⟨S1250000x64, .f32⟩
  | 64 => ⟨S1250000x1, .f32⟩
  | 65 => ⟨S1250000x64, .f32⟩
  | 66 => ⟨S1250000x64, .f32⟩
  | 67 => ⟨S_, .f32⟩
  | 68 => ⟨S100000x64, .f32⟩
  | 69 => ⟨S1250000x1, .i32⟩
  | 70 => ⟨S100000x64, .f32⟩
  | 71 => ⟨S1x64, .f32⟩
  | 72 => ⟨S5x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S10000x2, .f32⟩
  | .local _ .vmem, ⟨3, _⟩ => ⟨S10000x2, .f32⟩
  | .local _ .vmem, ⟨4, _⟩ => ⟨S32x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x2, .f32⟩
  | .local _ .vmem, ⟨11, _⟩ => ⟨S10000x2, .f32⟩
  | .local _ .vmem, ⟨12, _⟩ => ⟨S64x64, .f32⟩
  | .local _ .vmem, ⟨13, _⟩ => ⟨S1x64, .f32⟩
  | .local _ .vmem, ⟨14, _⟩ => ⟨S5x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v2 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_cst : Ref sig .tc := ⟨.hbm, 97, rfl⟩
abbrev main_call3_v14 : Ref sig .tc := ⟨.hbm, 98, rfl⟩
abbrev main_v3 : Ref sig .tc := ⟨.hbm, 99, rfl⟩
abbrev main_v4 : Ref sig .tc := ⟨.hbm, 100, rfl⟩
abbrev main_v5 : Ref sig .tc := ⟨.hbm, 101, rfl⟩
abbrev main_cst : Ref sig .tc := ⟨.hbm, 102, rfl⟩
abbrev main_v6 : Ref sig .tc := ⟨.hbm, 103, rfl⟩
abbrev main_v7 : Ref sig .tc := ⟨.hbm, 104, rfl⟩
abbrev main_v8 : Ref sig .tc := ⟨.hbm, 105, rfl⟩
abbrev main_v9 : Ref sig .tc := ⟨.hbm, 106, rfl⟩
abbrev main_cst_0 : Ref sig .tc := ⟨.hbm, 107, rfl⟩
abbrev main_v10 : Ref sig .tc := ⟨.hbm, 108, rfl⟩
abbrev main_v11 : Ref sig .tc := ⟨.hbm, 109, rfl⟩
abbrev main_v12 : Ref sig .tc := ⟨.hbm, 110, rfl⟩
abbrev main_v13 : Ref sig .tc := ⟨.hbm, 111, rfl⟩
abbrev main_cst_1 : Ref sig .tc := ⟨.hbm, 112, rfl⟩
abbrev main_v14 : Ref sig .tc := ⟨.hbm, 113, rfl⟩
abbrev main_cst_2 : Ref sig .tc := ⟨.hbm, 114, rfl⟩
abbrev main_v15 : Ref sig .tc := ⟨.hbm, 115, rfl⟩
abbrev main_v16 : Ref sig .tc := ⟨.hbm, 116, rfl⟩
abbrev main_v17 : Ref sig .tc := ⟨.hbm, 117, rfl⟩
abbrev main_cst_3 : Ref sig .tc := ⟨.hbm, 118, rfl⟩
abbrev main_v18 : Ref sig .tc := ⟨.hbm, 119, rfl⟩
abbrev main_v19 : Ref sig .tc := ⟨.hbm, 120, rfl⟩
abbrev main_v20 : Ref sig .tc := ⟨.hbm, 121, rfl⟩
abbrev main_cst_4 : Ref sig .tc := ⟨.hbm, 122, rfl⟩
abbrev main_v21 : Ref sig .tc := ⟨.hbm, 123, rfl⟩
abbrev main_v22 : Ref sig .tc := ⟨.hbm, 124, rfl⟩
abbrev main_cst_5 : Ref sig .tc := ⟨.hbm, 125, rfl⟩
abbrev main_v23 : Ref sig .tc := ⟨.hbm, 126, rfl⟩
abbrev main_v24 : Ref sig .tc := ⟨.hbm, 127, rfl⟩
abbrev main_cst_6 : Ref sig .tc := ⟨.hbm, 128, rfl⟩
abbrev main_v25 : Ref sig .tc := ⟨.hbm, 129, rfl⟩
abbrev main_v26 : Ref sig .tc := ⟨.hbm, 130, rfl⟩
abbrev main_cst_7 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_call4_c : Ref sig .tc := ⟨.hbm, 137, rfl⟩
abbrev main_call4_v0 : Ref sig .tc := ⟨.hbm, 138, rfl⟩
abbrev main_call4_v1 : Ref sig .tc := ⟨.hbm, 139, rfl⟩
abbrev main_call4_c_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_c_1 : Ref sig .tc := ⟨.hbm, 145, rfl⟩
abbrev main_call4_c_2 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_c_3 : Ref sig .tc := ⟨.hbm, 153, rfl⟩
abbrev main_call4_v12 : Ref sig .tc := ⟨.hbm, 154, rfl⟩
abbrev main_call4_v13 : Ref sig .tc := ⟨.hbm, 155, rfl⟩
abbrev main_call4_cst : Ref sig .tc := ⟨.hbm, 156, rfl⟩
abbrev main_call4_v14 : Ref sig .tc := ⟨.hbm, 157, rfl⟩
abbrev main_v32 : Ref sig .tc := ⟨.hbm, 158, rfl⟩
abbrev main_v33 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_cst_8 : Ref sig .tc := ⟨.hbm, 163, rfl⟩
abbrev main_v37 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_v41 : Ref sig .tc := ⟨.hbm, 168, rfl⟩
abbrev main_call5_c : Ref sig .tc := ⟨.hbm, 169, rfl⟩
abbrev main_call5_v0 : Ref sig .tc := ⟨.hbm, 170, rfl⟩
abbrev main_call5_v1 : Ref sig .tc := ⟨.hbm, 171, rfl⟩
abbrev main_call5_c_0 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_call5_v5 : Ref sig .tc := ⟨.hbm, 176, rfl⟩
abbrev main_call5_c_1 : Ref sig .tc := ⟨.hbm, 177, rfl⟩
abbrev main_call5_c_2 : Ref sig .tc := ⟨.hbm, 178, rfl⟩
abbrev main_call5_v6 : Ref sig .tc := ⟨.hbm, 179, rfl⟩
abbrev main_call5_v7 : Ref sig .tc := ⟨.hbm, 180, rfl⟩
abbrev main_call5_v8 : Ref sig .tc := ⟨.hbm, 181, rfl⟩
abbrev main_call5_v9 : Ref sig .tc := ⟨.hbm, 182, rfl⟩
abbrev main_call5_v10 : Ref sig .tc := ⟨.hbm, 183, rfl⟩
abbrev main_call5_v11 : Ref sig .tc := ⟨.hbm, 184, rfl⟩
abbrev main_call5_c_3 : Ref sig .tc := ⟨.hbm, 185, rfl⟩
abbrev main_call5_v12 : Ref sig .tc := ⟨.hbm, 186, rfl⟩
abbrev main_call5_v13 : Ref sig .tc := ⟨.hbm, 187, rfl⟩
abbrev main_call5_v14 : Ref sig .tc := ⟨.hbm, 188, rfl⟩
abbrev main_call5_cst : Ref sig .tc := ⟨.hbm, 189, rfl⟩
abbrev main_call5_v15 : Ref sig .tc := ⟨.hbm, 190, rfl⟩
abbrev main_v42 : Ref sig .tc := ⟨.hbm, 191, rfl⟩
abbrev main_v43 : Ref sig .tc := ⟨.hbm, 192, rfl⟩
abbrev main_v44 : Ref sig .tc := ⟨.hbm, 193, rfl⟩
abbrev main_v45 : Ref sig .tc := ⟨.hbm, 194, rfl⟩
abbrev main_cst_9 : Ref sig .tc := ⟨.hbm, 195, rfl⟩
abbrev main_v46 : Ref sig .tc := ⟨.hbm, 196, rfl⟩
abbrev main_v47 : Ref sig .tc := ⟨.hbm, 197, rfl⟩
abbrev main_v48 : Ref sig .tc := ⟨.hbm, 198, rfl⟩
abbrev main_v49 : Ref sig .tc := ⟨.hbm, 199, rfl⟩
abbrev main_v50 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_cond1 (i : grid1.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k1_cond2 (i : grid1.Coords) : BitVec 1 :=
  let arg0 : BitVec 32 := BitVec.ofNat 32 (i 0).val
  let c9_i32 : BitVec 32 := 9#32
  let v51 : BitVec 1 := Scalar.cmpi .eq arg0 c9_i32
  let v52 : BitVec 32 := Scalar.extui v51
  let c0_i32_27 : BitVec 32 := 0#32
  let v53 : BitVec 1 := Scalar.cmpi .ne v52 c0_i32_27
  v53

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x1 : S_.BroadcastsInDim S1250000x1 (![] : Fin 0 → Fin S1250000x1.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  reducesTo_S1250000x1_S1250000_d1 : S1250000x1.ReducesTo [1] S1250000
  h_S_ : 0 < S_.numel
  bcast_S1250000_S1250000x32_0 : S1250000.BroadcastsInDim S1250000x32 (![0] : Fin 1 → Fin S1250000x32.rank)
  bcast_S_S1250000x32 : S_.BroadcastsInDim S1250000x32 (![] : Fin 0 → Fin S1250000x32.rank)
  reducesTo_S1250000x32_S1250000_d1 : S1250000x32.ReducesTo [1] S1250000
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S1250000x1_S1250000x32_0_1 : S1250000x1.BroadcastsInDim S1250000x32 (![0, 1] : Fin 2 → Fin S1250000x32.rank)
  bcast_S_S100000x32 : S_.BroadcastsInDim S100000x32 (![] : Fin 0 → Fin S100000x32.rank)
  shapeCasts_S64_S1x64 : S64.ShapeCasts S1x64
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  slices_S10000x2_o0_0_S10000x1 : S10000x2.Slices ![0, 0] S10000x1
  slices_S10000x2_o0_1_S10000x1 : S10000x2.Slices ![0, 1] S10000x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S1250000_S1250000x64_0 : S1250000.BroadcastsInDim S1250000x64 (![0] : Fin 1 → Fin S1250000x64.rank)
  bcast_S_S1250000x64 : S_.BroadcastsInDim S1250000x64 (![] : Fin 0 → Fin S1250000x64.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  slices_S10000x64_o0_0_S1x64 : S10000x64.Slices ![0, 0] S1x64
  inb_S5x64_S1x64_0_0 : ∀ a, (![0, 0] : Fin 2 → Nat) a + S1x64.size a ≤ S5x64.size a
  slices_S10000x64_o1_0_S1x64 : S10000x64.Slices ![1, 0] S1x64
  inb_S5x64_S1x64_1_0 : ∀ a, (![1, 0] : Fin 2 → Nat) a + S1x64.size a ≤ S5x64.size a
  iota_S10000x64_d0_w32 : S10000x64.Iotas .tc 32 [0]
  reduces_S10000x64_S64 : S10000x64.Reduces [0] S64
  inb_S5x64_S1x64_2_0 : ∀ a, (![2, 0] : Fin 2 → Nat) a + S1x64.size a ≤ S5x64.size a
  inb_S5x64_S1x64_3_0 : ∀ a, (![3, 0] : Fin 2 → Nat) a + S1x64.size a ≤ S5x64.size a
  inb_S5x64_S1x64_4_0 : ∀ a, (![4, 0] : Fin 2 → Nat) a + S1x64.size a ≤ S5x64.size a
  gather_S100000x32_S1250000x1_S1250000x32_1_0_n_n_0_1_132_wf : GatherDims.WF S100000x32 S1250000x1 S1250000x32 [1] [0] [] [0] [] 1 ![1, 32]
  gather_S4_S1250000x1_S1250000_n_0_n_n_0_1_1_wf : GatherDims.WF S4 S1250000x1 S1250000 [] [0] [] [0] [] 1 ![1]
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  scatter_S100000x32_S1250000x1_S1250000x32_1_0_0_1_wf : ScatterDims.WF S100000x32 S1250000x1 S1250000x32 [1] [0] [0] 1
  dot_S10000x32_S32x64_S10000x64_1_0_0_1_n_n_wf : DotDims.WF S10000x32 S32x64 S10000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x2.size a ≤ S100000x2.size a
  hwx0_1 : ∀ i : grid0.Coords, EltTy.bits .f32 = 32 ∨ (Rect.block (s := S100000x2) S10000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x2.size a ≤ S100000x2.size a
  hwx1_1 : ∀ i : grid1.Coords, EltTy.bits .f32 = 32 ∨ (Rect.block (s := S100000x2) S10000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5x64.size a ≤ S5x64.size a
  hwx1_4 : ∀ i : grid1.Coords, EltTy.bits .f32 = 32 ∨ (Rect.block (s := S5x64) S5x64.size (cc1_transform_4 i) (hinb1_4 i)).WholeWords (EltTy.packing .f32)

variable [Facts₀]

def gather_S100000x32_S1250000x1_S1250000x32_1_0_n_n_0_1_132 : GatherDims S100000x32 S1250000x1 S1250000x32 where
  offsetDims := [1]
  collapsedSliceDims := [0]
  operandBatchingDims := []
  startIndicesBatchingDims := []
  startIndexMap := [0]
  indexVectorDim := 1
  sliceSizes := ![1, 32]
  wf := gather_S100000x32_S1250000x1_S1250000x32_1_0_n_n_0_1_132_wf
def gather_S4_S1250000x1_S1250000_n_0_n_n_0_1_1 : GatherDims S4 S1250000x1 S1250000 where
  offsetDims := []
  collapsedSliceDims := [0]
  operandBatchingDims := []
  startIndicesBatchingDims := []
  startIndexMap := [0]
  indexVectorDim := 1
  sliceSizes := ![1]
  wf := gather_S4_S1250000x1_S1250000_n_0_n_n_0_1_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x32_S1250000x1_S1250000x32_1_0_0_1 : ScatterDims S100000x32 S1250000x1 S1250000x32 where
  updateWindowDims := [1]
  insertedWindowDims := [0]
  scatterDimsToOperandDims := [0]
  indexVectorDim := 1
  wf := scatter_S100000x32_S1250000x1_S1250000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v39) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S10000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond1 i == 1#1) && !(k1_cond2 i == 1#1) | ⟨_ + 5, h⟩ => absurd h (Nat.not_lt.2 (Nat.le_add_left _ _))

class Facts : Prop extends Facts₀ where

variable [Facts]
-- ==== ReferenceIdeal.lean ====
abbrev S100000x32 : Shape := ⟨2, ![100000, 32]⟩
abbrev S1250000 : Shape := ⟨1, ![1250000]⟩
abbrev S32x64 : Shape := ⟨2, ![32, 64]⟩
abbrev S64 : Shape := ⟨1, ![64]⟩
abbrev S64x64 : Shape := ⟨2, ![64, 64]⟩
abbrev S4 : Shape := ⟨1, ![4]⟩
abbrev S_ : Shape := ⟨0, ![]⟩
abbrev S1250000x1 : Shape := ⟨2, ![1250000, 1]⟩
abbrev S1250000x32 : Shape := ⟨2, ![1250000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1250000x64 : Shape := ⟨2, ![1250000, 64]⟩
abbrev S99998x64 : Shape := ⟨2, ![99998, 64]⟩
abbrev S5x64 : Shape := ⟨2, ![5, 64]⟩

abbrev nBuf : Space → Nat
  | .hbm => 184
  | .vmem => 0
  | .smem => 0
  | _ => 0

abbrev hbmTy0_0 (i : Nat) : BufTy := match i % 128 with
  | 0 => ⟨S100000x32, .f32⟩
  | 1 => ⟨S1250000, .i32⟩
  | 2 => ⟨S1250000, .i32⟩
  | 3 => ⟨S1250000, .i32⟩
  | 4 => ⟨S32x64, .f32⟩
  | 5 => ⟨S64, .f32⟩
  | 6 => ⟨S64x64, .f32⟩
  | 7 => ⟨S64, .f32⟩
  | 8 => ⟨S4, .f32⟩
  | 9 => ⟨S4, .f32⟩
  | 10 => ⟨S_, .i32⟩
  | 11 => ⟨S1250000, .i32⟩
  | 12 => ⟨S1250000, .i1⟩
  | 13 => ⟨S_, .i32⟩
  | 14 => ⟨S1250000, .i32⟩
  | 15 => ⟨S1250000, .i32⟩
  | 16 => ⟨S1250000, .i32⟩
  | 17 => ⟨S1250000x1, .i32⟩
  | 18 => ⟨S1250000x32, .f32⟩
  | 19 => ⟨S_, .i32⟩
  | 20 => ⟨S1250000, .i32⟩
  | 21 => ⟨S1250000, .i1⟩
  | 22 => ⟨S_, .i32⟩
  | 23 => ⟨S1250000, .i32⟩
  | 24 => ⟨S1250000, .i32⟩
  | 25 => ⟨S1250000, .i32⟩
  | 26 => ⟨S1250000x1, .i32⟩
  | 27 => ⟨S1250000x32, .f32⟩
  | 28 => ⟨S1250000x32, .f32⟩
  | 29 => ⟨S1250000x32, .f32⟩
  | 30 => ⟨S_, .f32⟩
  | 31 => ⟨S1250000, .f32⟩
  | 32 => ⟨S1250000, .f32⟩
  | 33 => ⟨S_, .i32⟩
  | 34 => ⟨S1250000, .i32⟩
  | 35 => ⟨S1250000, .i1⟩
  | 36 => ⟨S_, .i32⟩
  | 37 => ⟨S1250000, .i32⟩
  | 38 => ⟨S1250000, .i32⟩
  | 39 => ⟨S1250000, .i32⟩
  | 40 => ⟨S1250000x1, .i32⟩
  | 41 => ⟨S1250000, .f32⟩
  | 42 => ⟨S1250000, .f32⟩
  | 43 => ⟨S1250000, .f32⟩
  | 44 => ⟨S1250000, .f32⟩
  | 45 => ⟨S_, .i32⟩
  | 46 => ⟨S1250000, .i32⟩
  | 47 => ⟨S1250000, .i1⟩
  | 48 => ⟨S_, .i32⟩
  | 49 => ⟨S1250000, .i32⟩
  | 50 => ⟨S1250000, .i32⟩
  | 51 => ⟨S1250000, .i32⟩
  | 52 => ⟨S1250000x1, .i32⟩
  | 53 => ⟨S1250000, .f32⟩
  | 54 => ⟨S1250000, .f32⟩
  | 55 => ⟨S_, .f32⟩
  | 56 => ⟨S1250000, .f32⟩
  | 57 => ⟨S1250000, .f32⟩
  | 58 => ⟨S1250000, .f32⟩
  | 59 => ⟨S1250000, .f32⟩
  | 60 => ⟨S_, .f32⟩
  | 61 => ⟨S1250000, .f32⟩
  | 62 => ⟨S_, .f32⟩
  | 63 => ⟨S100000, .f32⟩
  | 64 => ⟨S1250000x1, .i32⟩
  | 65 => ⟨S100000, .f32⟩
  | 66 => ⟨S_, .f32⟩
  | 67 => ⟨S100000, .f32⟩
  | 68 => ⟨S1250000x1, .i32⟩
  | 69 => ⟨S100000, .f32⟩
  | 70 => ⟨S_, .f32⟩
  | 71 => ⟨S100000, .f32⟩
  | 72 => ⟨S100000, .f32⟩
  | 73 => ⟨S_, .f32⟩
  | 74 => ⟨S100000, .f32⟩
  | 75 => ⟨S100000, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x32, .f32⟩
  | 84 => ⟨S100000x32, .f32⟩
  | 85 => ⟨S_, .i32⟩
  | 86 => ⟨S1250000, .i32⟩
  | 87 => ⟨S1250000, .i1⟩
  | 88 => ⟨S_, .i32⟩
  | 89 => ⟨S1250000, .i32⟩
  | 90 => ⟨S1250000, .i32⟩
  | 91 => ⟨S1250000, .i32⟩
  | 92 => ⟨S1250000x1, .i32⟩
  | 93 => ⟨S1250000x32, .f32⟩
  | 94 => ⟨S1250000x1, .f32⟩
  | 95 => ⟨S1250000x32, .f32⟩
  | 96 => ⟨S1250000x32, .f32⟩
  | 97 => ⟨S_, .f32⟩
  | 98 => ⟨S100000x32, .f32⟩
  | 99 => ⟨S1250000x1, .i32⟩
  | 100 => ⟨S100000x32, .f32⟩
  | 101 => ⟨S100000x1, .f32⟩
  | 102 => ⟨S100000x32, .f32⟩
  | 103 => ⟨S100000x32, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S_, .f32⟩
  | 112 => ⟨S1250000, .f32⟩
  | 113 => ⟨S_, .f32⟩
  | 114 => ⟨S100000, .f32⟩
  | 115 => ⟨S1250000x1, .i32⟩
  | 116 => ⟨S100000, .f32⟩
  | 117 => ⟨S_, .f32⟩
  | 118 => ⟨S100000, .f32⟩
  | 119 => ⟨S1250000x1, .i32⟩
  | 120 => ⟨S100000, .f32⟩
  | 121 => ⟨S_, .f32⟩
  | 122 => ⟨S100000, .f32⟩
  | 123 => ⟨S100000, .f32⟩
  | 124 => ⟨S_, .f32⟩
  | 125 => ⟨S100000, .f32⟩
  | 126 => ⟨S100000, .f32⟩
  | 127 => ⟨S_, .f32⟩
  | _ => ⟨S100000x32, .f32⟩

abbrev hbmTy0_1 (i : Nat) : BufTy := match i % 128 with
  | 0 => ⟨S100000, .f32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x64, .f32⟩
  | 7 => ⟨S100000x64, .f32⟩
  | 8 => ⟨S_, .i32⟩
  | 9 => ⟨S1250000, .i32⟩
  | 10 => ⟨S1250000, .i1⟩
  | 11 => ⟨S_, .i32⟩
  | 12 => ⟨S1250000, .i32⟩
  | 13 => ⟨S1250000, .i32⟩
  | 14 => ⟨S1250000, .i32⟩
  | 15 => ⟨S1250000x1, .i32⟩
  | 16 => ⟨S1250000x64, .f32⟩
  | 17 => ⟨S1250000x1, .f32⟩
  | 18 => ⟨S1250000x64, .f32⟩
  | 19 => ⟨S1250000x64, .f32⟩
  | 20 => ⟨S_, .f32⟩
  | 21 => ⟨S100000x64, .f32⟩
  | 22 => ⟨S1250000x1, .i32⟩
  | 23 => ⟨S100000x64, .f32⟩
  | 24 => ⟨S100000x1, .f32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S1x64, .f32⟩
  | 35 => ⟨S64, .f32⟩
  | 36 => ⟨S1x64, .f32⟩
  | 37 => ⟨S64, .f32⟩
  | 38 => ⟨S99998x64, .f32⟩
  | 39 => ⟨S_, .f32⟩
  | 40 => ⟨S64, .f32⟩
  | 41 => ⟨S_, .f32⟩
  | 42 => ⟨S64, .f32⟩
  | 43 => ⟨S64, .f32⟩
  | 44 => ⟨S99998x64, .f32⟩
  | 45 => ⟨S_, .f32⟩
  | 46 => ⟨S64, .f32⟩
  | 47 => ⟨S99998x64, .f32⟩
  | 48 => ⟨S_, .f32⟩
  | 49 => ⟨S64, .f32⟩
  | 50 => ⟨S1x64, .f32⟩
  | 51 => ⟨S1x64, .f32⟩
  | 52 => ⟨S1x64, .f32⟩
  | 53 => ⟨S1x64, .f32⟩
  | 54 => ⟨S1x64, .f32⟩
  | 55 => ⟨S5x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_cst_13 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call1_cst : Ref sig .tc := ⟨.hbm, 108, rfl⟩
abbrev main_call1_v0 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_20 : Ref sig .tc := ⟨.hbm, 121, rfl⟩
abbrev main_v84 : Ref sig .tc := ⟨.hbm, 122, rfl⟩
abbrev main_v85 : Ref sig .tc := ⟨.hbm, 123, rfl⟩
abbrev main_cst_21 : Ref sig .tc := ⟨.hbm, 124, rfl⟩
abbrev main_v86 : Ref sig .tc := ⟨.hbm, 125, rfl⟩
abbrev main_v87 : Ref sig .tc := ⟨.hbm, 126, rfl⟩
abbrev main_cst_22 : Ref sig .tc := ⟨.hbm, 127, rfl⟩
abbrev main_v88 : Ref sig .tc := ⟨.hbm, 128, rfl⟩
abbrev main_v89 : Ref sig .tc := ⟨.hbm, 129, rfl⟩
abbrev main_cst_23 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_c_24 : Ref sig .tc := ⟨.hbm, 136, rfl⟩
abbrev main_v95 : Ref sig .tc := ⟨.hbm, 137, rfl⟩
abbrev main_v96 : Ref sig .tc := ⟨.hbm, 138, rfl⟩
abbrev main_c_25 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_26 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_call2_cst : Ref sig .tc := ⟨.hbm, 159, rfl⟩
abbrev main_call2_v0 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_27 : Ref sig .tc := ⟨.hbm, 167, rfl⟩
abbrev main_v121 : Ref sig .tc := ⟨.hbm, 168, rfl⟩
abbrev main_cst_28 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_29 : Ref sig .tc := ⟨.hbm, 173, rfl⟩
abbrev main_v125 : Ref sig .tc := ⟨.hbm, 174, rfl⟩
abbrev main_v126 : Ref sig .tc := ⟨.hbm, 175, rfl⟩
abbrev main_cst_30 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  reducesTo_S1250000x32_S1250000_d1 : S1250000x32.ReducesTo [1] S1250000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1250000x1_S1250000x32_0_1 : S1250000x1.BroadcastsInDim S1250000x32 (![0, 1] : Fin 2 → Fin S1250000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1250000x1_S1250000x64_0_1 : S1250000x1.BroadcastsInDim S1250000x64 (![0, 1] : Fin 2 → Fin S1250000x64.rank)
  slices_S100000x64_S1x64_0_0 : S100000x64.Slices ![0, 0] S1x64
  shapeCasts_S1x64_S64 : S1x64.ShapeCasts S64
  slices_S100000x64_S1x64_1_0 : S100000x64.Slices ![1, 0] S1x64
  slices_S100000x64_S99998x64_2_0 : S100000x64.Slices ![2, 0] S99998x64
  reducesTo_S99998x64_S64_d0 : S99998x64.ReducesTo [0] S64
  bcast_S_S64 : S_.BroadcastsInDim S64 (![] : Fin 0 → Fin S64.rank)
  concatenates_S1x64_S1x64_S1x64_S1x64_S1x64_S5x64_d0 : Shape.Concatenates [S1x64, S1x64, S1x64, S1x64, S1x64] S5x64 0
  gather_S100000x32_S1250000x1_S1250000x32_1_0_n_n_0_1_132_wf : GatherDims.WF S100000x32 S1250000x1 S1250000x32 [1] [0] [] [0] [] 1 ![1, 32]
  gather_S4_S1250000x1_S1250000_n_0_n_n_0_1_1_wf : GatherDims.WF S4 S1250000x1 S1250000 [] [0] [] [0] [] 1 ![1]
  scatter_S100000_S1250000x1_S1250000_n_0_0_1_wf : ScatterDims.WF S100000 S1250000x1 S1250000 [] [0] [0] 1
  scatter_S100000x32_S1250000x1_S1250000x32_1_0_0_1_wf : ScatterDims.WF S100000x32 S1250000x1 S1250000x32 [1] [0] [0] 1
  dot_S100000x32_S32x64_S100000x64_1_0_0_1_n_n_wf : DotDims.WF S100000x32 S32x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x32_S1250000x1_S1250000x32_1_0_n_n_0_1_132 : GatherDims S100000x32 S1250000x1 S1250000x32 where
  offsetDims := [1]
  collapsedSliceDims := [0]
  operandBatchingDims := []
  startIndicesBatchingDims := []
  startIndexMap := [0]
  indexVectorDim := 1
  sliceSizes := ![1, 32]
  wf := gather_S100000x32_S1250000x1_S1250000x32_1_0_n_n_0_1_132_wf
def gather_S4_S1250000x1_S1250000_n_0_n_n_0_1_1 : GatherDims S4 S1250000x1 S1250000 where
  offsetDims := []
  collapsedSliceDims := [0]
  operandBatchingDims := []
  startIndicesBatchingDims := []
  startIndexMap := [0]
  indexVectorDim := 1
  sliceSizes := ![1]
  wf := gather_S4_S1250000x1_S1250000_n_0_n_n_0_1_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def scatter_S100000x32_S1250000x1_S1250000x32_1_0_0_1 : ScatterDims S100000x32 S1250000x1 S1250000x32 where
  updateWindowDims := [1]
  insertedWindowDims := [0]
  scatterDimsToOperandDims := [0]
  indexVectorDim := 1
  wf := scatter_S100000x32_S1250000x1_S1250000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Region0.lean ====
-- The first dense layer's region: its result array is covered by ten disjoint blocks of 10000 rows, one per grid point.
import proofs.«416059_j58626303591152_2_alg».proof.Proof.Gen.Kernel.Launch
import proofs.«416059_j58626303591152_2_alg».proof.Proof.Gen.Kernel.Skeleton
import proofs.«416059_j58626303591152_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_agg : Rect S10000x32 := Rect.unit (s := S10000x32) ![0, 0] S10000x32.size inb_S10000x32_S10000x32_0_0
abbrev r0_nrm : Rect S10000x2 := Rect.unit (s := S10000x2) ![0, 0] S10000x2.size inb_S10000x2_S10000x2_0_0
abbrev r0_W : Rect S32x64 := Rect.unit (s := S32x64) ![0, 0] S32x64.size inb_S32x64_S32x64_0_0
abbrev r0_b : Rect S1x64 := Rect.unit (s := S1x64) ![0, 0] S1x64.size inb_S1x64_S1x64_0_0

def out0_4 (x0 : Vec F S10000x32 .f32) (x1 : Vec F S10000x2 .f32) (x2 : Vec F S32x64 .f32) (x3 : Vec F S1x64 .f32) : Vec F S10000x64 .f32 :=
  View.canon [⟨r0_0, k0_pay1 (View.ld x1 r0_nrm) (View.ld x0 r0_agg) (View.ld x2 r0_W) (View.ld x3 r0_b)⟩]

theorem cover0_4 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
theorem sound_kernel0 (c : Dev nD) (E : Set ℕ) (i : grid0.Coords) (arg1 : Memref sig .tc .vmem S10000x32 .f32) (harg1 : arg1.IsWhole) (arg2 : Memref sig .tc .vmem S10000x2 .f32) (harg2 : arg2.IsWhole)
    (arg3 : Memref sig .tc .vmem S32x64 .f32) (harg3 : arg3.IsWhole) (arg4 : Memref sig .tc .vmem S1x64 .f32) (harg4 : arg4.IsWhole) (arg5 : Memref sig .tc .vmem S10000x64 .f32) (harg5 : arg5.IsWhole)
    (x0 : Vec F S10000x32 .f32) (x1 : Vec F S10000x2 .f32) (x2 : Vec F S32x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gc_dense_kernel1 i arg1 harg1 arg2 harg2 arg3 harg3 arg4 harg4 arg5 harg5) K := by
  simp only [cc0__gc_dense_kernel1_eq_skeleton]; unfold cc0__gc_dense_kernel1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.LibOverlay.lean ====
import Idealize.ShloMosaic.Lib.Pipeline.FrameBody
import Idealize.ShloMosaic.Lib.Pipeline.Frame
import Idealize.ShloMosaic.Lib.Pipeline.Value
import Idealize.ShloMosaic.Lib.Tactic

namespace Cert.Hand.Overlay

open Idealize.ShloMosaic Idealize.ShloMosaic.TcCoe

-- a list of written pieces laid over given contents, the first piece of the list on top
def over {Val : EltTy → Type} {S : Shape} {e : EltTy} (Y : S.Idx → Val e) : List (View.Piece Val S e) → S.Idx → Val e
  | [] => Y
  | p :: L => p.1.overlay (over Y L) p.2

theorem over_nil {Val : EltTy → Type} {S : Shape} {e : EltTy} (Y : S.Idx → Val e) : over Y ([] : List (View.Piece Val S e)) = Y := rfl

theorem over_cons {Val : EltTy → Type} {S : Shape} {e : EltTy} (Y : S.Idx → Val e) (p : View.Piece Val S e) (L : List (View.Piece Val S e)) :
    over Y (p :: L) = p.1.overlay (over Y L) p.2 := rfl

theorem hz2 : (![0, 0] : Fin 2 → ℕ) = fun _ => 0 := by funext a; fin_cases a <;> rfl

-- reading a view after a list of writes lays the pieces over what was read before
theorem read_writes_eq_over {sig : RefSig} {κ : Kind} {sp : Space} {S : Shape} {e : EltTy} {Val : EltTy → Type}
    (v : View sig κ sp S e) (f : v.ty.Contents Val) :
    ∀ L : List (View.Piece Val S e), v.read Val (v.writes Val f L) = over (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb, over_cons]
      exact (Rect.overlay_emb r _ w x).symm
    · have hy' : y ∉ Finset.univ.map p.1.emb := by rwa [Rect.map_emb_univ]
      rw [View.writes_cons, View.read_slice_write_of_not_mem p.1 _ _ _ hy', over_cons, Rect.overlay_of_not_mem _ _ _ hy,
        read_writes_eq_over v f L]

theorem read_writes_unit_zero {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

theorem over_append {Val : EltTy → Type} {S : Shape} {e : EltTy} (Y : S.Idx → Val e) (L L' : List (View.Piece Val S e)) :
    over Y (L ++ L') = over (over Y L') L := by
  induction L with
  | nil => rfl
  | cons p L ih => rw [List.cons_append, over_cons, over_cons, ih]

theorem over_apply_eq_canon {Val : EltTy → Type} [∀ e, Nonempty (Val e)] {S : Shape} {e : EltTy} (Y : S.Idx → Val e) (y : S.Idx) :
    ∀ L : List (View.Piece Val S e), (∃ p ∈ L, y ∈ p.1.set) → over Y L y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [over_cons, View.canon_cons_emb]
      exact Rect.overlay_emb r _ w x
    · have hL : ∃ p' ∈ L, y ∈ p'.1.set := by
        obtain ⟨p', hm, hy'⟩ := h
        rcases List.mem_cons.mp hm with rfl | hm
        · exact absurd hy' hy
        · exact ⟨p', hm, hy'⟩
      rw [over_cons, Rect.overlay_of_not_mem _ _ _ hy, View.canon_cons_of_not_mem p L hy]
      exact over_apply_eq_canon Y y L hL

-- pieces that cover every index hide the contents beneath them
theorem over_eq_canon {Val : EltTy → Type} [∀ e, Nonempty (Val e)] {S : Shape} {e : EltTy} (Y : S.Idx → Val e)
    (L : List (View.Piece Val S e)) (h : ∀ y, ∃ p ∈ L, y ∈ p.1.set) : over Y L = View.canon L :=
  funext fun y => over_apply_eq_canon Y y L (h y)

end Cert.Hand.Overlay
-- ==== Proof.K.Region1Data.lean ====
-- The statistics region: the running sum, maximum and minimum after n grid points.
import proofs.«416059_j58626303591152_2_alg».proof.Proof.Gen.Kernel.Launch
import proofs.«416059_j58626303591152_2_alg».proof.Proof.Gen.Kernel.Skeleton
import proofs.«416059_j58626303591152_2_alg».proof.Proof.Gen.Kernel.Points
import proofs.«416059_j58626303591152_2_alg».proof.Proof.LibOverlay
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel Cert.Kernel.Gen Cert.Hand.Overlay

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb0 (c : Dev nD) (t : Fin cfg1.N) : Vec F S10000x64 .f32 := iblk1 V c 0 t
abbrev xb1 (c : Dev nD) (t : Fin cfg1.N) : Vec F S10000x2 .f32 := iblk1 V c 1 t
abbrev xb2 (c : Dev nD) (t : Fin cfg1.N) : Vec F S64x64 .f32 := iblk1 V c 2 t
abbrev xb3 (c : Dev nD) (t : Fin cfg1.N) : Vec F S1x64 .f32 := iblk1 V c 3 t

def sumStep (c : Dev nD) (t : Fin cfg1.N) (acc : Vec F S1x64 .f32) : Vec F S1x64 .f32 :=
  k1_pay11 (grid1.coords t) (xb1 V c t) (xb0 V c t) (xb2 V c t) (xb3 V c t) acc

def maxStep (c : Dev nD) (t : Fin cfg1.N) (acc : Vec F S1x64 .f32) : Vec F S1x64 .f32 :=
  k1_pay1 (k1_pay12 (grid1.coords t) (xb1 V c t) (xb0 V c t) (xb2 V c t) (xb3 V c t)) acc

def minStep (c : Dev nD) (t : Fin cfg1.N) (acc : Vec F S1x64 .f32) : Vec F S1x64 .f32 :=
  k1_pay2 (k1_pay4 (xb1 V c t) (xb0 V c t) (xb2 V c t) (xb3 V c t)) (k1_pay10 (grid1.coords t)) acc

def sumN (c : Dev nD) : ℕ → Vec F S1x64 .f32
  | 0 => k1_pay5
  | n + 1 => if h : n < cfg1.N then sumStep V c ⟨n, h⟩ (sumN c n) else sumN c n

def maxN (c : Dev nD) : ℕ → Vec F S1x64 .f32
  | 0 => k1_pay6
  | n + 1 => if h : n < cfg1.N then maxStep V c ⟨n, h⟩ (maxN c n) else maxN c n

def minN (c : Dev nD) : ℕ → Vec F S1x64 .f32
  | 0 => k1_pay7
  | n + 1 => if h : n < cfg1.N then minStep V c ⟨n, h⟩ (minN c n) else minN c n

theorem sumN_zero (c : Dev nD) : sumN V c 0 = k1_pay5 := rfl
theorem maxN_zero (c : Dev nD) : maxN V c 0 = k1_pay6 := rfl
theorem minN_zero (c : Dev nD) : minN V c 0 = k1_pay7 := rfl

theorem sumN_succ (c : Dev nD) (t : Fin cfg1.N) : sumN V c (t.val + 1) = sumStep V c t (sumN V c t.val) := by
  rw [sumN, dif_pos t.isLt]
theorem maxN_succ (c : Dev nD) (t : Fin cfg1.N) : maxN V c (t.val + 1) = maxStep V c t (maxN V c t.val) := by
  rw [maxN, dif_pos t.isLt]
theorem minN_succ (c : Dev nD) (t : Fin cfg1.N) : minN V c (t.val + 1) = minStep V c t (minN V c t.val) := by
  rw [minN, dif_pos t.isLt]

def sumAt (c : Dev nD) (t : Fin cfg1.N) : Vec F S1x64 .f32 := sumN V c (t.val + 1)
def maxAt (c : Dev nD) (t : Fin cfg1.N) : Vec F S1x64 .f32 := maxN V c (t.val + 1)
def minAt (c : Dev nD) (t : Fin cfg1.N) : Vec F S1x64 .f32 := minN V c (t.val + 1)

abbrev r4_0 : Rect S5x64 := Rect.unit (s := S5x64) ![0, 0] S1x64.size inb_S5x64_S1x64_0_0
abbrev r4_1 : Rect S5x64 := Rect.unit (s := S5x64) ![1, 0] S1x64.size inb_S5x64_S1x64_1_0
abbrev r4_2 : Rect S5x64 := Rect.unit (s := S5x64) ![2, 0] S1x64.size inb_S5x64_S1x64_2_0
abbrev r4_3 : Rect S5x64 := Rect.unit (s := S5x64) ![3, 0] S1x64.size inb_S5x64_S1x64_3_0
abbrev r4_4 : Rect S5x64 := Rect.unit (s := S5x64) ![4, 0] S1x64.size inb_S5x64_S1x64_4_0

def piecesFirst (c : Dev nD) (t : Fin cfg1.N) : List (View.Piece (Elt F) S5x64 .f32) :=
  [⟨r4_1, k1_pay9 (xb1 V c t) (xb0 V c t) (xb2 V c t) (xb3 V c t)⟩,
   ⟨r4_0, k1_pay8 (xb1 V c t) (xb0 V c t) (xb2 V c t) (xb3 V c t)⟩]

def piecesLast (c : Dev nD) (t : Fin cfg1.N) : List (View.Piece (Elt F) S5x64 .f32) :=
  [⟨r4_4, minAt V c t⟩, ⟨r4_3, maxAt V c t⟩, ⟨r4_2, k1_pay3 (sumAt V c t)⟩]

def pieces4 (c : Dev nD) (t : Fin cfg1.N) : List (View.Piece (Elt F) S5x64 .f32) :=
  if t.val = 0 then piecesFirst V c t else if t.val = 9 then piecesLast V c t else []

theorem pieces4_first (c : Dev nD) (t : Fin cfg1.N) (h : t.val = 0) : pieces4 V c t = piecesFirst V c t := by
  unfold pieces4; rw [if_pos h]
theorem pieces4_last (c : Dev nD) (t : Fin cfg1.N) (h : t.val = 9) : pieces4 V c t = piecesLast V c t := by
  unfold pieces4; rw [if_neg (by omega), if_pos h]
theorem pieces4_mid (c : Dev nD) (t : Fin cfg1.N) (h0 : t.val ≠ 0) (h9 : t.val ≠ 9) : pieces4 V c t = [] := by
  unfold pieces4; rw [if_neg h0, if_neg h9]

def out1 (c : Dev nD) : Vec F S5x64 .f32 :=
  View.canon (piecesLast V c t1_9 ++ piecesFirst V c t1_0)

def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

def scr1 (c : Dev nD) (a b d : Vec F S1x64 .f32) : sProp 𝕄 :=
  iprop((∃ r, prngReg c r) ∗ others1 (F := F) c
    ∗ owns (c : Thread nD τ) (Memref.whole cc1_scratch0) fullShare a
    ∗ owns (c : Thread nD τ) (Memref.whole cc1_scratch1) fullShare b
    ∗ owns (c : Thread nD τ) (Memref.whole cc1_scratch2) fullShare d)

def phiN (c : Dev nD) : ℕ → sProp 𝕄
  | 0 => iprop((∃ r, prngReg c r) ∗ Pipeline.scopedRest spec1 c)
  | n + 1 => scr1 c (sumN V c (n + 1)) (maxN V c (n + 1)) (minN V c (n + 1))

theorem phiN_succ (c : Dev nD) (n : ℕ) : phiN V c (n + 1) = scr1 c (sumN V c (n + 1)) (maxN V c (n + 1)) (minN V c (n + 1)) := rfl

def rdat1 (c : Dev nD) : Pipeline.RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = over Y (pieces4 V c t)
  Φ t := phiN V c t.val
  q _ := fullShare
  owed _ := 0

theorem rdat1_A (c : Dev nD) (w : Fin cfg1.W) : (rdat1 V c).A w = V c (Pipeline.arrRef spec1 w) := by
  dsimp only [rdat1]

theorem rdat1_after_0 (c : Dev nD) (t : Fin cfg1.N) (Y X) : (rdat1 V c).after 0 t Y X = (X = Y) := by dsimp only [rdat1]
theorem rdat1_after_1 (c : Dev nD) (t : Fin cfg1.N) (Y X) : (rdat1 V c).after 1 t Y X = (X = Y) := by dsimp only [rdat1]
theorem rdat1_after_2 (c : Dev nD) (t : Fin cfg1.N) (Y X) : (rdat1 V c).after 2 t Y X = (X = Y) := by dsimp only [rdat1]
theorem rdat1_after_3 (c : Dev nD) (t : Fin cfg1.N) (Y X) : (rdat1 V c).after 3 t Y X = (X = Y) := by dsimp only [rdat1]
theorem rdat1_after_4 (c : Dev nD) (t : Fin cfg1.N) (Y X : Vec F S5x64 .f32) :
    (rdat1 V c).after 4 t Y X = (X = over Y (pieces4 V c t)) := by dsimp only [rdat1]

theorem rdat1_Φ (c : Dev nD) (t : Fin (cfg1.N + 1)) : (rdat1 V c).Φ t = phiN V c t.val := by dsimp only [rdat1]

end Cert.Kernel.Hand

end
-- ==== Proof.K.Region1.lean ====
-- The statistics region's body at the first, a middle and the last grid point.
import proofs.«416059_j58626303591152_2_alg».proof.Proof.K.Region1Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel Cert.Kernel.Gen Cert.Hand.Overlay

variable {F : FTy → Type} [FloatOps F]

local notation "𝕄" => MT nD τ sig Unit (Elt F) ℕ (UR sig nD τ) ℕ

local macro "rd_simp" : tactic =>
  `(tactic| simp only [View.readAt_eq_ld, View.ld_unit_zero (S := S10000x2) hz2, View.ld_unit_zero (S := S10000x64) hz2,
      View.ld_unit_zero (S := S64x64) hz2, View.ld_unit_zero (S := S1x64) hz2, View.readCov_unit_zero (S := S1x64) _ hz2])

variable (V : (c : Dev nD) → (b : Ref sig .tc) → Buf (Elt F) ((c : Thread nD τ).loc b))

set_option maxHeartbeats 1000000 in
theorem sound_kernel1_first (c : Dev nD) (E : Set ℕ) (i : grid1.Coords) (h1 : k1_cond1 i = 1#1) (h2 : ¬ k1_cond2 i = 1#1)
    (arg1 : Memref sig .tc .vmem S10000x64 .f32) (harg1 : arg1.IsWhole) (arg2 : Memref sig .tc .vmem S10000x2 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (x0 : Vec F S10000x64 .f32) (x1 : Vec F S10000x2 .f32) (x2 : Vec F S64x64 .f32) (x3 : Vec F S1x64 .f32) (y4 : Vec F S5x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4
        ∗ (∃ a, owns (c : Thread nD τ) arg6 fullShare a) ∗ (∃ b, owns (c : Thread nD τ) arg7 fullShare b) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (over y4 [⟨r4_1, k1_pay9 x1 x0 x2 x3⟩, ⟨r4_0, k1_pay8 x1 x0 x2 x3⟩])
            ∗ owns (c : Thread nD τ) arg6 fullShare (k1_pay11 i x1 x0 x2 x3 k1_pay5)
            ∗ owns (c : Thread nD τ) arg7 fullShare (k1_pay1 (k1_pay12 i x1 x0 x2 x3) k1_pay6)
            ∗ owns (c : Thread nD τ) arg8 fullShare (k1_pay2 (k1_pay4 x1 x0 x2 x3) (k1_pay10 i) k1_pay7)) -∗ K ⟨⟩))
      ⊢ wp frame (wpE (defs₀ (F := F)) Variants.none c none) E (cc1__gc_dense_stats_kernel i arg1 harg1 arg2 harg2 arg3 harg3 arg4 harg4 arg5 harg5 arg6 harg6 arg7 harg7 arg8 harg8) K := by
  simp only [cc1__gc_dense_stats_kernel_eq_skeleton]; unfold cc1__gc_dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%a, %f6, -, H6⟩, ⟨%b, %f7, -, H7⟩, ⟨%d, %f8, -, H8⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_words
    rw [read_writes_eq_over]
    rd_simp
  isplitl [H6]
  · iexists _; isplitr
    swap; · iexact H6
    ipureintro
    sl_unfold_words
    rw [read_writes_unit_zero (S := S1x64) _ _ hz2]
    rd_simp
  isplitl [H7]
  · iexists _; isplitr
    swap; · iexact H7
    ipureintro
    sl_unfold_words
    rw [read_writes_unit_zero (S := S1x64) _ _ hz2]
    rd_simp
  · iexists _; isplitr
    swap; · iexact H8
    ipureintro
    sl_unfold_words
    rw [read_writes_unit_zero (S := S1x64) _ _ hz2]
    rd_simp

set_option maxHeartbeats 1000000 in
theorem sound_kernel1_mid (c : Dev nD) (E : Set ℕ) (i : grid1.Coords) (h1 : ¬ k1_cond1 i = 1#1) (h2 : ¬ k1_cond2 i = 1#1)
    (arg1 : Memref sig .tc .vmem S10000x64 .f32) (harg1 : arg1.IsWhole) (arg2 : Memref sig .tc .vmem S10000x2 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (x0 : Vec F S10000x64 .f32) (x1 : Vec F S10000x2 .f32) (x2 : Vec F S64x64 .f32) (x3 : Vec F S1x64 .f32) (y4 : Vec F S5x64 .f32)
    (a b d : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4
        ∗ owns (c : Thread nD τ) arg6 fullShare a ∗ owns (c : Thread nD τ) arg7 fullShare b ∗ owns (c : Thread nD τ) arg8 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4
            ∗ owns (c : Thread nD τ) arg6 fullShare (k1_pay11 i x1 x0 x2 x3 a)
            ∗ owns (c : Thread nD τ) arg7 fullShare (k1_pay1 (k1_pay12 i x1 x0 x2 x3) b)
            ∗ owns (c : Thread nD τ) arg8 fullShare (k1_pay2 (k1_pay4 x1 x0 x2 x3) (k1_pay10 i) d)) -∗ K ⟨⟩))
      ⊢ wp frame (wpE (defs₀ (F := F)) Variants.none c none) E (cc1__gc_dense_stats_kernel i arg1 harg1 arg2 harg2 arg3 harg3 arg4 harg4 arg5 harg5 arg6 harg6 arg7 harg7 arg8 harg8) K := by
  simp only [cc1__gc_dense_stats_kernel_eq_skeleton]; unfold cc1__gc_dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
  subst hf0 hf1 hf2 hf3 hf4 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H6]
  · iexists _; isplitr
    swap; · iexact H6
    ipureintro
    sl_unfold_words
    rw [read_writes_unit_zero (S := S1x64) _ _ hz2]
    rd_simp
  isplitl [H7]
  · iexists _; isplitr
    swap; · iexact H7
    ipureintro
    sl_unfold_words
    rw [read_writes_unit_zero (S := S1x64) _ _ hz2]
    rd_simp
  · iexists _; isplitr
    swap; · iexact H8
    ipureintro
    sl_unfold_words
    rw [read_writes_unit_zero (S := S1x64) _ _ hz2]
    rd_simp

set_option maxHeartbeats 1000000 in
theorem sound_kernel1_last (c : Dev nD) (E : Set ℕ) (i : grid1.Coords) (h1 : ¬ k1_cond1 i = 1#1) (h2 : k1_cond2 i = 1#1)
    (arg1 : Memref sig .tc .vmem S10000x64 .f32) (harg1 : arg1.IsWhole) (arg2 : Memref sig .tc .vmem S10000x2 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (x0 : Vec F S10000x64 .f32) (x1 : Vec F S10000x2 .f32) (x2 : Vec F S64x64 .f32) (x3 : Vec F S1x64 .f32) (y4 : Vec F S5x64 .f32)
    (a b d : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4
        ∗ owns (c : Thread nD τ) arg6 fullShare a ∗ owns (c : Thread nD τ) arg7 fullShare b ∗ owns (c : Thread nD τ) arg8 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (over y4 [⟨r4_4, k1_pay2 (k1_pay4 x1 x0 x2 x3) (k1_pay10 i) d⟩,
                ⟨r4_3, k1_pay1 (k1_pay12 i x1 x0 x2 x3) b⟩, ⟨r4_2, k1_pay3 (k1_pay11 i x1 x0 x2 x3 a)⟩])
            ∗ owns (c : Thread nD τ) arg6 fullShare (k1_pay11 i x1 x0 x2 x3 a)
            ∗ owns (c : Thread nD τ) arg7 fullShare (k1_pay1 (k1_pay12 i x1 x0 x2 x3) b)
            ∗ owns (c : Thread nD τ) arg8 fullShare (k1_pay2 (k1_pay4 x1 x0 x2 x3) (k1_pay10 i) d)) -∗ K ⟨⟩))
      ⊢ wp frame (wpE (defs₀ (F := F)) Variants.none c none) E (cc1__gc_dense_stats_kernel i arg1 harg1 arg2 harg2 arg3 harg3 arg4 harg4 arg5 harg5 arg6 harg6 arg7 harg7 arg8 harg8) K := by
  simp only [cc1__gc_dense_stats_kernel_eq_skeleton]; unfold cc1__gc_dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
  subst hf0 hf1 hf2 hf3 hf4 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_words
    rw [read_writes_eq_over]
    rd_simp
  isplitl [H6]
  · iexists _; isplitr
    swap; · iexact H6
    ipureintro
    sl_unfold_words
    rw [read_writes_unit_zero (S := S1x64) _ _ hz2]
    rd_simp
  isplitl [H7]
  · iexists _; isplitr
    swap; · iexact H7
    ipureintro
    sl_unfold_words
    rw [read_writes_unit_zero (S := S1x64) _ _ hz2]
    rd_simp
  · iexists _; isplitr
    swap; · iexact H8
    ipureintro
    sl_unfold_words
    rw [read_writes_unit_zero (S := S1x64) _ _ hz2]
    rd_simp

theorem cond1_iff : ∀ t : Fin cfg1.N, k1_cond1 (grid1.coords t) = 1#1 ↔ t.val = 0 :=
  (by decide +kernel : ∀ t : Fin grid1.N, k1_cond1 (grid1.coords t) = 1#1 ↔ t.val = 0)

theorem cond2_iff : ∀ t : Fin cfg1.N, k1_cond2 (grid1.coords t) = 1#1 ↔ t.val = 9 :=
  (by decide +kernel : ∀ t : Fin grid1.N, k1_cond2 (grid1.coords t) = 1#1 ↔ t.val = 9)

theorem finds1_0 (c : Dev nD) (t : Fin cfg1.N) (Y : (cfg1.win 0).block.Idx → Elt F (cfg1.win 0).elt)
    (h : (rdat1 V c).Finds 0 t Y) : Y = iblk1 V c 0 t := by
  obtain ⟨d, hd⟩ := Pipeline.RDat.finds_in_eq_fetched (rdat1 V c) 0 rfl (fun _ _ _ => rfl)
    (fun t Y X h => by rw [rdat1_after_0] at h; exact h) t Y h
  rw [hd]; unfold RDat.fetched RDat.blockOf iblk1; rw [rdat1_A]; try rfl

theorem finds1_1 (c : Dev nD) (t : Fin cfg1.N) (Y : (cfg1.win 1).block.Idx → Elt F (cfg1.win 1).elt)
    (h : (rdat1 V c).Finds 1 t Y) : Y = iblk1 V c 1 t := by
  obtain ⟨d, hd⟩ := Pipeline.RDat.finds_in_eq_fetched (rdat1 V c) 1 rfl (fun _ _ _ => rfl)
    (fun t Y X h => by rw [rdat1_after_1] at h; exact h) t Y h
  rw [hd]; unfold RDat.fetched RDat.blockOf iblk1; rw [rdat1_A]; try rfl

theorem finds1_2 (c : Dev nD) (t : Fin cfg1.N) (Y : (cfg1.win 2).block.Idx → Elt F (cfg1.win 2).elt)
    (h : (rdat1 V c).Finds 2 t Y) : Y = iblk1 V c 2 t := by
  obtain ⟨d, hd⟩ := Pipeline.RDat.finds_in_eq_fetched (rdat1 V c) 2 rfl (fun _ _ _ => rfl)
    (fun t Y X h => by rw [rdat1_after_2] at h; exact h) t Y h
  rw [hd]; unfold RDat.fetched RDat.blockOf iblk1; rw [rdat1_A]; try rfl

theorem finds1_3 (c : Dev nD) (t : Fin cfg1.N) (Y : (cfg1.win 3).block.Idx → Elt F (cfg1.win 3).elt)
    (h : (rdat1 V c).Finds 3 t Y) : Y = iblk1 V c 3 t := by
  obtain ⟨d, hd⟩ := Pipeline.RDat.finds_in_eq_fetched (rdat1 V c) 3 rfl (fun _ _ _ => rfl)
    (fun t Y X h => by rw [rdat1_after_3] at h; exact h) t Y h
  rw [hd]; unfold RDat.fetched RDat.blockOf iblk1; rw [rdat1_A]; try rfl

theorem rest_open (c : Dev nD) :
    (Pipeline.scopedRest spec1 c : sProp 𝕄)
      ⊢ iprop(others1 (F := F) c ∗ (∃ a, owns (c : Thread nD τ) (Memref.whole cc1_scratch0) fullShare a)
          ∗ (∃ b, owns (c : Thread nD τ) (Memref.whole cc1_scratch1) fullShare b)
          ∗ (∃ d, owns (c : Thread nD τ) (Memref.whole cc1_scratch2) fullShare d)) := by
  rw [scopedRest1_eq]; unfold others1
  iintro ⟨A1, A2, A3, A4, A5, A6, A7, A8, ⟨%f0, S0⟩, ⟨%f1, S1⟩, ⟨%f2, S2⟩⟩
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [S0]; · iexists f0; rw [owns_whole]; iexact S0
  isplitl [S1]; · iexists f1; rw [owns_whole]; iexact S1
  iexists f2; rw [owns_whole]; iexact S2

theorem rest_close (c : Dev nD) (a b d : Vec F S1x64 .f32) :
    iprop(others1 (F := F) c ∗ owns (c : Thread nD τ) (Memref.whole cc1_scratch0) fullShare a
        ∗ owns (c : Thread nD τ) (Memref.whole cc1_scratch1) fullShare b
        ∗ owns (c : Thread nD τ) (Memref.whole cc1_scratch2) fullShare d)
      ⊢ (Pipeline.scopedRest spec1 c : sProp 𝕄) := by
  rw [scopedRest1_eq]; unfold others1
  rw [owns_whole, owns_whole, owns_whole]
  iintro ⟨⟨A1, A2, A3, A4, A5, A6, A7, A8⟩, S0, S1, S2⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexists a; iexact S0
  isplitl [S1]; · iexists b; iexact S1
  iexists d; iexact S2

def bodyPre1 (c : Dev nD) (t : Fin cfg1.N) (y4 : Vec F S5x64 .f32) : sProp 𝕄 :=
  iprop(phiN V c t.val ∗ (rdat1 V c).owesAt () t.castSucc
    ∗ owns (c : Thread nD τ) (st1_0 t) fullShare (xb0 V c t)
    ∗ owns (c : Thread nD τ) (st1_1 t) fullShare (xb1 V c t)
    ∗ owns (c : Thread nD τ) (st1_2 t) fullShare (xb2 V c t)
    ∗ owns (c : Thread nD τ) (st1_3 t) fullShare (xb3 V c t)
    ∗ owns (c : Thread nD τ) (st1_4 t) fullShare y4)

def bodyPost1 (c : Dev nD) (t : Fin cfg1.N) (y4 : Vec F S5x64 .f32) : sProp 𝕄 :=
  iprop(phiN V c (t.val + 1) ∗ (rdat1 V c).owesAt () t.castSucc
    ∗ owns (c : Thread nD τ) (st1_0 t) fullShare (xb0 V c t)
    ∗ owns (c : Thread nD τ) (st1_1 t) fullShare (xb1 V c t)
    ∗ owns (c : Thread nD τ) (st1_2 t) fullShare (xb2 V c t)
    ∗ owns (c : Thread nD τ) (st1_3 t) fullShare (xb3 V c t)
    ∗ owns (c : Thread nD τ) (st1_4 t) fullShare (over y4 (pieces4 V c t)))

theorem sound_body1_first (c : Dev nD) (t : Fin cfg1.N) (h0 : t.val = 0) (y4 : Vec F S5x64 .f32) (K : PUnit → sProp 𝕄) :
    iprop(bodyPre1 V c t y4 ∗ (bodyPost1 V c t y4 -∗ K ⟨⟩))
      ⊢ wp frame (wpE (defs₀ (F := F)) Variants.none c none) Set.univ (bodyAt1 t) K := by
  have hc1 : k1_cond1 (grid1.coords t) = 1#1 := (cond1_iff t).mpr h0
  have hc2 : ¬ k1_cond2 (grid1.coords t) = 1#1 := fun h => by have := (cond2_iff t).mp h; omega
  have eΦ : phiN V c t.val = iprop((∃ r, prngReg c r) ∗ Pipeline.scopedRest spec1 c) := by rw [h0]; rfl
  have eS : sumN V c (t.val + 1) = k1_pay11 (grid1.coords t) (xb1 V c t) (xb0 V c t) (xb2 V c t) (xb3 V c t) k1_pay5 := by
    rw [sumN_succ, h0, sumN_zero]; rfl
  have eM : maxN V c (t.val + 1) = k1_pay1 (k1_pay12 (grid1.coords t) (xb1 V c t) (xb0 V c t) (xb2 V c t) (xb3 V c t)) k1_pay6 := by
    rw [maxN_succ, h0, maxN_zero]; rfl
  have eN : minN V c (t.val + 1) = k1_pay2 (k1_pay4 (xb1 V c t) (xb0 V c t) (xb2 V c t) (xb3 V c t)) (k1_pay10 (grid1.coords t)) k1_pay7 := by
    rw [minN_succ, h0, minN_zero]; rfl
  unfold bodyPre1 bodyPost1 bodyAt1
  rw [eΦ, phiN_succ, eS, eM, eN, pieces4_first V c t h0]
  unfold piecesFirst scr1
  iintro ⟨⟨⟨Hr, Hrest⟩, Ho, H0, H1, H2, H3, H4⟩, Hk⟩
  ihave Hrest' := (rest_open (F := F) c) $$ Hrest
  icases Hrest' with ⟨Hoth, S0, S1, S2⟩
  iapply (sound_kernel1_first c Set.univ (grid1.coords t) hc1 hc2 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (Memref.whole cc1_scratch2) (Memref.isWhole_whole _)
    (xb0 V c t) (xb1 V c t) (xb2 V c t) (xb3 V c t) y4 K)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, H3, H4, S0, S1, S2⟩
  iapply Hk
  isplitl [Hr Hoth S0 S1 S2]
  · isplitl [Hr]; · iexact Hr
    isplitl [Hoth]; · iexact Hoth
    isplitl [S0]; · iexact S0
    isplitl [S1]; · iexact S1
    iexact S2
  isplitl [Ho]; · iexact Ho
  isplitl [H0]; · iexact H0
  isplitl [H1]; · iexact H1
  isplitl [H2]; · iexact H2
  isplitl [H3]; · iexact H3
  iexact H4

theorem sound_body1_mid (c : Dev nD) (t : Fin cfg1.N) (h0 : t.val ≠ 0) (h9 : t.val ≠ 9) (y4 : Vec F S5x64 .f32) (K : PUnit → sProp 𝕄) :
    iprop(bodyPre1 V c t y4 ∗ (bodyPost1 V c t y4 -∗ K ⟨⟩))
      ⊢ wp frame (wpE (defs₀ (F := F)) Variants.none c none) Set.univ (bodyAt1 t) K := by
  have hc1 : ¬ k1_cond1 (grid1.coords t) = 1#1 := fun h => h0 ((cond1_iff t).mp h)
  have hc2 : ¬ k1_cond2 (grid1.coords t) = 1#1 := fun h => h9 ((cond2_iff t).mp h)
  have eΦ : phiN V c t.val = scr1 c (sumN V c t.val) (maxN V c t.val) (minN V c t.val) := by
    obtain ⟨n, hn⟩ : ∃ n, t.val = n + 1 := ⟨t.val - 1, by omega⟩
    rw [hn]; rfl
  unfold bodyPre1 bodyPost1 bodyAt1
  rw [eΦ, phiN_succ, sumN_succ, maxN_succ, minN_succ, pieces4_mid V c t h0 h9, over_nil]
  unfold sumStep maxStep minStep scr1
  iintro ⟨⟨⟨Hr, Hoth, S0, S1, S2⟩, Ho, H0, H1, H2, H3, H4⟩, Hk⟩
  iapply (sound_kernel1_mid c Set.univ (grid1.coords t) hc1 hc2 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (Memref.whole cc1_scratch2) (Memref.isWhole_whole _)
    (xb0 V c t) (xb1 V c t) (xb2 V c t) (xb3 V c t) y4 (sumN V c t.val) (maxN V c t.val) (minN V c t.val) K)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, H3, H4, S0, S1, S2⟩
  iapply Hk
  isplitl [Hr Hoth S0 S1 S2]
  · isplitl [Hr]; · iexact Hr
    isplitl [Hoth]; · iexact Hoth
    isplitl [S0]; · iexact S0
    isplitl [S1]; · iexact S1
    iexact S2
  isplitl [Ho]; · iexact Ho
  isplitl [H0]; · iexact H0
  isplitl [H1]; · iexact H1
  isplitl [H2]; · iexact H2
  isplitl [H3]; · iexact H3
  iexact H4

theorem sound_body1_last (c : Dev nD) (t : Fin cfg1.N) (h9 : t.val = 9) (y4 : Vec F S5x64 .f32) (K : PUnit → sProp 𝕄) :
    iprop(bodyPre1 V c t y4 ∗ (bodyPost1 V c t y4 -∗ K ⟨⟩))
      ⊢ wp frame (wpE (defs₀ (F := F)) Variants.none c none) Set.univ (bodyAt1 t) K := by
  have hc1 : ¬ k1_cond1 (grid1.coords t) = 1#1 := fun h => by have := (cond1_iff t).mp h; omega
  have hc2 : k1_cond2 (grid1.coords t) = 1#1 := (cond2_iff t).mpr h9
  have eΦ : phiN V c t.val = scr1 c (sumN V c t.val) (maxN V c t.val) (minN V c t.val) := by
    obtain ⟨n, hn⟩ : ∃ n, t.val = n + 1 := ⟨t.val - 1, by omega⟩
    rw [hn]; rfl
  unfold bodyPre1 bodyPost1 bodyAt1
  rw [eΦ, phiN_succ, pieces4_last V c t h9]
  unfold piecesLast sumAt maxAt minAt
  rw [sumN_succ, maxN_succ, minN_succ]
  unfold sumStep maxStep minStep scr1
  iintro ⟨⟨⟨Hr, Hoth, S0, S1, S2⟩, Ho, H0, H1, H2, H3, H4⟩, Hk⟩
  iapply (sound_kernel1_last c Set.univ (grid1.coords t) hc1 hc2 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (Memref.whole cc1_scratch2) (Memref.isWhole_whole _)
    (xb0 V c t) (xb1 V c t) (xb2 V c t) (xb3 V c t) y4 (sumN V c t.val) (maxN V c t.val) (minN V c t.val) K)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, H3, H4, S0, S1, S2⟩
  iapply Hk
  isplitl [Hr Hoth S0 S1 S2]
  · isplitl [Hr]; · iexact Hr
    isplitl [Hoth]; · iexact Hoth
    isplitl [S0]; · iexact S0
    isplitl [S1]; · iexact S1
    iexact S2
  isplitl [Ho]; · iexact Ho
  isplitl [H0]; · iexact H0
  isplitl [H1]; · iexact H1
  isplitl [H2]; · iexact H2
  isplitl [H3]; · iexact H3
  iexact H4

theorem sound_body1 (c : Dev nD) (t : Fin cfg1.N) (y4 : Vec F S5x64 .f32) (K : PUnit → sProp 𝕄) :
    iprop(bodyPre1 V c t y4 ∗ (bodyPost1 V c t y4 -∗ K ⟨⟩))
      ⊢ wp frame (wpE (defs₀ (F := F)) Variants.none c none) Set.univ (bodyAt1 t) K := by
  by_cases h0 : t.val = 0
  · exact sound_body1_first V c t h0 y4 K
  by_cases h9 : t.val = 9
  · exact sound_body1_last V c t h9 y4 K
  exact sound_body1_mid V c t h0 h9 y4 K

theorem body_obligation1 (c : Dev nD) : (rdat1 (F := F) V c).BodyObligation (defs₀ (F := F)) Variants.none () Set.univ := fun t Y hY => by
  have e0 := finds1_0 V c t (Y 0) (hY 0)
  have e1 := finds1_1 V c t (Y 1) (hY 1)
  have e2 := finds1_2 V c t (Y 2) (hY 2)
  have e3 := finds1_3 V c t (Y 3) (hY 3)
  rw [bigSep_W1, bigSep_W1]
  simp only [rdat1_after_0, rdat1_after_1, rdat1_after_2, rdat1_after_3, rdat1_after_4]
  rw [show (rdat1 V c).owesAt () t.succ = (rdat1 V c).owesAt () t.castSucc from rfl, rdat1_Φ, rdat1_Φ, e0, e1, e2, e3]
  iintro ⟨HΦ, Ho, H0, H1, H2, H3, H4⟩
  iapply (sound_body1 V c t (Y 4) _)
  isplitl [HΦ Ho H0 H1 H2 H3 H4]
  · unfold bodyPre1
    isplitl [HΦ]; · iexact HΦ
    isplitl [Ho]; · iexact Ho
    isplitl [H0]; · iexact H0
    isplitl [H1]; · iexact H1
    isplitl [H2]; · iexact H2
    isplitl [H3]; · iexact H3
    iexact H4
  unfold bodyPost1
  iintro ⟨HΦ, Ho, H0, H1, H2, H3, H4⟩
  isplitl [HΦ]; · iexact HΦ
  isplitl [Ho]; · iexact Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr; · ipureintro; rfl
  iexact H4

theorem phi1_in (c : Dev nD) : iprop((∃ r, prngReg c r) ∗ Pipeline.scopedRest spec1 c) ⊢ ((rdat1 V c).Φ 0 : sProp 𝕄) := by
  rw [rdat1_Φ]
  exact (show iprop((∃ r, prngReg c r) ∗ Pipeline.scopedRest spec1 c) ⊢ (phiN V c 0 : sProp 𝕄) from .rfl)

theorem phi1_out (c : Dev nD) : ((rdat1 V c).Φ (Fin.last cfg1.N) : sProp 𝕄) ⊢ iprop((∃ r, prngReg c r) ∗ Pipeline.scopedRest spec1 c) := by
  have e : (Fin.last cfg1.N).val = 9 + 1 := N_1
  rw [rdat1_Φ, e, phiN_succ]
  unfold scr1
  iintro ⟨Hr, Hrest⟩
  isplitl [Hr]; · iexact Hr
  iapply (rest_close (F := F) c _ _ _)
  iexact Hrest

theorem fetch1_4 (t : Fin cfg1.N) : (cfg1.win 4).fetch t = false := rfl

theorem arrAt4_before (c : Dev nD) : ∀ n, n ≤ 9 → ∀ G, (rdat1 V c).ArrAt 4 n G → G = (rdat1 V c).A 4
  | 0, _, G, h => h
  | n + 1, hn, G, h => by
    have hlt : n < cfg1.N := by have := N_1; show n < grid1.N; omega
    have hs : (rdat1 V c).ArrAt 4 (n + 1) = _ := (rdat1 V c).ArrAt_succ 4 ⟨n, hlt⟩
    have hfl : (cfg1.win 4).flush ⟨n, hlt⟩ = false := by
      rw [Bool.eq_false_iff]; intro hf
      have := (flush1_4 ⟨n, hlt⟩).mp hf
      simp only at this; omega
    rw [hs, hfl, if_neg Bool.false_ne_true] at h
    exact arrAt4_before c n (by omega) G h

theorem leaves4_before (c : Dev nD) : ∀ (n : ℕ) (t : Fin cfg1.N), t.val = n → n ≤ 8 →
    ∀ X : Vec F S5x64 .f32, (rdat1 V c).Leaves 4 t X → ∃ Y0 : Vec F S5x64 .f32, X = over Y0 (piecesFirst V c t1_0)
  | 0, t, ht, _, X, h => by
    obtain ⟨Y, -, hR⟩ := h
    rw [rdat1_after_4, pieces4_first V c t ht] at hR
    have et : t = t1_0 := Fin.ext ht
    rw [et] at hR
    exact ⟨Y, hR⟩
  | n + 1, t, ht, hn, X, h => by
    obtain ⟨Y, hF, hR⟩ := h
    rw [rdat1_after_4, pieces4_mid V c t (by omega) (by omega), over_nil] at hR
    subst hR
    rcases ((rdat1 V c).finds_of_pos (fetch1_4 t) (by omega) _).mp hF with hfl | hL
    · exfalso
      have := (flush1_4 _).mp hfl
      simp only at this; omega
    · exact leaves4_before c n ⟨t.val - 1, Nat.lt_of_le_of_lt (Nat.sub_le _ _) t.isLt⟩ (by simp only; omega) (by omega) _ hL

theorem cover4 (p4 p3 p2 p1 p0 : Vec F S1x64 .f32) (y : S5x64.Idx) :
    ∃ pc ∈ ([⟨r4_4, p4⟩, ⟨r4_3, p3⟩, ⟨r4_2, p2⟩, ⟨r4_1, p1⟩, ⟨r4_0, p0⟩] : List (View.Piece (Elt F) S5x64 .f32)), y ∈ pc.1.set :=
  View.cover_of_tiled (s := S5x64) ([⟨r4_4, p4⟩, ⟨r4_3, p3⟩, ⟨r4_2, p2⟩, ⟨r4_1, p1⟩, ⟨r4_0, p0⟩] : List (View.Piece (Elt F) S5x64 .f32)) S1x64.size (by rfl) y

theorem final1 (c : Dev nD) (Fb : Buf (Elt F) ((cfg1.win 4).arr.view.loc (c.tc : Thread nD τ)))
    (h : (rdat1 V c).ArrAt 4 cfg1.N Fb) :
    Fb = ((cfg1.win 4).blk t1_9).view.write (Elt F) (V c (Pipeline.arrRef spec1 4)) (out1 V c) Finset.univ := by
  have hs : (rdat1 V c).ArrAt 4 cfg1.N = _ := (rdat1 V c).ArrAt_succ 4 t1_9
  have hfl : (cfg1.win 4).flush t1_9 = true := (flush1_4 t1_9).mpr rfl
  rw [hs, hfl, if_pos rfl] at h
  obtain ⟨G₀, X, hG, hL, rfl⟩ := h
  have eG := arrAt4_before V c 9 (le_refl _) G₀ hG
  obtain ⟨Y, hF, hR⟩ := hL
  rw [rdat1_after_4, pieces4_last V c t1_9 rfl] at hR
  rcases ((rdat1 V c).finds_of_pos (fetch1_4 t1_9) (by decide) _).mp hF with hfl8 | hL8
  · exfalso
    have := (flush1_4 _).mp hfl8
    revert this; decide
  obtain ⟨Y0, hY0⟩ := leaves4_before V c 8 _ rfl (le_refl _) Y hL8
  subst hY0; subst hR
  have hcov : ∀ y, ∃ p ∈ piecesLast V c t1_9 ++ piecesFirst V c t1_0, y ∈ p.1.set := fun y => cover4 _ _ _ _ _ y
  have eX : over (over Y0 (piecesFirst V c t1_0)) (piecesLast V c t1_9) = out1 V c := by
    rw [← over_append, over_eq_canon _ _ hcov]; rfl
  rw [eX, eG, rdat1_A]
  rfl

end Cert.Kernel.Hand

end
-- ==== Proof.K.Run.lean ====
-- The program's eleven items composed in order: a host stretch applies its operations, a region replaces its result array.
import proofs.«416059_j58626303591152_2_alg».proof.Proof.K.Region0
import proofs.«416059_j58626303591152_2_alg».proof.Proof.K.Region1
import proofs.«416059_j58626303591152_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ent0 : (c : Dev nD) → (b : Ref sig .tc) → Buf (Elt F) ((c : Thread nD τ).loc b) := fun c b => V7 m c b

def res0 (c : Dev nD) : Buf (Elt F) ((c : Thread nD τ).loc main_v41) := (dat0 (ent0 m) c).arrAt 4 cfg0.N

abbrev ent1W (c : Dev nD) : Valuation τ sig (Elt F) :=
  StableHlo.after hostOps1_1 (StableHlo.after hostOps1 (Function.update (V7 m c) main_v41 (res0 m c)))
abbrev ent1 : (c : Dev nD) → (b : Ref sig .tc) → Buf (Elt F) ((c : Thread nD τ).loc b) := fun c b => ent1W m c b

def res1 (c : Dev nD) : Buf (Elt F) ((c : Thread nD τ).loc main_v50) :=
  ((cfg1.win 4).blk t1_9).view.write (Elt F) (ent1 m c (Pipeline.arrRef spec1 4)) (out1 (ent1 m) c) Finset.univ

def outs : Outs (F := F) := fun _ r c =>
  if h : r = main_v41 then h ▸ res0 m c else if h' : r = main_v50 then h' ▸ res1 m c else V0 m c r

theorem outs_v41 (J : ℕ) (c : Dev nD) : outs m J main_v41 c = res0 m c := by
  unfold outs; rw [dif_pos rfl]
theorem outs_v50 (J : ℕ) (c : Dev nD) : outs m J main_v50 c = res1 m c := by
  unfold outs; rw [dif_neg (by decide), dif_pos rfl]

theorem V10_eq (c : Dev nD) : V10 m (outs m) c = ent1W m c := by
  show StableHlo.after hostOps1_1 (StableHlo.after hostOps1 (Function.update (V7 m c) main_v41 (outs m 8 main_v41 c))) = _
  rw [outs_v41]

def rdats : (p : Fin 2) → (c : Dev nD) → RDat τ (Elt F) Unit ℕ (UR sig nD τ) ℕ (Pipeline.pin (pcfgs (F := F)) adm p) c
  | ⟨0, _⟩ => fun c => (dat0 (ent0 m) c).toR
  | ⟨1, _⟩ => fun c => rdat1 (ent1 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ER : Fin 3 → Dev nD → sProp 𝕄 := fun _ c => R c

theorem bufs_of_arrays {p : Fin 2} (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c.tc : Thread nD τ).loc b))
    (Fw : (w : Fin (Pipeline.pin (pcfgs (F := F)) adm p).W) → Buf (Elt F) (((Pipeline.pin (pcfgs (F := F)) adm p).spec w).arr.view.loc (c.tc : Thread nD τ)))
    (hF : ∀ w, Fw w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays Fw ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

theorem hF0 (c : Dev nD) : ∀ w : Fin cfg0.W, (dat0 (ent0 m) c).arrAt w cfg0.N = V8 m (outs m) c (Pipeline.arrRef spec0 w)
  | ⟨0, _⟩ => ((dat0 (ent0 m) c).arrAt_in 0 rfl _).trans ((A_eq0 (ent0 m) c 0).trans (V8_of m (outs m) c _ (by decide)).symm)
  | ⟨1, _⟩ => ((dat0 (ent0 m) c).arrAt_in 1 rfl _).trans ((A_eq0 (ent0 m) c 1).trans (V8_of m (outs m) c _ (by decide)).symm)
  | ⟨2, _⟩ => ((dat0 (ent0 m) c).arrAt_in 2 rfl _).trans ((A_eq0 (ent0 m) c 2).trans (V8_of m (outs m) c _ (by decide)).symm)
  | ⟨3, _⟩ => ((dat0 (ent0 m) c).arrAt_in 3 rfl _).trans ((A_eq0 (ent0 m) c 3).trans (V8_of m (outs m) c _ (by decide)).symm)
  | ⟨4, _⟩ => by
    show _ = Function.update (V7 m c) main_v41 (outs m 8 main_v41 c) main_v41
    rw [Function.update_self, outs_v41]; rfl
  | ⟨_ + 5, h⟩ => absurd h (Nat.not_lt.2 (Nat.le_add_left _ _))

theorem hrest0 (c : Dev nD) : ∀ b, b ∉ Finset.univ.image (Pipeline.arrRef spec0) → (fun b => V8 m (outs m) c b) b = ent0 m c b :=
  fun b hb => V8_of m (outs m) c b (by
    intro h; apply hb; rw [List.mem_singleton] at h; subst h
    exact Finset.mem_image.mpr ⟨4, Finset.mem_univ _, rfl⟩)

set_option backward.isDefEq.respectTransparency.types false in
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (ent0 m) c).loose).toR
  hwaits := Pipeline.RDat.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.RDat.arrays_of_unscopedBufs (p := 0) (pcfgs (F := F)) adm (rdats m) launch0.win launch0.arr_whole c
      ((dat0 (ent0 m) c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays m (p := 0) launch0.win launch0.arr_whole c
      ((dat0 (ent0 m) c).share_full fun _ => rfl)
      (ent0 m c) (fun b => V8 m (outs m) c b) ((dat0 (ent0 m) c).arrAt · cfg0.N) (hF0 m c) (hrest0 m c)
    rw [Pipeline.unscopedBufs_held] at hjoin
    have harrs : (dat0 (ent0 m) c).toR.arraysAt cfg0.N ⊢ ((rdats m 0 c).arrays ((dat0 (ent0 m) c).arrAt · cfg0.N) : sProp 𝕄) :=
      (dat0 (ent0 m) c).toR_arraysAt_post cfg0.N
    show iprop((dat0 (ent0 m) c).toR.arraysAt cfg0.N ∗ _ ∗ _ ∗ _) ⊢ _
    iintro ⟨Ha, HO, HY, Hrest⟩
    ihave Ha' := harrs $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

theorem V11_v50 (c : Dev nD) : V11 m (outs m) c main_v50 = res1 m c := by
  show Function.update (V10 m (outs m) c) main_v50 (outs m 11 main_v50 c) main_v50 = _
  rw [Function.update_self, outs_v50]

theorem arr1_in (c : Dev nD) (w : Fin cfg1.W) (hin : (cfg1.win w).isOut = false)
    (hne : Pipeline.arrRef spec1 w ∉ ([main_v50] : List (Ref sig .tc)))
    (Fb : Buf (Elt F) (((cfg1.win w)).arr.view.loc (c.tc : Thread nD τ)))
    (h : (rdat1 (ent1 m) c).ArrAt w cfg1.N Fb) : Fb = V11 m (outs m) c (Pipeline.arrRef spec1 w) := by
  rw [(rdat1 (ent1 m) c).ArrAt_in w hin cfg1.N] at h
  rw [h, rdat1_A]
  exact ((V11_of m (outs m) c _ hne).trans (by rw [V10_eq])).symm

theorem arr1_out (c : Dev nD) (Fb : Buf (Elt F) (((cfg1.win 4)).arr.view.loc (c.tc : Thread nD τ)))
    (h : (rdat1 (ent1 m) c).ArrAt 4 cfg1.N Fb) : Fb = V11 m (outs m) c (Pipeline.arrRef spec1 4) :=
  (final1 (ent1 m) c Fb h).trans (V11_v50 m c).symm

theorem win1_cases : ∀ w : Fin cfg1.W, w = 0 ∨ w = 1 ∨ w = 2 ∨ w = 3 ∨ w = 4 := by decide

theorem arr1_det (c : Dev nD) (w : Fin cfg1.W) (Fb : Buf (Elt F) (((cfg1.win w)).arr.view.loc (c.tc : Thread nD τ)))
    (h : (rdat1 (ent1 m) c).ArrAt w cfg1.N Fb) : Fb = V11 m (outs m) c (Pipeline.arrRef spec1 w) := by
  rcases win1_cases w with rfl | rfl | rfl | rfl | rfl
  · exact arr1_in m c 0 rfl (by decide) Fb h
  · exact arr1_in m c 1 rfl (by decide) Fb h
  · exact arr1_in m c 2 rfl (by decide) Fb h
  · exact arr1_in m c 3 rfl (by decide) Fb h
  · exact arr1_out m c Fb h

theorem hrest1 (c : Dev nD) : ∀ b, b ∉ Finset.univ.image (Pipeline.arrRef spec1) → (fun b => V11 m (outs m) c b) b = ent1 m c b :=
  fun b hb => (V11_of m (outs m) c b (by
    intro h; apply hb; rw [List.mem_singleton] at h; subst h
    exact Finset.mem_image.mpr ⟨4, Finset.mem_univ _, rfl⟩)).trans (by rw [V10_eq])

set_option backward.isDefEq.respectTransparency.types false in
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (ent1 m) c
  hwaits := Pipeline.RDat.hwaits_of_owed_zero _ _ _ _ L lv 1 fun _ _ => rfl
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.RDat.arrays_of_unscopedBufs (p := 1) (pcfgs (F := F)) adm (rdats m) launch1.win launch1.arr_whole c
      ((rdat1 (ent1 m) c).share_full fun _ => rfl) (ent1 m c) (fun w => rdat1_A (ent1 m) c w)
    rw [Pipeline.unscopedBufs_held] at hsplit
    show iprop((StableHlo.held (c : Thread nD τ) (Pipeline.ucRefs τ sig) (V10 m (outs m) c) ∗ R c) ∗ BI.emp ∗ levAts L lv) ⊢ _
    rw [V10_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    show _ ⊢ (rdat1 (ent1 m) c).Φ 0
    iintro ⟨Hp, -, Hr⟩
    iapply (phi1_in (ent1 m) c)
    isplitl [Hp]; · iexact Hp
    iexact Hr
  hout c := by
    rw [Pipeline.ownSems0_none]
    show (rdat1 (ent1 m) c).Φ (Fin.last cfg1.N) ⊢ _
    iintro H
    ihave H' := (phi1_out (ent1 m) c) $$ H
    icases H' with ⟨Hp, Hr⟩
    isplitl [Hp]; · iexact Hp
    isplitr; · iempintro
    iexact Hr
  hexit c := by
    have hjoin := bufs_of_arrays m (p := 1) launch1.win launch1.arr_whole c
      ((rdat1 (ent1 m) c).share_full fun _ => rfl)
      (ent1 m c) (fun b => V11 m (outs m) c b) (fun w => V11 m (outs m) c (Pipeline.arrRef spec1 w)) (fun _ => rfl) (hrest1 m c)
    rw [Pipeline.unscopedBufs_held] at hjoin
    have harrs : (rdats m 1 c).arraysAt cfg1.N ⊢ ((rdats m 1 c).arrays (fun w => V11 m (outs m) c (Pipeline.arrRef spec1 w)) : sProp 𝕄) := by
      show (rdat1 (ent1 m) c).arraysAt cfg1.N ⊢ ((rdat1 (ent1 m) c).arrays (fun w => V11 m (outs m) c (Pipeline.arrRef spec1 w)) : sProp 𝕄)
      unfold Pipeline.RDat.arraysAt Pipeline.RDat.arrays
      exact BI.bigSep_mono fun w _ =>
        show iprop(∃ Fb, ⌜(rdat1 (ent1 m) c).ArrAt w cfg1.N Fb⌝ ∗ (cfg1.win w).arr.view.loc (c.tc : Thread nD τ) ↦[(cfg1.win w).arr.view.set]{(rdat1 (ent1 m) c).share w} Fb)
            ⊢ ((cfg1.win w).arr.view.loc (c.tc : Thread nD τ) ↦[(cfg1.win w).arr.view.set]{(rdat1 (ent1 m) c).share w} V11 m (outs m) c (Pipeline.arrRef spec1 w) : sProp 𝕄) from by
          iintro ⟨%Fb, %h, H⟩; rw [← arr1_det m c w Fb h]; iexact H
    show iprop((rdats m 1 c).arraysAt cfg1.N ∗ _ ∗ _ ∗ _) ⊢ _
    iintro ⟨Ha, HO, HY, Hrest⟩
    ihave Ha' := harrs $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

abbrev segs : List (Pipeline.RDat.Seg (pcfgs (F := F)) adm (rdats m) () defs₀ 𝒱₀ L lv) :=
  [ .host (seg0 m 𝒱₀ L lv ER), .host (seg1 m 𝒱₀ L lv ER), .host (seg2 m 𝒱₀ L lv ER), .host (seg3 m 𝒱₀ L lv ER),
    .host (seg4 m 𝒱₀ L lv ER), .host (seg5 m 𝒱₀ L lv ER), .host (seg6 m 𝒱₀ L lv ER),
    .region (reg0 m),
    .host (seg8 m (outs m) 𝒱₀ L lv ER), .host (seg9 m (outs m) 𝒱₀ L lv ER),
    .region (reg1 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (V11 m (outs m) c) ∗ ∃ r, prngReg c r)

set_option backward.isDefEq.respectTransparency.types false in
theorem run_main : θ_run defs (onTc (τ := τ) (main (F := F))) ⟨m, fun _ => 0, ρ⟩ (fun r => ∀ c : Dev nD,
      r.2.mem ((c.tc : Thread nD τ).loc main_v50) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()),
          StableHlo.seq hostOps1, StableHlo.seq hostOps1_1,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (V11 m (outs m) c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V11 m (outs m) c) s')
      isplitl [Hh] <;> iassumption)
    (hQ := fun s h c =>
      ⟨(h c _ (mem_uc main_v50 (by decide))).trans (V11_v50 m c),
       (h c _ (mem_uc main_arg0 (by decide))).trans (V11_main_arg0 m (outs m) c),
       (h c _ (mem_uc main_arg1 (by decide))).trans (V11_main_arg1 m (outs m) c),
       (h c _ (mem_uc main_arg2 (by decide))).trans (V11_main_arg2 m (outs m) c),
       (h c _ (mem_uc main_arg3 (by decide))).trans (V11_main_arg3 m (outs m) c),
       (h c _ (mem_uc main_arg4 (by decide))).trans (V11_main_arg4 m (outs m) c),
       (h c _ (mem_uc main_arg5 (by decide))).trans (V11_main_arg5 m (outs m) c),
       (h c _ (mem_uc main_arg6 (by decide))).trans (V11_main_arg6 m (outs m) c),
       (h c _ (mem_uc main_arg7 (by decide))).trans (V11_main_arg7 m (outs m) c),
       (h c _ (mem_uc main_arg8 (by decide))).trans (V11_main_arg8 m (outs m) c),
       (h c _ (mem_uc main_arg9 (by decide))).trans (V11_main_arg9 m (outs m) c)⟩)

end Cert.Kernel.Hand

end
-- ==== Proof.KI.Region0.lean ====
-- The first dense layer's region: its result array is covered by ten disjoint blocks of 10000 rows, one per grid point.
import proofs.«416059_j58626303591152_2_alg».proof.Proof.Gen.KernelIdeal.Launch
import proofs.«416059_j58626303591152_2_alg».proof.Proof.Gen.KernelIdeal.Skeleton
import proofs.«416059_j58626303591152_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_agg : Rect S10000x32 := Rect.unit (s := S10000x32) ![0, 0] S10000x32.size inb_S10000x32_S10000x32_0_0
abbrev r0_nrm : Rect S10000x2 := Rect.unit (s := S10000x2) ![0, 0] S10000x2.size inb_S10000x2_S10000x2_0_0
abbrev r0_W : Rect S32x64 := Rect.unit (s := S32x64) ![0, 0] S32x64.size inb_S32x64_S32x64_0_0
abbrev r0_b : Rect S1x64 := Rect.unit (s := S1x64) ![0, 0] S1x64.size inb_S1x64_S1x64_0_0

def out0_4 (x0 : Vec F S10000x32 .f32) (x1 : Vec F S10000x2 .f32) (x2 : Vec F S32x64 .f32) (x3 : Vec F S1x64 .f32) : Vec F S10000x64 .f32 :=
  View.canon [⟨r0_0, k0_pay1 (View.ld x1 r0_nrm) (View.ld x0 r0_agg) (View.ld x2 r0_W) (View.ld x3 r0_b)⟩]

theorem cover0_4 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
theorem sound_kernel0 (c : Dev nD) (E : Set ℕ) (i : grid0.Coords) (arg1 : Memref sig .tc .vmem S10000x32 .f32) (harg1 : arg1.IsWhole) (arg2 : Memref sig .tc .vmem S10000x2 .f32) (harg2 : arg2.IsWhole)
    (arg3 : Memref sig .tc .vmem S32x64 .f32) (harg3 : arg3.IsWhole) (arg4 : Memref sig .tc .vmem S1x64 .f32) (harg4 : arg4.IsWhole) (arg5 : Memref sig .tc .vmem S10000x64 .f32) (harg5 : arg5.IsWhole)
    (x0 : Vec F S10000x32 .f32) (x1 : Vec F S10000x2 .f32) (x2 : Vec F S32x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gc_dense_kernel1 i arg1 harg1 arg2 harg2 arg3 harg3 arg4 harg4 arg5 harg5) K := by
  simp only [cc0__gc_dense_kernel1_eq_skeleton]; unfold cc0__gc_dense_kernel1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1Data.lean ====
-- The statistics region: the running sum, maximum and minimum after n grid points.
import proofs.«416059_j58626303591152_2_alg».proof.Proof.Gen.KernelIdeal.Launch
import proofs.«416059_j58626303591152_2_alg».proof.Proof.Gen.KernelIdeal.Skeleton
import proofs.«416059_j58626303591152_2_alg».proof.Proof.Gen.KernelIdeal.Points
import proofs.«416059_j58626303591152_2_alg».proof.Proof.LibOverlay
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.KernelIdeal Cert.KernelIdeal.Gen Cert.Hand.Overlay

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb0 (c : Dev nD) (t : Fin cfg1.N) : Vec F S10000x64 .f32 := iblk1 V c 0 t
abbrev xb1 (c : Dev nD) (t : Fin cfg1.N) : Vec F S10000x2 .f32 := iblk1 V c 1 t
abbrev xb2 (c : Dev nD) (t : Fin cfg1.N) : Vec F S64x64 .f32 := iblk1 V c 2 t
abbrev xb3 (c : Dev nD) (t : Fin cfg1.N) : Vec F S1x64 .f32 := iblk1 V c 3 t

def sumStep (c : Dev nD) (t : Fin cfg1.N) (acc : Vec F S1x64 .f32) : Vec F S1x64 .f32 :=
  k1_pay11 (grid1.coords t) (xb1 V c t) (xb0 V c t) (xb2 V c t) (xb3 V c t) acc

def maxStep (c : Dev nD) (t : Fin cfg1.N) (acc : Vec F S1x64 .f32) : Vec F S1x64 .f32 :=
  k1_pay1 (k1_pay12 (grid1.coords t) (xb1 V c t) (xb0 V c t) (xb2 V c t) (xb3 V c t)) acc

def minStep (c : Dev nD) (t : Fin cfg1.N) (acc : Vec F S1x64 .f32) : Vec F S1x64 .f32 :=
  k1_pay2 (k1_pay4 (xb1 V c t) (xb0 V c t) (xb2 V c t) (xb3 V c t)) (k1_pay10 (grid1.coords t)) acc

def sumN (c : Dev nD) : ℕ → Vec F S1x64 .f32
  | 0 => k1_pay5
  | n + 1 => if h : n < cfg1.N then sumStep V c ⟨n, h⟩ (sumN c n) else sumN c n

def maxN (c : Dev nD) : ℕ → Vec F S1x64 .f32
  | 0 => k1_pay6
  | n + 1 => if h : n < cfg1.N then maxStep V c ⟨n, h⟩ (maxN c n) else maxN c n

def minN (c : Dev nD) : ℕ → Vec F S1x64 .f32
  | 0 => k1_pay7
  | n + 1 => if h : n < cfg1.N then minStep V c ⟨n, h⟩ (minN c n) else minN c n

theorem sumN_zero (c : Dev nD) : sumN V c 0 = k1_pay5 := rfl
theorem maxN_zero (c : Dev nD) : maxN V c 0 = k1_pay6 := rfl
theorem minN_zero (c : Dev nD) : minN V c 0 = k1_pay7 := rfl

theorem sumN_succ (c : Dev nD) (t : Fin cfg1.N) : sumN V c (t.val + 1) = sumStep V c t (sumN V c t.val) := by
  rw [sumN, dif_pos t.isLt]
theorem maxN_succ (c : Dev nD) (t : Fin cfg1.N) : maxN V c (t.val + 1) = maxStep V c t (maxN V c t.val) := by
  rw [maxN, dif_pos t.isLt]
theorem minN_succ (c : Dev nD) (t : Fin cfg1.N) : minN V c (t.val + 1) = minStep V c t (minN V c t.val) := by
  rw [minN, dif_pos t.isLt]

def sumAt (c : Dev nD) (t : Fin cfg1.N) : Vec F S1x64 .f32 := sumN V c (t.val + 1)
def maxAt (c : Dev nD) (t : Fin cfg1.N) : Vec F S1x64 .f32 := maxN V c (t.val + 1)
def minAt (c : Dev nD) (t : Fin cfg1.N) : Vec F S1x64 .f32 := minN V c (t.val + 1)

abbrev r4_0 : Rect S5x64 := Rect.unit (s := S5x64) ![0, 0] S1x64.size inb_S5x64_S1x64_0_0
abbrev r4_1 : Rect S5x64 := Rect.unit (s := S5x64) ![1, 0] S1x64.size inb_S5x64_S1x64_1_0
abbrev r4_2 : Rect S5x64 := Rect.unit (s := S5x64) ![2, 0] S1x64.size inb_S5x64_S1x64_2_0
abbrev r4_3 : Rect S5x64 := Rect.unit (s := S5x64) ![3, 0] S1x64.size inb_S5x64_S1x64_3_0
abbrev r4_4 : Rect S5x64 := Rect.unit (s := S5x64) ![4, 0] S1x64.size inb_S5x64_S1x64_4_0

def piecesFirst (c : Dev nD) (t : Fin cfg1.N) : List (View.Piece (Elt F) S5x64 .f32) :=
  [⟨r4_1, k1_pay9 (xb1 V c t) (xb0 V c t) (xb2 V c t) (xb3 V c t)⟩,
   ⟨r4_0, k1_pay8 (xb1 V c t) (xb0 V c t) (xb2 V c t) (xb3 V c t)⟩]

def piecesLast (c : Dev nD) (t : Fin cfg1.N) : List (View.Piece (Elt F) S5x64 .f32) :=
  [⟨r4_4, minAt V c t⟩, ⟨r4_3, maxAt V c t⟩, ⟨r4_2, k1_pay3 (sumAt V c t)⟩]

def pieces4 (c : Dev nD) (t : Fin cfg1.N) : List (View.Piece (Elt F) S5x64 .f32) :=
  if t.val = 0 then piecesFirst V c t else if t.val = 9 then piecesLast V c t else []

theorem pieces4_first (c : Dev nD) (t : Fin cfg1.N) (h : t.val = 0) : pieces4 V c t = piecesFirst V c t := by
  unfold pieces4; rw [if_pos h]
theorem pieces4_last (c : Dev nD) (t : Fin cfg1.N) (h : t.val = 9) : pieces4 V c t = piecesLast V c t := by
  unfold pieces4; rw [if_neg (by omega), if_pos h]
theorem pieces4_mid (c : Dev nD) (t : Fin cfg1.N) (h0 : t.val ≠ 0) (h9 : t.val ≠ 9) : pieces4 V c t = [] := by
  unfold pieces4; rw [if_neg h0, if_neg h9]

def out1 (c : Dev nD) : Vec F S5x64 .f32 :=
  View.canon (piecesLast V c t1_9 ++ piecesFirst V c t1_0)

def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

def scr1 (c : Dev nD) (a b d : Vec F S1x64 .f32) : sProp 𝕄 :=
  iprop((∃ r, prngReg c r) ∗ others1 (F := F) c
    ∗ owns (c : Thread nD τ) (Memref.whole cc1_scratch0) fullShare a
    ∗ owns (c : Thread nD τ) (Memref.whole cc1_scratch1) fullShare b
    ∗ owns (c : Thread nD τ) (Memref.whole cc1_scratch2) fullShare d)

def phiN (c : Dev nD) : ℕ → sProp 𝕄
  | 0 => iprop((∃ r, prngReg c r) ∗ Pipeline.scopedRest spec1 c)
  | n + 1 => scr1 c (sumN V c (n + 1)) (maxN V c (n + 1)) (minN V c (n + 1))

theorem phiN_succ (c : Dev nD) (n : ℕ) : phiN V c (n + 1) = scr1 c (sumN V c (n + 1)) (maxN V c (n + 1)) (minN V c (n + 1)) := rfl

def rdat1 (c : Dev nD) : Pipeline.RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = over Y (pieces4 V c t)
  Φ t := phiN V c t.val
  q _ := fullShare
  owed _ := 0

theorem rdat1_A (c : Dev nD) (w : Fin cfg1.W) : (rdat1 V c).A w = V c (Pipeline.arrRef spec1 w) := by
  dsimp only [rdat1]

theorem rdat1_after_0 (c : Dev nD) (t : Fin cfg1.N) (Y X) : (rdat1 V c).after 0 t Y X = (X = Y) := by dsimp only [rdat1]
theorem rdat1_after_1 (c : Dev nD) (t : Fin cfg1.N) (Y X) : (rdat1 V c).after 1 t Y X = (X = Y) := by dsimp only [rdat1]
theorem rdat1_after_2 (c : Dev nD) (t : Fin cfg1.N) (Y X) : (rdat1 V c).after 2 t Y X = (X = Y) := by dsimp only [rdat1]
theorem rdat1_after_3 (c : Dev nD) (t : Fin cfg1.N) (Y X) : (rdat1 V c).after 3 t Y X = (X = Y) := by dsimp only [rdat1]
theorem rdat1_after_4 (c : Dev nD) (t : Fin cfg1.N) (Y X : Vec F S5x64 .f32) :
    (rdat1 V c).after 4 t Y X = (X = over Y (pieces4 V c t)) := by dsimp only [rdat1]

theorem rdat1_Φ (c : Dev nD) (t : Fin (cfg1.N + 1)) : (rdat1 V c).Φ t = phiN V c t.val := by dsimp only [rdat1]

end Cert.KernelIdeal.Hand

end
-- ==== Proof.KI.Region1.lean ====
-- The statistics region's body at the first, a middle and the last grid point.
import proofs.«416059_j58626303591152_2_alg».proof.Proof.KI.Region1Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.KernelIdeal Cert.KernelIdeal.Gen Cert.Hand.Overlay

variable {F : FTy → Type} [FloatOps F]

local notation "𝕄" => MT nD τ sig Unit (Elt F) ℕ (UR sig nD τ) ℕ

local macro "rd_simp" : tactic =>
  `(tactic| simp only [View.readAt_eq_ld, View.ld_unit_zero (S := S10000x2) hz2, View.ld_unit_zero (S := S10000x64) hz2,
      View.ld_unit_zero (S := S64x64) hz2, View.ld_unit_zero (S := S1x64) hz2, View.readCov_unit_zero (S := S1x64) _ hz2])

variable (V : (c : Dev nD) → (b : Ref sig .tc) → Buf (Elt F) ((c : Thread nD τ).loc b))

set_option maxHeartbeats 1000000 in
theorem sound_kernel1_first (c : Dev nD) (E : Set ℕ) (i : grid1.Coords) (h1 : k1_cond1 i = 1#1) (h2 : ¬ k1_cond2 i = 1#1)
    (arg1 : Memref sig .tc .vmem S10000x64 .f32) (harg1 : arg1.IsWhole) (arg2 : Memref sig .tc .vmem S10000x2 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (x0 : Vec F S10000x64 .f32) (x1 : Vec F S10000x2 .f32) (x2 : Vec F S64x64 .f32) (x3 : Vec F S1x64 .f32) (y4 : Vec F S5x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4
        ∗ (∃ a, owns (c : Thread nD τ) arg6 fullShare a) ∗ (∃ b, owns (c : Thread nD τ) arg7 fullShare b) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (over y4 [⟨r4_1, k1_pay9 x1 x0 x2 x3⟩, ⟨r4_0, k1_pay8 x1 x0 x2 x3⟩])
            ∗ owns (c : Thread nD τ) arg6 fullShare (k1_pay11 i x1 x0 x2 x3 k1_pay5)
            ∗ owns (c : Thread nD τ) arg7 fullShare (k1_pay1 (k1_pay12 i x1 x0 x2 x3) k1_pay6)
            ∗ owns (c : Thread nD τ) arg8 fullShare (k1_pay2 (k1_pay4 x1 x0 x2 x3) (k1_pay10 i) k1_pay7)) -∗ K ⟨⟩))
      ⊢ wp frame (wpE (defs₀ (F := F)) Variants.none c none) E (cc1__gc_dense_stats_kernel i arg1 harg1 arg2 harg2 arg3 harg3 arg4 harg4 arg5 harg5 arg6 harg6 arg7 harg7 arg8 harg8) K := by
  simp only [cc1__gc_dense_stats_kernel_eq_skeleton]; unfold cc1__gc_dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%a, %f6, -, H6⟩, ⟨%b, %f7, -, H7⟩, ⟨%d, %f8, -, H8⟩, Hk⟩
  subst hf0 hf1 hf2 hf3 hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_words
    rw [read_writes_eq_over]
    rd_simp
  isplitl [H6]
  · iexists _; isplitr
    swap; · iexact H6
    ipureintro
    sl_unfold_words
    rw [read_writes_unit_zero (S := S1x64) _ _ hz2]
    rd_simp
  isplitl [H7]
  · iexists _; isplitr
    swap; · iexact H7
    ipureintro
    sl_unfold_words
    rw [read_writes_unit_zero (S := S1x64) _ _ hz2]
    rd_simp
  · iexists _; isplitr
    swap; · iexact H8
    ipureintro
    sl_unfold_words
    rw [read_writes_unit_zero (S := S1x64) _ _ hz2]
    rd_simp

set_option maxHeartbeats 1000000 in
theorem sound_kernel1_mid (c : Dev nD) (E : Set ℕ) (i : grid1.Coords) (h1 : ¬ k1_cond1 i = 1#1) (h2 : ¬ k1_cond2 i = 1#1)
    (arg1 : Memref sig .tc .vmem S10000x64 .f32) (harg1 : arg1.IsWhole) (arg2 : Memref sig .tc .vmem S10000x2 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (x0 : Vec F S10000x64 .f32) (x1 : Vec F S10000x2 .f32) (x2 : Vec F S64x64 .f32) (x3 : Vec F S1x64 .f32) (y4 : Vec F S5x64 .f32)
    (a b d : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4
        ∗ owns (c : Thread nD τ) arg6 fullShare a ∗ owns (c : Thread nD τ) arg7 fullShare b ∗ owns (c : Thread nD τ) arg8 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare y4
            ∗ owns (c : Thread nD τ) arg6 fullShare (k1_pay11 i x1 x0 x2 x3 a)
            ∗ owns (c : Thread nD τ) arg7 fullShare (k1_pay1 (k1_pay12 i x1 x0 x2 x3) b)
            ∗ owns (c : Thread nD τ) arg8 fullShare (k1_pay2 (k1_pay4 x1 x0 x2 x3) (k1_pay10 i) d)) -∗ K ⟨⟩))
      ⊢ wp frame (wpE (defs₀ (F := F)) Variants.none c none) E (cc1__gc_dense_stats_kernel i arg1 harg1 arg2 harg2 arg3 harg3 arg4 harg4 arg5 harg5 arg6 harg6 arg7 harg7 arg8 harg8) K := by
  simp only [cc1__gc_dense_stats_kernel_eq_skeleton]; unfold cc1__gc_dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
  subst hf0 hf1 hf2 hf3 hf4 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H6]
  · iexists _; isplitr
    swap; · iexact H6
    ipureintro
    sl_unfold_words
    rw [read_writes_unit_zero (S := S1x64) _ _ hz2]
    rd_simp
  isplitl [H7]
  · iexists _; isplitr
    swap; · iexact H7
    ipureintro
    sl_unfold_words
    rw [read_writes_unit_zero (S := S1x64) _ _ hz2]
    rd_simp
  · iexists _; isplitr
    swap; · iexact H8
    ipureintro
    sl_unfold_words
    rw [read_writes_unit_zero (S := S1x64) _ _ hz2]
    rd_simp

set_option maxHeartbeats 1000000 in
theorem sound_kernel1_last (c : Dev nD) (E : Set ℕ) (i : grid1.Coords) (h1 : ¬ k1_cond1 i = 1#1) (h2 : k1_cond2 i = 1#1)
    (arg1 : Memref sig .tc .vmem S10000x64 .f32) (harg1 : arg1.IsWhole) (arg2 : Memref sig .tc .vmem S10000x2 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (x0 : Vec F S10000x64 .f32) (x1 : Vec F S10000x2 .f32) (x2 : Vec F S64x64 .f32) (x3 : Vec F S1x64 .f32) (y4 : Vec F S5x64 .f32)
    (a b d : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y4
        ∗ owns (c : Thread nD τ) arg6 fullShare a ∗ owns (c : Thread nD τ) arg7 fullShare b ∗ owns (c : Thread nD τ) arg8 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (over y4 [⟨r4_4, k1_pay2 (k1_pay4 x1 x0 x2 x3) (k1_pay10 i) d⟩,
                ⟨r4_3, k1_pay1 (k1_pay12 i x1 x0 x2 x3) b⟩, ⟨r4_2, k1_pay3 (k1_pay11 i x1 x0 x2 x3 a)⟩])
            ∗ owns (c : Thread nD τ) arg6 fullShare (k1_pay11 i x1 x0 x2 x3 a)
            ∗ owns (c : Thread nD τ) arg7 fullShare (k1_pay1 (k1_pay12 i x1 x0 x2 x3) b)
            ∗ owns (c : Thread nD τ) arg8 fullShare (k1_pay2 (k1_pay4 x1 x0 x2 x3) (k1_pay10 i) d)) -∗ K ⟨⟩))
      ⊢ wp frame (wpE (defs₀ (F := F)) Variants.none c none) E (cc1__gc_dense_stats_kernel i arg1 harg1 arg2 harg2 arg3 harg3 arg4 harg4 arg5 harg5 arg6 harg6 arg7 harg7 arg8 harg8) K := by
  simp only [cc1__gc_dense_stats_kernel_eq_skeleton]; unfold cc1__gc_dense_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
  subst hf0 hf1 hf2 hf3 hf4 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_words
    rw [read_writes_eq_over]
    rd_simp
  isplitl [H6]
  · iexists _; isplitr
    swap; · iexact H6
    ipureintro
    sl_unfold_words
    rw [read_writes_unit_zero (S := S1x64) _ _ hz2]
    rd_simp
  isplitl [H7]
  · iexists _; isplitr
    swap; · iexact H7
    ipureintro
    sl_unfold_words
    rw [read_writes_unit_zero (S := S1x64) _ _ hz2]
    rd_simp
  · iexists _; isplitr
    swap; · iexact H8
    ipureintro
    sl_unfold_words
    rw [read_writes_unit_zero (S := S1x64) _ _ hz2]
    rd_simp

theorem cond1_iff : ∀ t : Fin cfg1.N, k1_cond1 (grid1.coords t) = 1#1 ↔ t.val = 0 :=
  (by decide +kernel : ∀ t : Fin grid1.N, k1_cond1 (grid1.coords t) = 1#1 ↔ t.val = 0)

theorem cond2_iff : ∀ t : Fin cfg1.N, k1_cond2 (grid1.coords t) = 1#1 ↔ t.val = 9 :=
  (by decide +kernel : ∀ t : Fin grid1.N, k1_cond2 (grid1.coords t) = 1#1 ↔ t.val = 9)

theorem finds1_0 (c : Dev nD) (t : Fin cfg1.N) (Y : (cfg1.win 0).block.Idx → Elt F (cfg1.win 0).elt)
    (h : (rdat1 V c).Finds 0 t Y) : Y = iblk1 V c 0 t := by
  obtain ⟨d, hd⟩ := Pipeline.RDat.finds_in_eq_fetched (rdat1 V c) 0 rfl (fun _ _ _ => rfl)
    (fun t Y X h => by rw [rdat1_after_0] at h; exact h) t Y h
  rw [hd]; unfold RDat.fetched RDat.blockOf iblk1; rw [rdat1_A]; try rfl

theorem finds1_1 (c : Dev nD) (t : Fin cfg1.N) (Y : (cfg1.win 1).block.Idx → Elt F (cfg1.win 1).elt)
    (h : (rdat1 V c).Finds 1 t Y) : Y = iblk1 V c 1 t := by
  obtain ⟨d, hd⟩ := Pipeline.RDat.finds_in_eq_fetched (rdat1 V c) 1 rfl (fun _ _ _ => rfl)
    (fun t Y X h => by rw [rdat1_after_1] at h; exact h) t Y h
  rw [hd]; unfold RDat.fetched RDat.blockOf iblk1; rw [rdat1_A]; try rfl

theorem finds1_2 (c : Dev nD) (t : Fin cfg1.N) (Y : (cfg1.win 2).block.Idx → Elt F (cfg1.win 2).elt)
    (h : (rdat1 V c).Finds 2 t Y) : Y = iblk1 V c 2 t := by
  obtain ⟨d, hd⟩ := Pipeline.RDat.finds_in_eq_fetched (rdat1 V c) 2 rfl (fun _ _ _ => rfl)
    (fun t Y X h => by rw [rdat1_after_2] at h; exact h) t Y h
  rw [hd]; unfold RDat.fetched RDat.blockOf iblk1; rw [rdat1_A]; try rfl

theorem finds1_3 (c : Dev nD) (t : Fin cfg1.N) (Y : (cfg1.win 3).block.Idx → Elt F (cfg1.win 3).elt)
    (h : (rdat1 V c).Finds 3 t Y) : Y = iblk1 V c 3 t := by
  obtain ⟨d, hd⟩ := Pipeline.RDat.finds_in_eq_fetched (rdat1 V c) 3 rfl (fun _ _ _ => rfl)
    (fun t Y X h => by rw [rdat1_after_3] at h; exact h) t Y h
  rw [hd]; unfold RDat.fetched RDat.blockOf iblk1; rw [rdat1_A]; try rfl

theorem rest_open (c : Dev nD) :
    (Pipeline.scopedRest spec1 c : sProp 𝕄)
      ⊢ iprop(others1 (F := F) c ∗ (∃ a, owns (c : Thread nD τ) (Memref.whole cc1_scratch0) fullShare a)
          ∗ (∃ b, owns (c : Thread nD τ) (Memref.whole cc1_scratch1) fullShare b)
          ∗ (∃ d, owns (c : Thread nD τ) (Memref.whole cc1_scratch2) fullShare d)) := by
  rw [scopedRest1_eq]; unfold others1
  iintro ⟨A1, A2, A3, A4, A5, A6, A7, A8, ⟨%f0, S0⟩, ⟨%f1, S1⟩, ⟨%f2, S2⟩⟩
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [S0]; · iexists f0; rw [owns_whole]; iexact S0
  isplitl [S1]; · iexists f1; rw [owns_whole]; iexact S1
  iexists f2; rw [owns_whole]; iexact S2

theorem rest_close (c : Dev nD) (a b d : Vec F S1x64 .f32) :
    iprop(others1 (F := F) c ∗ owns (c : Thread nD τ) (Memref.whole cc1_scratch0) fullShare a
        ∗ owns (c : Thread nD τ) (Memref.whole cc1_scratch1) fullShare b
        ∗ owns (c : Thread nD τ) (Memref.whole cc1_scratch2) fullShare d)
      ⊢ (Pipeline.scopedRest spec1 c : sProp 𝕄) := by
  rw [scopedRest1_eq]; unfold others1
  rw [owns_whole, owns_whole, owns_whole]
  iintro ⟨⟨A1, A2, A3, A4, A5, A6, A7, A8⟩, S0, S1, S2⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexists a; iexact S0
  isplitl [S1]; · iexists b; iexact S1
  iexists d; iexact S2

def bodyPre1 (c : Dev nD) (t : Fin cfg1.N) (y4 : Vec F S5x64 .f32) : sProp 𝕄 :=
  iprop(phiN V c t.val ∗ (rdat1 V c).owesAt () t.castSucc
    ∗ owns (c : Thread nD τ) (st1_0 t) fullShare (xb0 V c t)
    ∗ owns (c : Thread nD τ) (st1_1 t) fullShare (xb1 V c t)
    ∗ owns (c : Thread nD τ) (st1_2 t) fullShare (xb2 V c t)
    ∗ owns (c : Thread nD τ) (st1_3 t) fullShare (xb3 V c t)
    ∗ owns (c : Thread nD τ) (st1_4 t) fullShare y4)

def bodyPost1 (c : Dev nD) (t : Fin cfg1.N) (y4 : Vec F S5x64 .f32) : sProp 𝕄 :=
  iprop(phiN V c (t.val + 1) ∗ (rdat1 V c).owesAt () t.castSucc
    ∗ owns (c : Thread nD τ) (st1_0 t) fullShare (xb0 V c t)
    ∗ owns (c : Thread nD τ) (st1_1 t) fullShare (xb1 V c t)
    ∗ owns (c : Thread nD τ) (st1_2 t) fullShare (xb2 V c t)
    ∗ owns (c : Thread nD τ) (st1_3 t) fullShare (xb3 V c t)
    ∗ owns (c : Thread nD τ) (st1_4 t) fullShare (over y4 (pieces4 V c t)))

theorem sound_body1_first (c : Dev nD) (t : Fin cfg1.N) (h0 : t.val = 0) (y4 : Vec F S5x64 .f32) (K : PUnit → sProp 𝕄) :
    iprop(bodyPre1 V c t y4 ∗ (bodyPost1 V c t y4 -∗ K ⟨⟩))
      ⊢ wp frame (wpE (defs₀ (F := F)) Variants.none c none) Set.univ (bodyAt1 t) K := by
  have hc1 : k1_cond1 (grid1.coords t) = 1#1 := (cond1_iff t).mpr h0
  have hc2 : ¬ k1_cond2 (grid1.coords t) = 1#1 := fun h => by have := (cond2_iff t).mp h; omega
  have eΦ : phiN V c t.val = iprop((∃ r, prngReg c r) ∗ Pipeline.scopedRest spec1 c) := by rw [h0]; rfl
  have eS : sumN V c (t.val + 1) = k1_pay11 (grid1.coords t) (xb1 V c t) (xb0 V c t) (xb2 V c t) (xb3 V c t) k1_pay5 := by
    rw [sumN_succ, h0, sumN_zero]; rfl
  have eM : maxN V c (t.val + 1) = k1_pay1 (k1_pay12 (grid1.coords t) (xb1 V c t) (xb0 V c t) (xb2 V c t) (xb3 V c t)) k1_pay6 := by
    rw [maxN_succ, h0, maxN_zero]; rfl
  have eN : minN V c (t.val + 1) = k1_pay2 (k1_pay4 (xb1 V c t) (xb0 V c t) (xb2 V c t) (xb3 V c t)) (k1_pay10 (grid1.coords t)) k1_pay7 := by
    rw [minN_succ, h0, minN_zero]; rfl
  unfold bodyPre1 bodyPost1 bodyAt1
  rw [eΦ, phiN_succ, eS, eM, eN, pieces4_first V c t h0]
  unfold piecesFirst scr1
  iintro ⟨⟨⟨Hr, Hrest⟩, Ho, H0, H1, H2, H3, H4⟩, Hk⟩
  ihave Hrest' := (rest_open (F := F) c) $$ Hrest
  icases Hrest' with ⟨Hoth, S0, S1, S2⟩
  iapply (sound_kernel1_first c Set.univ (grid1.coords t) hc1 hc2 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (Memref.whole cc1_scratch2) (Memref.isWhole_whole _)
    (xb0 V c t) (xb1 V c t) (xb2 V c t) (xb3 V c t) y4 K)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, H3, H4, S0, S1, S2⟩
  iapply Hk
  isplitl [Hr Hoth S0 S1 S2]
  · isplitl [Hr]; · iexact Hr
    isplitl [Hoth]; · iexact Hoth
    isplitl [S0]; · iexact S0
    isplitl [S1]; · iexact S1
    iexact S2
  isplitl [Ho]; · iexact Ho
  isplitl [H0]; · iexact H0
  isplitl [H1]; · iexact H1
  isplitl [H2]; · iexact H2
  isplitl [H3]; · iexact H3
  iexact H4

theorem sound_body1_mid (c : Dev nD) (t : Fin cfg1.N) (h0 : t.val ≠ 0) (h9 : t.val ≠ 9) (y4 : Vec F S5x64 .f32) (K : PUnit → sProp 𝕄) :
    iprop(bodyPre1 V c t y4 ∗ (bodyPost1 V c t y4 -∗ K ⟨⟩))
      ⊢ wp frame (wpE (defs₀ (F := F)) Variants.none c none) Set.univ (bodyAt1 t) K := by
  have hc1 : ¬ k1_cond1 (grid1.coords t) = 1#1 := fun h => h0 ((cond1_iff t).mp h)
  have hc2 : ¬ k1_cond2 (grid1.coords t) = 1#1 := fun h => h9 ((cond2_iff t).mp h)
  have eΦ : phiN V c t.val = scr1 c (sumN V c t.val) (maxN V c t.val) (minN V c t.val) := by
    obtain ⟨n, hn⟩ : ∃ n, t.val = n + 1 := ⟨t.val - 1, by omega⟩
    rw [hn]; rfl
  unfold bodyPre1 bodyPost1 bodyAt1
  rw [eΦ, phiN_succ, sumN_succ, maxN_succ, minN_succ, pieces4_mid V c t h0 h9, over_nil]
  unfold sumStep maxStep minStep scr1
  iintro ⟨⟨⟨Hr, Hoth, S0, S1, S2⟩, Ho, H0, H1, H2, H3, H4⟩, Hk⟩
  iapply (sound_kernel1_mid c Set.univ (grid1.coords t) hc1 hc2 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (Memref.whole cc1_scratch2) (Memref.isWhole_whole _)
    (xb0 V c t) (xb1 V c t) (xb2 V c t) (xb3 V c t) y4 (sumN V c t.val) (maxN V c t.val) (minN V c t.val) K)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, H3, H4, S0, S1, S2⟩
  iapply Hk
  isplitl [Hr Hoth S0 S1 S2]
  · isplitl [Hr]; · iexact Hr
    isplitl [Hoth]; · iexact Hoth
    isplitl [S0]; · iexact S0
    isplitl [S1]; · iexact S1
    iexact S2
  isplitl [Ho]; · iexact Ho
  isplitl [H0]; · iexact H0
  isplitl [H1]; · iexact H1
  isplitl [H2]; · iexact H2
  isplitl [H3]; · iexact H3
  iexact H4

theorem sound_body1_last (c : Dev nD) (t : Fin cfg1.N) (h9 : t.val = 9) (y4 : Vec F S5x64 .f32) (K : PUnit → sProp 𝕄) :
    iprop(bodyPre1 V c t y4 ∗ (bodyPost1 V c t y4 -∗ K ⟨⟩))
      ⊢ wp frame (wpE (defs₀ (F := F)) Variants.none c none) Set.univ (bodyAt1 t) K := by
  have hc1 : ¬ k1_cond1 (grid1.coords t) = 1#1 := fun h => by have := (cond1_iff t).mp h; omega
  have hc2 : k1_cond2 (grid1.coords t) = 1#1 := (cond2_iff t).mpr h9
  have eΦ : phiN V c t.val = scr1 c (sumN V c t.val) (maxN V c t.val) (minN V c t.val) := by
    obtain ⟨n, hn⟩ : ∃ n, t.val = n + 1 := ⟨t.val - 1, by omega⟩
    rw [hn]; rfl
  unfold bodyPre1 bodyPost1 bodyAt1
  rw [eΦ, phiN_succ, pieces4_last V c t h9]
  unfold piecesLast sumAt maxAt minAt
  rw [sumN_succ, maxN_succ, minN_succ]
  unfold sumStep maxStep minStep scr1
  iintro ⟨⟨⟨Hr, Hoth, S0, S1, S2⟩, Ho, H0, H1, H2, H3, H4⟩, Hk⟩
  iapply (sound_kernel1_last c Set.univ (grid1.coords t) hc1 hc2 (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _) (Memref.whole cc1_scratch1) (Memref.isWhole_whole _) (Memref.whole cc1_scratch2) (Memref.isWhole_whole _)
    (xb0 V c t) (xb1 V c t) (xb2 V c t) (xb3 V c t) y4 (sumN V c t.val) (maxN V c t.val) (minN V c t.val) K)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, H3, H4, S0, S1, S2⟩
  iapply Hk
  isplitl [Hr Hoth S0 S1 S2]
  · isplitl [Hr]; · iexact Hr
    isplitl [Hoth]; · iexact Hoth
    isplitl [S0]; · iexact S0
    isplitl [S1]; · iexact S1
    iexact S2
  isplitl [Ho]; · iexact Ho
  isplitl [H0]; · iexact H0
  isplitl [H1]; · iexact H1
  isplitl [H2]; · iexact H2
  isplitl [H3]; · iexact H3
  iexact H4

theorem sound_body1 (c : Dev nD) (t : Fin cfg1.N) (y4 : Vec F S5x64 .f32) (K : PUnit → sProp 𝕄) :
    iprop(bodyPre1 V c t y4 ∗ (bodyPost1 V c t y4 -∗ K ⟨⟩))
      ⊢ wp frame (wpE (defs₀ (F := F)) Variants.none c none) Set.univ (bodyAt1 t) K := by
  by_cases h0 : t.val = 0
  · exact sound_body1_first V c t h0 y4 K
  by_cases h9 : t.val = 9
  · exact sound_body1_last V c t h9 y4 K
  exact sound_body1_mid V c t h0 h9 y4 K

theorem body_obligation1 (c : Dev nD) : (rdat1 (F := F) V c).BodyObligation (defs₀ (F := F)) Variants.none () Set.univ := fun t Y hY => by
  have e0 := finds1_0 V c t (Y 0) (hY 0)
  have e1 := finds1_1 V c t (Y 1) (hY 1)
  have e2 := finds1_2 V c t (Y 2) (hY 2)
  have e3 := finds1_3 V c t (Y 3) (hY 3)
  rw [bigSep_W1, bigSep_W1]
  simp only [rdat1_after_0, rdat1_after_1, rdat1_after_2, rdat1_after_3, rdat1_after_4]
  rw [show (rdat1 V c).owesAt () t.succ = (rdat1 V c).owesAt () t.castSucc from rfl, rdat1_Φ, rdat1_Φ, e0, e1, e2, e3]
  iintro ⟨HΦ, Ho, H0, H1, H2, H3, H4⟩
  iapply (sound_body1 V c t (Y 4) _)
  isplitl [HΦ Ho H0 H1 H2 H3 H4]
  · unfold bodyPre1
    isplitl [HΦ]; · iexact HΦ
    isplitl [Ho]; · iexact Ho
    isplitl [H0]; · iexact H0
    isplitl [H1]; · iexact H1
    isplitl [H2]; · iexact H2
    isplitl [H3]; · iexact H3
    iexact H4
  unfold bodyPost1
  iintro ⟨HΦ, Ho, H0, H1, H2, H3, H4⟩
  isplitl [HΦ]; · iexact HΦ
  isplitl [Ho]; · iexact Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr; · ipureintro; rfl
  iexact H4

theorem phi1_in (c : Dev nD) : iprop((∃ r, prngReg c r) ∗ Pipeline.scopedRest spec1 c) ⊢ ((rdat1 V c).Φ 0 : sProp 𝕄) := by
  rw [rdat1_Φ]
  exact (show iprop((∃ r, prngReg c r) ∗ Pipeline.scopedRest spec1 c) ⊢ (phiN V c 0 : sProp 𝕄) from .rfl)

theorem phi1_out (c : Dev nD) : ((rdat1 V c).Φ (Fin.last cfg1.N) : sProp 𝕄) ⊢ iprop((∃ r, prngReg c r) ∗ Pipeline.scopedRest spec1 c) := by
  have e : (Fin.last cfg1.N).val = 9 + 1 := N_1
  rw [rdat1_Φ, e, phiN_succ]
  unfold scr1
  iintro ⟨Hr, Hrest⟩
  isplitl [Hr]; · iexact Hr
  iapply (rest_close (F := F) c _ _ _)
  iexact Hrest

theorem fetch1_4 (t : Fin cfg1.N) : (cfg1.win 4).fetch t = false := rfl

theorem arrAt4_before (c : Dev nD) : ∀ n, n ≤ 9 → ∀ G, (rdat1 V c).ArrAt 4 n G → G = (rdat1 V c).A 4
  | 0, _, G, h => h
  | n + 1, hn, G, h => by
    have hlt : n < cfg1.N := by have := N_1; show n < grid1.N; omega
    have hs : (rdat1 V c).ArrAt 4 (n + 1) = _ := (rdat1 V c).ArrAt_succ 4 ⟨n, hlt⟩
    have hfl : (cfg1.win 4).flush ⟨n, hlt⟩ = false := by
      rw [Bool.eq_false_iff]; intro hf
      have := (flush1_4 ⟨n, hlt⟩).mp hf
      simp only at this; omega
    rw [hs, hfl, if_neg Bool.false_ne_true] at h
    exact arrAt4_before c n (by omega) G h

theorem leaves4_before (c : Dev nD) : ∀ (n : ℕ) (t : Fin cfg1.N), t.val = n → n ≤ 8 →
    ∀ X : Vec F S5x64 .f32, (rdat1 V c).Leaves 4 t X → ∃ Y0 : Vec F S5x64 .f32, X = over Y0 (piecesFirst V c t1_0)
  | 0, t, ht, _, X, h => by
    obtain ⟨Y, -, hR⟩ := h
    rw [rdat1_after_4, pieces4_first V c t ht] at hR
    have et : t = t1_0 := Fin.ext ht
    rw [et] at hR
    exact ⟨Y, hR⟩
  | n + 1, t, ht, hn, X, h => by
    obtain ⟨Y, hF, hR⟩ := h
    rw [rdat1_after_4, pieces4_mid V c t (by omega) (by omega), over_nil] at hR
    subst hR
    rcases ((rdat1 V c).finds_of_pos (fetch1_4 t) (by omega) _).mp hF with hfl | hL
    · exfalso
      have := (flush1_4 _).mp hfl
      simp only at this; omega
    · exact leaves4_before c n ⟨t.val - 1, Nat.lt_of_le_of_lt (Nat.sub_le _ _) t.isLt⟩ (by simp only; omega) (by omega) _ hL

theorem cover4 (p4 p3 p2 p1 p0 : Vec F S1x64 .f32) (y : S5x64.Idx) :
    ∃ pc ∈ ([⟨r4_4, p4⟩, ⟨r4_3, p3⟩, ⟨r4_2, p2⟩, ⟨r4_1, p1⟩, ⟨r4_0, p0⟩] : List (View.Piece (Elt F) S5x64 .f32)), y ∈ pc.1.set :=
  View.cover_of_tiled (s := S5x64) ([⟨r4_4, p4⟩, ⟨r4_3, p3⟩, ⟨r4_2, p2⟩, ⟨r4_1, p1⟩, ⟨r4_0, p0⟩] : List (View.Piece (Elt F) S5x64 .f32)) S1x64.size (by rfl) y

theorem final1 (c : Dev nD) (Fb : Buf (Elt F) ((cfg1.win 4).arr.view.loc (c.tc : Thread nD τ)))
    (h : (rdat1 V c).ArrAt 4 cfg1.N Fb) :
    Fb = ((cfg1.win 4).blk t1_9).view.write (Elt F) (V c (Pipeline.arrRef spec1 4)) (out1 V c) Finset.univ := by
  have hs : (rdat1 V c).ArrAt 4 cfg1.N = _ := (rdat1 V c).ArrAt_succ 4 t1_9
  have hfl : (cfg1.win 4).flush t1_9 = true := (flush1_4 t1_9).mpr rfl
  rw [hs, hfl, if_pos rfl] at h
  obtain ⟨G₀, X, hG, hL, rfl⟩ := h
  have eG := arrAt4_before V c 9 (le_refl _) G₀ hG
  obtain ⟨Y, hF, hR⟩ := hL
  rw [rdat1_after_4, pieces4_last V c t1_9 rfl] at hR
  rcases ((rdat1 V c).finds_of_pos (fetch1_4 t1_9) (by decide) _).mp hF with hfl8 | hL8
  · exfalso
    have := (flush1_4 _).mp hfl8
    revert this; decide
  obtain ⟨Y0, hY0⟩ := leaves4_before V c 8 _ rfl (le_refl _) Y hL8
  subst hY0; subst hR
  have hcov : ∀ y, ∃ p ∈ piecesLast V c t1_9 ++ piecesFirst V c t1_0, y ∈ p.1.set := fun y => cover4 _ _ _ _ _ y
  have eX : over (over Y0 (piecesFirst V c t1_0)) (piecesLast V c t1_9) = out1 V c := by
    rw [← over_append, over_eq_canon _ _ hcov]; rfl
  rw [eX, eG, rdat1_A]
  rfl

end Cert.KernelIdeal.Hand

end
-- ==== Proof.KI.Run.lean ====
-- The program's eleven items composed in order: a host stretch applies its operations, a region replaces its result array.
import proofs.«416059_j58626303591152_2_alg».proof.Proof.KI.Region0
import proofs.«416059_j58626303591152_2_alg».proof.Proof.KI.Region1
import proofs.«416059_j58626303591152_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ent0 : (c : Dev nD) → (b : Ref sig .tc) → Buf (Elt F) ((c : Thread nD τ).loc b) := fun c b => V7 m c b

def res0 (c : Dev nD) : Buf (Elt F) ((c : Thread nD τ).loc main_v41) := (dat0 (ent0 m) c).arrAt 4 cfg0.N

abbrev ent1W (c : Dev nD) : Valuation τ sig (Elt F) :=
  StableHlo.after hostOps1_1 (StableHlo.after hostOps1 (Function.update (V7 m c) main_v41 (res0 m c)))
abbrev ent1 : (c : Dev nD) → (b : Ref sig .tc) → Buf (Elt F) ((c : Thread nD τ).loc b) := fun c b => ent1W m c b

def res1 (c : Dev nD) : Buf (Elt F) ((c : Thread nD τ).loc main_v50) :=
  ((cfg1.win 4).blk t1_9).view.write (Elt F) (ent1 m c (Pipeline.arrRef spec1 4)) (out1 (ent1 m) c) Finset.univ

def outs : Outs (F := F) := fun _ r c =>
  if h : r = main_v41 then h ▸ res0 m c else if h' : r = main_v50 then h' ▸ res1 m c else V0 m c r

theorem outs_v41 (J : ℕ) (c : Dev nD) : outs m J main_v41 c = res0 m c := by
  unfold outs; rw [dif_pos rfl]
theorem outs_v50 (J : ℕ) (c : Dev nD) : outs m J main_v50 c = res1 m c := by
  unfold outs; rw [dif_neg (by decide), dif_pos rfl]

theorem V10_eq (c : Dev nD) : V10 m (outs m) c = ent1W m c := by
  show StableHlo.after hostOps1_1 (StableHlo.after hostOps1 (Function.update (V7 m c) main_v41 (outs m 8 main_v41 c))) = _
  rw [outs_v41]

def rdats : (p : Fin 2) → (c : Dev nD) → RDat τ (Elt F) Unit ℕ (UR sig nD τ) ℕ (Pipeline.pin (pcfgs (F := F)) adm p) c
  | ⟨0, _⟩ => fun c => (dat0 (ent0 m) c).toR
  | ⟨1, _⟩ => fun c => rdat1 (ent1 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ER : Fin 3 → Dev nD → sProp 𝕄 := fun _ c => R c

theorem bufs_of_arrays {p : Fin 2} (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c.tc : Thread nD τ).loc b))
    (Fw : (w : Fin (Pipeline.pin (pcfgs (F := F)) adm p).W) → Buf (Elt F) (((Pipeline.pin (pcfgs (F := F)) adm p).spec w).arr.view.loc (c.tc : Thread nD τ)))
    (hF : ∀ w, Fw w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays Fw ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

theorem hF0 (c : Dev nD) : ∀ w : Fin cfg0.W, (dat0 (ent0 m) c).arrAt w cfg0.N = V8 m (outs m) c (Pipeline.arrRef spec0 w)
  | ⟨0, _⟩ => ((dat0 (ent0 m) c).arrAt_in 0 rfl _).trans ((A_eq0 (ent0 m) c 0).trans (V8_of m (outs m) c _ (by decide)).symm)
  | ⟨1, _⟩ => ((dat0 (ent0 m) c).arrAt_in 1 rfl _).trans ((A_eq0 (ent0 m) c 1).trans (V8_of m (outs m) c _ (by decide)).symm)
  | ⟨2, _⟩ => ((dat0 (ent0 m) c).arrAt_in 2 rfl _).trans ((A_eq0 (ent0 m) c 2).trans (V8_of m (outs m) c _ (by decide)).symm)
  | ⟨3, _⟩ => ((dat0 (ent0 m) c).arrAt_in 3 rfl _).trans ((A_eq0 (ent0 m) c 3).trans (V8_of m (outs m) c _ (by decide)).symm)
  | ⟨4, _⟩ => by
    show _ = Function.update (V7 m c) main_v41 (outs m 8 main_v41 c) main_v41
    rw [Function.update_self, outs_v41]; rfl
  | ⟨_ + 5, h⟩ => absurd h (Nat.not_lt.2 (Nat.le_add_left _ _))

theorem hrest0 (c : Dev nD) : ∀ b, b ∉ Finset.univ.image (Pipeline.arrRef spec0) → (fun b => V8 m (outs m) c b) b = ent0 m c b :=
  fun b hb => V8_of m (outs m) c b (by
    intro h; apply hb; rw [List.mem_singleton] at h; subst h
    exact Finset.mem_image.mpr ⟨4, Finset.mem_univ _, rfl⟩)

set_option backward.isDefEq.respectTransparency.types false in
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (ent0 m) c).loose).toR
  hwaits := Pipeline.RDat.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.RDat.arrays_of_unscopedBufs (p := 0) (pcfgs (F := F)) adm (rdats m) launch0.win launch0.arr_whole c
      ((dat0 (ent0 m) c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays m (p := 0) launch0.win launch0.arr_whole c
      ((dat0 (ent0 m) c).share_full fun _ => rfl)
      (ent0 m c) (fun b => V8 m (outs m) c b) ((dat0 (ent0 m) c).arrAt · cfg0.N) (hF0 m c) (hrest0 m c)
    rw [Pipeline.unscopedBufs_held] at hjoin
    have harrs : (dat0 (ent0 m) c).toR.arraysAt cfg0.N ⊢ ((rdats m 0 c).arrays ((dat0 (ent0 m) c).arrAt · cfg0.N) : sProp 𝕄) :=
      (dat0 (ent0 m) c).toR_arraysAt_post cfg0.N
    show iprop((dat0 (ent0 m) c).toR.arraysAt cfg0.N ∗ _ ∗ _ ∗ _) ⊢ _
    iintro ⟨Ha, HO, HY, Hrest⟩
    ihave Ha' := harrs $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

theorem V11_v50 (c : Dev nD) : V11 m (outs m) c main_v50 = res1 m c := by
  show Function.update (V10 m (outs m) c) main_v50 (outs m 11 main_v50 c) main_v50 = _
  rw [Function.update_self, outs_v50]

theorem arr1_in (c : Dev nD) (w : Fin cfg1.W) (hin : (cfg1.win w).isOut = false)
    (hne : Pipeline.arrRef spec1 w ∉ ([main_v50] : List (Ref sig .tc)))
    (Fb : Buf (Elt F) (((cfg1.win w)).arr.view.loc (c.tc : Thread nD τ)))
    (h : (rdat1 (ent1 m) c).ArrAt w cfg1.N Fb) : Fb = V11 m (outs m) c (Pipeline.arrRef spec1 w) := by
  rw [(rdat1 (ent1 m) c).ArrAt_in w hin cfg1.N] at h
  rw [h, rdat1_A]
  exact ((V11_of m (outs m) c _ hne).trans (by rw [V10_eq])).symm

theorem arr1_out (c : Dev nD) (Fb : Buf (Elt F) (((cfg1.win 4)).arr.view.loc (c.tc : Thread nD τ)))
    (h : (rdat1 (ent1 m) c).ArrAt 4 cfg1.N Fb) : Fb = V11 m (outs m) c (Pipeline.arrRef spec1 4) :=
  (final1 (ent1 m) c Fb h).trans (V11_v50 m c).symm

theorem win1_cases : ∀ w : Fin cfg1.W, w = 0 ∨ w = 1 ∨ w = 2 ∨ w = 3 ∨ w = 4 := by decide

theorem arr1_det (c : Dev nD) (w : Fin cfg1.W) (Fb : Buf (Elt F) (((cfg1.win w)).arr.view.loc (c.tc : Thread nD τ)))
    (h : (rdat1 (ent1 m) c).ArrAt w cfg1.N Fb) : Fb = V11 m (outs m) c (Pipeline.arrRef spec1 w) := by
  rcases win1_cases w with rfl | rfl | rfl | rfl | rfl
  · exact arr1_in m c 0 rfl (by decide) Fb h
  · exact arr1_in m c 1 rfl (by decide) Fb h
  · exact arr1_in m c 2 rfl (by decide) Fb h
  · exact arr1_in m c 3 rfl (by decide) Fb h
  · exact arr1_out m c Fb h

theorem hrest1 (c : Dev nD) : ∀ b, b ∉ Finset.univ.image (Pipeline.arrRef spec1) → (fun b => V11 m (outs m) c b) b = ent1 m c b :=
  fun b hb => (V11_of m (outs m) c b (by
    intro h; apply hb; rw [List.mem_singleton] at h; subst h
    exact Finset.mem_image.mpr ⟨4, Finset.mem_univ _, rfl⟩)).trans (by rw [V10_eq])

set_option backward.isDefEq.respectTransparency.types false in
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (ent1 m) c
  hwaits := Pipeline.RDat.hwaits_of_owed_zero _ _ _ _ L lv 1 fun _ _ => rfl
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.RDat.arrays_of_unscopedBufs (p := 1) (pcfgs (F := F)) adm (rdats m) launch1.win launch1.arr_whole c
      ((rdat1 (ent1 m) c).share_full fun _ => rfl) (ent1 m c) (fun w => rdat1_A (ent1 m) c w)
    rw [Pipeline.unscopedBufs_held] at hsplit
    show iprop((StableHlo.held (c : Thread nD τ) (Pipeline.ucRefs τ sig) (V10 m (outs m) c) ∗ R c) ∗ BI.emp ∗ levAts L lv) ⊢ _
    rw [V10_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    show _ ⊢ (rdat1 (ent1 m) c).Φ 0
    iintro ⟨Hp, -, Hr⟩
    iapply (phi1_in (ent1 m) c)
    isplitl [Hp]; · iexact Hp
    iexact Hr
  hout c := by
    rw [Pipeline.ownSems0_none]
    show (rdat1 (ent1 m) c).Φ (Fin.last cfg1.N) ⊢ _
    iintro H
    ihave H' := (phi1_out (ent1 m) c) $$ H
    icases H' with ⟨Hp, Hr⟩
    isplitl [Hp]; · iexact Hp
    isplitr; · iempintro
    iexact Hr
  hexit c := by
    have hjoin := bufs_of_arrays m (p := 1) launch1.win launch1.arr_whole c
      ((rdat1 (ent1 m) c).share_full fun _ => rfl)
      (ent1 m c) (fun b => V11 m (outs m) c b) (fun w => V11 m (outs m) c (Pipeline.arrRef spec1 w)) (fun _ => rfl) (hrest1 m c)
    rw [Pipeline.unscopedBufs_held] at hjoin
    have harrs : (rdats m 1 c).arraysAt cfg1.N ⊢ ((rdats m 1 c).arrays (fun w => V11 m (outs m) c (Pipeline.arrRef spec1 w)) : sProp 𝕄) := by
      show (rdat1 (ent1 m) c).arraysAt cfg1.N ⊢ ((rdat1 (ent1 m) c).arrays (fun w => V11 m (outs m) c (Pipeline.arrRef spec1 w)) : sProp 𝕄)
      unfold Pipeline.RDat.arraysAt Pipeline.RDat.arrays
      exact BI.bigSep_mono fun w _ =>
        show iprop(∃ Fb, ⌜(rdat1 (ent1 m) c).ArrAt w cfg1.N Fb⌝ ∗ (cfg1.win w).arr.view.loc (c.tc : Thread nD τ) ↦[(cfg1.win w).arr.view.set]{(rdat1 (ent1 m) c).share w} Fb)
            ⊢ ((cfg1.win w).arr.view.loc (c.tc : Thread nD τ) ↦[(cfg1.win w).arr.view.set]{(rdat1 (ent1 m) c).share w} V11 m (outs m) c (Pipeline.arrRef spec1 w) : sProp 𝕄) from by
          iintro ⟨%Fb, %h, H⟩; rw [← arr1_det m c w Fb h]; iexact H
    show iprop((rdats m 1 c).arraysAt cfg1.N ∗ _ ∗ _ ∗ _) ⊢ _
    iintro ⟨Ha, HO, HY, Hrest⟩
    ihave Ha' := harrs $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

abbrev segs : List (Pipeline.RDat.Seg (pcfgs (F := F)) adm (rdats m) () defs₀ 𝒱₀ L lv) :=
  [ .host (seg0 m 𝒱₀ L lv ER), .host (seg1 m 𝒱₀ L lv ER), .host (seg2 m 𝒱₀ L lv ER), .host (seg3 m 𝒱₀ L lv ER),
    .host (seg4 m 𝒱₀ L lv ER), .host (seg5 m 𝒱₀ L lv ER), .host (seg6 m 𝒱₀ L lv ER),
    .region (reg0 m),
    .host (seg8 m (outs m) 𝒱₀ L lv ER), .host (seg9 m (outs m) 𝒱₀ L lv ER),
    .region (reg1 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (V11 m (outs m) c) ∗ ∃ r, prngReg c r)

set_option backward.isDefEq.respectTransparency.types false in
theorem run_main : θ_run defs (onTc (τ := τ) (main (F := F))) ⟨m, fun _ => 0, ρ⟩ (fun r => ∀ c : Dev nD,
      r.2.mem ((c.tc : Thread nD τ).loc main_v50) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()),
          StableHlo.seq hostOps1, StableHlo.seq hostOps1_1,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (V11 m (outs m) c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V11 m (outs m) c) s')
      isplitl [Hh] <;> iassumption)
    (hQ := fun s h c =>
      ⟨(h c _ (mem_uc main_v50 (by decide))).trans (V11_v50 m c),
       (h c _ (mem_uc main_arg0 (by decide))).trans (V11_main_arg0 m (outs m) c),
       (h c _ (mem_uc main_arg1 (by decide))).trans (V11_main_arg1 m (outs m) c),
       (h c _ (mem_uc main_arg2 (by decide))).trans (V11_main_arg2 m (outs m) c),
       (h c _ (mem_uc main_arg3 (by decide))).trans (V11_main_arg3 m (outs m) c),
       (h c _ (mem_uc main_arg4 (by decide))).trans (V11_main_arg4 m (outs m) c),
       (h c _ (mem_uc main_arg5 (by decide))).trans (V11_main_arg5 m (outs m) c),
       (h c _ (mem_uc main_arg6 (by decide))).trans (V11_main_arg6 m (outs m) c),
       (h c _ (mem_uc main_arg7 (by decide))).trans (V11_main_arg7 m (outs m) c),
       (h c _ (mem_uc main_arg8 (by decide))).trans (V11_main_arg8 m (outs m) c),
       (h c _ (mem_uc main_arg9 (by decide))).trans (V11_main_arg9 m (outs m) c)⟩)

end Cert.KernelIdeal.Hand

end
-- ==== Proof.KI.HostValues.lean ====
-- What each stretch of host operations around the two kernel regions computes, as functions of the argument arrays.
import proofs.«416059_j58626303591152_2_alg».proof.Proof.Gen.KernelIdeal.Regions

set_option maxRecDepth 4096

noncomputable section

namespace Cert.KernelIdeal.Hand

open Cert.KernelIdeal Cert.KernelIdeal.Gen
open Idealize.ShloMosaic Idealize.ShloMosaic.TcCoe
open Idealize.SL.Sem

variable {F : FTy → Type} [FloatOps F]

def kWrap (n : BitVec 32) (idx : IVec S1250000 32) : IVec S1250000 32 :=
  select (cmpi .slt idx (broadcastInDim S1250000 ![] bcast_S_S1250000 (constantI S_ 32 0#32)))
    (addi idx (broadcastInDim S1250000 ![] bcast_S_S1250000 (constantI S_ 32 n)))
    idx

def kCol (idx : IVec S1250000 32) : IVec S1250000x1 32 :=
  broadcastInDim S1250000x1 ![0] bcast_S1250000_S1250000x1_0 idx

def kMask (hi : BitVec 32) (col : IVec S1250000x1 32) : IVec S1250000 1 :=
  Host.reduce IntOp.andi
    (andi (cmpi .sge col (broadcastInDim S1250000x1 ![] bcast_S_S1250000x1 (constantI S_ 32 0#32)))
      (cmpi .sle col (broadcastInDim S1250000x1 ![0, 1] bcast_S1x1_S1250000x1_0_1
        (broadcastInDim S1x1 ![1] bcast_S1_S1x1_1 (constantI S1 32 hi)))))
    (constantI S_ 1 1#1) reducesTo_S1250000x1_S1250000_d1 h_S_

def kTakeFeat (x0 : FVec F S100000x32 .f32) (idx : IVec S1250000 32) : FVec F S1250000x32 .f32 :=
  select
    (broadcastInDim S1250000x32 ![0] bcast_S1250000_S1250000x32_0 (kMask 99999#32 (kCol (kWrap 100000#32 idx))))
    (Host.gather gather_S100000x32_S1250000x1_S1250000x32_1_0_n_n_0_1_132 x0 (kCol (kWrap 100000#32 idx)))
    (broadcastInDim S1250000x32 ![] bcast_S_S1250000x32 (constant (F := F) S_ .f32 0x7FC00000#32))

def kTake4 (x : FVec F S4 .f32) (idx : IVec S1250000 32) : FVec F S1250000 .f32 :=
  select (kMask 3#32 (kCol (kWrap 4#32 idx)))
    (Host.gather gather_S4_S1250000x1_S1250000_n_0_n_n_0_1_1 x (kCol (kWrap 4#32 idx)))
    (broadcastInDim S1250000 ![] bcast_S_S1250000 (constant (F := F) S_ .f32 0x7FC00000#32))

def kTake1 (x : FVec F S100000 .f32) (idx : IVec S1250000 32) : FVec F S1250000 .f32 :=
  select (kMask 99999#32 (kCol (kWrap 100000#32 idx)))
    (Host.gather gather_S100000_S1250000x1_S1250000_n_0_n_n_0_1_1 x (kCol (kWrap 100000#32 idx)))
    (broadcastInDim S1250000 ![] bcast_S_S1250000 (constant (F := F) S_ .f32 0x7FC00000#32))

def kTake64 (y : FVec F S100000x64 .f32) (idx : IVec S1250000 32) : FVec F S1250000x64 .f32 :=
  select
    (broadcastInDim S1250000x64 ![0] bcast_S1250000_S1250000x64_0 (kMask 99999#32 (kCol (kWrap 100000#32 idx))))
    (Host.gather gather_S100000x64_S1250000x1_S1250000x64_1_0_n_n_0_1_164 y (kCol (kWrap 100000#32 idx)))
    (broadcastInDim S1250000x64 ![] bcast_S_S1250000x64 (constant (F := F) S_ .f32 0x7FC00000#32))

def kAttOf (a b : FVec F S1250000x32 .f32) (mu sg : FVec F S1250000 .f32) : FVec F S1250000 .f32 :=
  Host.exp
    (mulf
      (mulf (broadcastInDim S1250000 ![] bcast_S_S1250000 (constant (F := F) S_ .f32 0xBF000000#32))
        (Host.divf (subf (Host.sqrt (Host.reduceAdd (mulf (subf a b) (subf a b)) (constant (F := F) S_ .f32 0x00000000#32)
          reducesTo_S1250000x32_S1250000_d1 h_S_)) mu) sg))
      (Host.divf (subf (Host.sqrt (Host.reduceAdd (mulf (subf a b) (subf a b)) (constant (F := F) S_ .f32 0x00000000#32)
        reducesTo_S1250000x32_S1250000_d1 h_S_)) mu) sg))

def kAtt (x0 : FVec F S100000x32 .f32) (x1 x2 x3 : IVec S1250000 32) (x8 x9 : FVec F S4 .f32) : FVec F S1250000 .f32 :=
  kAttOf (kTakeFeat x0 x1) (kTakeFeat x0 x2) (kTake4 x8 x3) (kTake4 x9 x3)

def kInvSqrtDeg (idx : IVec S1250000 32) : FVec F S100000 .f32 :=
  Host.powf
    (maximumf
      (Host.scatterAdd scatter_S100000_S1250000x1_S1250000_n_0_0_1
        (broadcastInDim S100000 ![] bcast_S_S100000 (constant (F := F) S_ .f32 0x00000000#32))
        (kCol idx)
        (broadcastInDim S1250000 ![] bcast_S_S1250000 (constant (F := F) S_ .f32 0x3F800000#32)))
      (broadcastInDim S100000 ![] bcast_S_S100000 (constant (F := F) S_ .f32 0x3F800000#32)))
    (broadcastInDim S100000 ![] bcast_S_S100000 (constant (F := F) S_ .f32 0xBF000000#32))

def kNs (x1 : IVec S1250000 32) : FVec F S100000 .f32 := kInvSqrtDeg x1
def kNd (x2 : IVec S1250000 32) : FVec F S100000 .f32 := kInvSqrtDeg x2

def kNorms (x1 x2 : IVec S1250000 32) : FVec F S100000x2 .f32 :=
  concatenate S100000x2 1
    [⟨S100000x1, broadcastInDim S100000x1 ![0] bcast_S100000_S100000x1_0 (kNs (F := F) x1)⟩,
     ⟨S100000x1, broadcastInDim S100000x1 ![0] bcast_S100000_S100000x1_0 (kNd (F := F) x2)⟩]
    concatenates_S100000x1_S100000x1_S100000x2_d1

def kMsg1Of (f : FVec F S1250000x32 .f32) (w : FVec F S1250000 .f32) : FVec F S1250000x32 .f32 :=
  mulf f (broadcastInDim S1250000x32 ![0, 1] bcast_S1250000x1_S1250000x32_0_1
    (broadcastInDim S1250000x1 ![0] bcast_S1250000_S1250000x1_0 w))

def kAgg1Of (f : FVec F S1250000x32 .f32) (nsrc att : FVec F S1250000 .f32) (x2 : IVec S1250000 32) : FVec F S100000x32 .f32 :=
  Host.scatterAdd scatter_S100000x32_S1250000x1_S1250000x32_1_0_0_1
    (broadcastInDim S100000x32 ![] bcast_S_S100000x32 (constant (F := F) S_ .f32 0x00000000#32))
    (kCol x2) (kMsg1Of f (mulf nsrc att))

def kAgg1 (x0 : FVec F S100000x32 .f32) (x1 x2 x3 : IVec S1250000 32) (x8 x9 : FVec F S4 .f32) : FVec F S100000x32 .f32 :=
  kAgg1Of (kTakeFeat x0 x1) (kTake1 (kNs x1) x1) (kAtt x0 x1 x2 x3 x8 x9) x2

def kMsg2Of (g : FVec F S1250000x64 .f32) (w : FVec F S1250000 .f32) : FVec F S1250000x64 .f32 :=
  mulf g (broadcastInDim S1250000x64 ![0, 1] bcast_S1250000x1_S1250000x64_0_1
    (broadcastInDim S1250000x1 ![0] bcast_S1250000_S1250000x1_0 w))

def kAgg2Of (g : FVec F S1250000x64 .f32) (att : FVec F S1250000 .f32) (x2 : IVec S1250000 32) : FVec F S100000x64 .f32 :=
  Host.scatterAdd scatter_S100000x64_S1250000x1_S1250000x64_1_0_0_1
    (broadcastInDim S100000x64 ![] bcast_S_S100000x64 (constant (F := F) S_ .f32 0x00000000#32))
    (kCol x2) (kMsg2Of g att)

def kAgg2 (y : FVec F S100000x64 .f32) (x0 : FVec F S100000x32 .f32) (x1 x2 x3 : IVec S1250000 32) (x8 x9 : FVec F S4 .f32) :
    FVec F S100000x64 .f32 :=
  kAgg2Of (kTake64 y x1) (kAtt x0 x1 x2 x3 x8 x9) x2

section Stages
variable (W : Valuation τ sig (Elt F))

abbrev takeA0 : List (HloOp τ sig (Elt F)) := (hostOps0 (F := F)).take 8
abbrev takeB0 : List (HloOp τ sig (Elt F)) := ((hostOps0 (F := F)).drop 8).take 10
abbrev takeC0 : List (HloOp τ sig (Elt F)) := ((hostOps0 (F := F)).drop 8).drop 10

theorem takeA0_col : StableHlo.after (takeA0 (F := F)) W (Proc.devRef .tc main_call0_v5) = kCol (kWrap 100000#32 (W (Proc.devRef .tc main_arg1))) := by
  simp only [takeA0, hostOps0, List.take_succ_cons, List.take_zero, List.drop_succ_cons, List.drop_zero]
  after_results_simp
  simp only [StableHlo.TRef.ofBuf, StableHlo.TRef.toBuf, cast_eq]
  rfl
theorem takeA0_tbl : StableHlo.after (takeA0 (F := F)) W (Proc.devRef .tc main_arg0) = (W (Proc.devRef .tc main_arg0)) := by
  simp only [takeA0, hostOps0, List.take_succ_cons, List.take_zero, List.drop_succ_cons, List.drop_zero]
  after_results_simp
theorem takeB0_mask : StableHlo.after (takeB0 (F := F)) W (Proc.devRef .tc main_call0_v12) = kMask 99999#32 (W (Proc.devRef .tc main_call0_v5)) := by
  simp only [takeB0, hostOps0, List.take_succ_cons, List.take_zero, List.drop_succ_cons, List.drop_zero]
  after_results_simp
  simp only [StableHlo.TRef.ofBuf, StableHlo.TRef.toBuf, cast_eq]
  rfl
theorem takeB0_tbl : StableHlo.after (takeB0 (F := F)) W (Proc.devRef .tc main_arg0) = (W (Proc.devRef .tc main_arg0)) := by
  simp only [takeB0, hostOps0, List.take_succ_cons, List.take_zero, List.drop_succ_cons, List.drop_zero]
  after_results_simp
theorem takeB0_col : StableHlo.after (takeB0 (F := F)) W (Proc.devRef .tc main_call0_v5) = (W (Proc.devRef .tc main_call0_v5)) := by
  simp only [takeB0, hostOps0, List.take_succ_cons, List.take_zero, List.drop_succ_cons, List.drop_zero]
  after_results_simp
theorem takeC0_res : StableHlo.after (takeC0 (F := F)) W (Proc.devRef .tc main_v0)
    = select (broadcastInDim S1250000x32 ![0] bcast_S1250000_S1250000x32_0 (W (Proc.devRef .tc main_call0_v12)))
      (Host.gather gather_S100000x32_S1250000x1_S1250000x32_1_0_n_n_0_1_132 (W (Proc.devRef .tc main_arg0)) (W (Proc.devRef .tc main_call0_v5)))
      (broadcastInDim S1250000x32 ![] bcast_S_S1250000x32 (constant (F := F) S_ .f32 0x7FC00000#32)) := by
  simp only [takeC0, hostOps0, List.take_succ_cons, List.take_zero, List.drop_succ_cons, List.drop_zero]
  after_results_simp
  simp only [StableHlo.TRef.ofBuf, StableHlo.TRef.toBuf, cast_eq]
theorem take0_run : StableHlo.after (hostOps0 (F := F)) W (Proc.devRef .tc main_v0)
    = kTakeFeat (W (Proc.devRef .tc main_arg0)) (W (Proc.devRef .tc main_arg1)) := by
  rw [← List.take_append_drop 8 (hostOps0 (F := F)), ← List.take_append_drop 10 (List.drop 8 (hostOps0 (F := F))),
    StableHlo.after_append, StableHlo.after_append, takeC0_res, takeB0_mask, takeB0_tbl, takeB0_col,
    takeA0_col, takeA0_tbl]
  rfl

abbrev takeA1 : List (HloOp τ sig (Elt F)) := (hostOps0_1 (F := F)).take 8
abbrev takeB1 : List (HloOp τ sig (Elt F)) := ((hostOps0_1 (F := F)).drop 8).take 10
abbrev takeC1 : List (HloOp τ sig (Elt F)) := ((hostOps0_1 (F := F)).drop 8).drop 10

theorem takeA1_col : StableHlo.after (takeA1 (F := F)) W (Proc.devRef .tc main_call1_v5) = kCol (kWrap 100000#32 (W (Proc.devRef .tc main_arg2))) := by
  simp only [takeA1, hostOps0_1, List.take_succ_cons, List.take_zero, List.drop_succ_cons, List.drop_zero]
  after_results_simp
  simp only [StableHlo.TRef.ofBuf, StableHlo.TRef.toBuf, cast_eq]
  rfl
theorem takeA1_tbl : StableHlo.after (takeA1 (F := F)) W (Proc.devRef .tc main_arg0) = (W (Proc.devRef .tc main_arg0)) := by
  simp only [takeA1, hostOps0_1, List.take_succ_cons, List.take_zero, List.drop_succ_cons, List.drop_zero]
  after_results_simp
theorem takeB1_mask : StableHlo.after (takeB1 (F := F)) W (Proc.devRef .tc main_call1_v12) = kMask 99999#32 (W (Proc.devRef .tc main_call1_v5)) := by
  simp only [takeB1, hostOps0_1, List.take_succ_cons, List.take_zero, List.drop_succ_cons, List.drop_zero]
  after_results_simp
  simp only [StableHlo.TRef.ofBuf, StableHlo.TRef.toBuf, cast_eq]
  rfl
theorem takeB1_tbl : StableHlo.after (takeB1 (F := F)) W (Proc.devRef .tc main_arg0) = (W (Proc.devRef .tc main_arg0)) := by
  simp only [takeB1, hostOps0_1, List.take_succ_cons, List.take_zero, List.drop_succ_cons, List.drop_zero]
  after_results_simp
theorem takeB1_col : StableHlo.after (takeB1 (F := F)) W (Proc.devRef .tc main_call1_v5) = (W (Proc.devRef .tc main_call1_v5)) := by
  simp only [takeB1, hostOps0_1, List.take_succ_cons, List.take_zero, List.drop_succ_cons, List.drop_zero]
  after_results_simp
theorem takeC1_res : StableHlo.after (takeC1 (F := F)) W (Proc.devRef .tc main_v1)
    = select (broadcastInDim S1250000x32 ![0] bcast_S1250000_S1250000x32_0 (W (Proc.devRef .tc main_call1_v12)))
      (Host.gather gather_S100000x32_S1250000x1_S1250000x32_1_0_n_n_0_1_132 (W (Proc.devRef .tc main_arg0)) (W (Proc.devRef .tc main_call1_v5)))
      (broadcastInDim S1250000x32 ![] bcast_S_S1250000x32 (constant (F := F) S_ .f32 0x7FC00000#32)) := by
  simp only [takeC1, hostOps0_1, List.take_succ_cons, List.take_zero, List.drop_succ_cons, List.drop_zero]
  after_results_simp
  simp only [StableHlo.TRef.ofBuf, StableHlo.TRef.toBuf, cast_eq]
theorem take1_run : StableHlo.after (hostOps0_1 (F := F)) W (Proc.devRef .tc main_v1)
    = kTakeFeat (W (Proc.devRef .tc main_arg0)) (W (Proc.devRef .tc main_arg2)) := by
  rw [← List.take_append_drop 8 (hostOps0_1 (F := F)), ← List.take_append_drop 10 (List.drop 8 (hostOps0_1 (F := F))),
    StableHlo.after_append, StableHlo.after_append, takeC1_res, takeB1_mask, takeB1_tbl, takeB1_col,
    takeA1_col, takeA1_tbl]
  rfl

abbrev takeA2 : List (HloOp τ sig (Elt F)) := (hostOps0_2 (F := F)).take 8
abbrev takeB2 : List (HloOp τ sig (Elt F)) := ((hostOps0_2 (F := F)).drop 8).take 10
abbrev takeC2 : List (HloOp τ sig (Elt F)) := ((hostOps0_2 (F := F)).drop 8).drop 10

theorem takeA2_col : StableHlo.after (takeA2 (F := F)) W (Proc.devRef .tc main_call2_v5) = kCol (kWrap 4#32 (W (Proc.devRef .tc main_arg3))) := by
  simp only [takeA2, hostOps0_2, List.take_succ_cons, List.take_zero, List.drop_succ_cons, List.drop_zero]
  after_results_simp
  simp only [StableHlo.TRef.ofBuf, StableHlo.TRef.toBuf, cast_eq]
  rfl
theorem takeA2_tbl : StableHlo.after (takeA2 (F := F)) W (Proc.devRef .tc main_arg8) = (W (Proc.devRef .tc main_arg8)) := by
  simp only [takeA2, hostOps0_2, List.take_succ_cons, List.take_zero, List.drop_succ_cons, List.drop_zero]
  after_results_simp
theorem takeB2_mask : StableHlo.after (takeB2 (F := F)) W (Proc.devRef .tc main_call2_v12) = kMask 3#32 (W (Proc.devRef .tc main_call2_v5)) := by
  simp only [takeB2, hostOps0_2, List.take_succ_cons, List.take_zero, List.drop_succ_cons, List.drop_zero]
  after_results_simp
  simp only [StableHlo.TRef.ofBuf, StableHlo.TRef.toBuf, cast_eq]
  rfl
theorem takeB2_tbl : StableHlo.after (takeB2 (F := F)) W (Proc.devRef .tc main_arg8) = (W (Proc.devRef .tc main_arg8)) := by
  simp only [takeB2, hostOps0_2, List.take_succ_cons, List.take_zero, List.drop_succ_cons, List.drop_zero]
  after_results_simp
theorem takeB2_col : StableHlo.after (takeB2 (F := F)) W (Proc.devRef .tc main_call2_v5) = (W (Proc.devRef .tc main_call2_v5)) := by
  simp only [takeB2, hostOps0_2, List.take_succ_cons, List.take_zero, List.drop_succ_cons, List.drop_zero]
  after_results_simp
theorem takeC2_res : StableHlo.after (takeC2 (F := F)) W (Proc.devRef .tc main_v2)
    = select (W (Proc.devRef .tc main_call2_v12))
      (Host.gather gather_S4_S1250000x1_S1250000_n_0_n_n_0_1_1 (W (Proc.devRef .tc main_arg8)) (W (Proc.devRef .tc main_call2_v5)))
      (broadcastInDim S1250000 ![] bcast_S_S1250000 (constant (F := F) S_ .f32 0x7FC00000#32)) := by
  simp only [takeC2, hostOps0_2, List.take_succ_cons, List.take_zero, List.drop_succ_cons, List.drop_zero]
  after_results_simp
  simp only [StableHlo.TRef.ofBuf, StableHlo.TRef.toBuf, cast_eq]
theorem take2_run : StableHlo.after (hostOps0_2 (F := F)) W (Proc.devRef .tc main_v2)
    = kTake4 (W (Proc.devRef .tc main_arg8)) (W (Proc.devRef .tc main_arg3)) := by
  rw [← List.take_append_drop 8 (hostOps0_2 (F := F)), ← List.take_append_drop 10 (List.drop 8 (hostOps0_2 (F := F))),
    StableHlo.after_append, StableHlo.after_append, takeC2_res, takeB2_mask, takeB2_tbl, takeB2_col,
    takeA2_col, takeA2_tbl]
  rfl

abbrev takeA3 : List (HloOp τ sig (Elt F)) := (hostOps0_3 (F := F)).take 8
abbrev takeB3 : List (HloOp τ sig (Elt F)) := ((hostOps0_3 (F := F)).drop 8).take 10
abbrev takeC3 : List (HloOp τ sig (Elt F)) := ((hostOps0_3 (F := F)).drop 8).drop 10

theorem takeA3_col : StableHlo.after (takeA3 (F := F)) W (Proc.devRef .tc main_call3_v5) = kCol (kWrap 4#32 (W (Proc.devRef .tc main_arg3))) := by
  simp only [takeA3, hostOps0_3, List.take_succ_cons, List.take_zero, List.drop_succ_cons, List.drop_zero]
  after_results_simp
  simp only [StableHlo.TRef.ofBuf, StableHlo.TRef.toBuf, cast_eq]
  rfl
theorem takeA3_tbl : StableHlo.after (takeA3 (F := F)) W (Proc.devRef .tc main_arg9) = (W (Proc.devRef .tc main_arg9)) := by
  simp only [takeA3, hostOps0_3, List.take_succ_cons, List.take_zero, List.drop_succ_cons, List.drop_zero]
  after_results_simp
theorem takeB3_mask : StableHlo.after (takeB3 (F := F)) W (Proc.devRef .tc main_call3_v12) = kMask 3#32 (W (Proc.devRef .tc main_call3_v5)) := by
  simp only [takeB3, hostOps0_3, List.take_succ_cons, List.take_zero, List.drop_succ_cons, List.drop_zero]
  after_results_simp
  simp only [StableHlo.TRef.ofBuf, StableHlo.TRef.toBuf, cast_eq]
  rfl
theorem takeB3_tbl : StableHlo.after (takeB3 (F := F)) W (Proc.devRef .tc main_arg9) = (W (Proc.devRef .tc main_arg9)) := by
  simp only [takeB3, hostOps0_3, List.take_succ_cons, List.take_zero, List.drop_succ_cons, List.drop_zero]
  after_results_simp
theorem takeB3_col : StableHlo.after (takeB3 (F := F)) W (Proc.devRef .tc main_call3_v5) = (W (Proc.devRef .tc main_call3_v5)) := by
  simp only [takeB3, hostOps0_3, List.take_succ_cons, List.take_zero, List.drop_succ_cons, List.drop_zero]
  after_results_simp
theorem takeC3_res : StableHlo.after (takeC3 (F := F)) W (Proc.devRef .tc main_v3)
    = select (W (Proc.devRef .tc main_call3_v12))
      (Host.gather gather_S4_S1250000x1_S1250000_n_0_n_n_0_1_1 (W (Proc.devRef .tc main_arg9)) (W (Proc.devRef .tc main_call3_v5)))
      (broadcastInDim S1250000 ![] bcast_S_S1250000 (constant (F := F) S_ .f32 0x7FC00000#32)) := by
  simp only [takeC3, hostOps0_3, List.take_succ_cons, List.take_zero, List.drop_succ_cons, List.drop_zero]
  after_results_simp
  simp only [StableHlo.TRef.ofBuf, StableHlo.TRef.toBuf, cast_eq]
theorem take3_run : StableHlo.after (hostOps0_3 (F := F)) W (Proc.devRef .tc main_v3)
    = kTake4 (W (Proc.devRef .tc main_arg9)) (W (Proc.devRef .tc main_arg3)) := by
  rw [← List.take_append_drop 8 (hostOps0_3 (F := F)), ← List.take_append_drop 10 (List.drop 8 (hostOps0_3 (F := F))),
    StableHlo.after_append, StableHlo.after_append, takeC3_res, takeB3_mask, takeB3_tbl, takeB3_col,
    takeA3_col, takeA3_tbl]
  rfl

abbrev takeA4 : List (HloOp τ sig (Elt F)) := (hostOps0_5 (F := F)).take 8
abbrev takeB4 : List (HloOp τ sig (Elt F)) := ((hostOps0_5 (F := F)).drop 8).take 10
abbrev takeC4 : List (HloOp τ sig (Elt F)) := ((hostOps0_5 (F := F)).drop 8).drop 10

theorem takeA4_col : StableHlo.after (takeA4 (F := F)) W (Proc.devRef .tc main_call4_v5) = kCol (kWrap 100000#32 (W (Proc.devRef .tc main_arg1))) := by
  simp only [takeA4, hostOps0_5, List.take_succ_cons, List.take_zero, List.drop_succ_cons, List.drop_zero]
  after_results_simp
  simp only [StableHlo.TRef.ofBuf, StableHlo.TRef.toBuf, cast_eq]
  rfl
theorem takeA4_tbl : StableHlo.after (takeA4 (F := F)) W (Proc.devRef .tc main_v24) = (W (Proc.devRef .tc main_v24)) := by
  simp only [takeA4, hostOps0_5, List.take_succ_cons, List.take_zero, List.drop_succ_cons, List.drop_zero]
  after_results_simp
theorem takeB4_mask : StableHlo.after (takeB4 (F := F)) W (Proc.devRef .tc main_call4_v12) = kMask 99999#32 (W (Proc.devRef .tc main_call4_v5)) := by
  simp only [takeB4, hostOps0_5, List.take_succ_cons, List.take_zero, List.drop_succ_cons, List.drop_zero]
  after_results_simp
  simp only [StableHlo.TRef.ofBuf, StableHlo.TRef.toBuf, cast_eq]
  rfl
theorem takeB4_tbl : StableHlo.after (takeB4 (F := F)) W (Proc.devRef .tc main_v24) = (W (Proc.devRef .tc main_v24)) := by
  simp only [takeB4, hostOps0_5, List.take_succ_cons, List.take_zero, List.drop_succ_cons, List.drop_zero]
  after_results_simp
theorem takeB4_col : StableHlo.after (takeB4 (F := F)) W (Proc.devRef .tc main_call4_v5) = (W (Proc.devRef .tc main_call4_v5)) := by
  simp only [takeB4, hostOps0_5, List.take_succ_cons, List.take_zero, List.drop_succ_cons, List.drop_zero]
  after_results_simp
theorem takeC4_res : StableHlo.after (takeC4 (F := F)) W (Proc.devRef .tc main_v32)
    = select (W (Proc.devRef .tc main_call4_v12))
      (Host.gather gather_S100000_S1250000x1_S1250000_n_0_n_n_0_1_1 (W (Proc.devRef .tc main_v24)) (W (Proc.devRef .tc main_call4_v5)))
      (broadcastInDim S1250000 ![] bcast_S_S1250000 (constant (F := F) S_ .f32 0x7FC00000#32)) := by
  simp only [takeC4, hostOps0_5, List.take_succ_cons, List.take_zero, List.drop_succ_cons, List.drop_zero]
  after_results_simp
  simp only [StableHlo.TRef.ofBuf, StableHlo.TRef.toBuf, cast_eq]
theorem take4_run : StableHlo.after (hostOps0_5 (F := F)) W (Proc.devRef .tc main_v32)
    = kTake1 (W (Proc.devRef .tc main_v24)) (W (Proc.devRef .tc main_arg1)) := by
  rw [← List.take_append_drop 8 (hostOps0_5 (F := F)), ← List.take_append_drop 10 (List.drop 8 (hostOps0_5 (F := F))),
    StableHlo.after_append, StableHlo.after_append, takeC4_res, takeB4_mask, takeB4_tbl, takeB4_col,
    takeA4_col, takeA4_tbl]
  rfl

abbrev takeA5 : List (HloOp τ sig (Elt F)) := (hostOps1 (F := F)).take 8
abbrev takeB5 : List (HloOp τ sig (Elt F)) := ((hostOps1 (F := F)).drop 8).take 10
abbrev takeC5 : List (HloOp τ sig (Elt F)) := ((hostOps1 (F := F)).drop 8).drop 10

theorem takeA5_col : StableHlo.after (takeA5 (F := F)) W (Proc.devRef .tc main_call5_v5) = kCol (kWrap 100000#32 (W (Proc.devRef .tc main_arg1))) := by
  simp only [takeA5, hostOps1, List.take_succ_cons, List.take_zero, List.drop_succ_cons, List.drop_zero]
  after_results_simp
  simp only [StableHlo.TRef.ofBuf, StableHlo.TRef.toBuf, cast_eq]
  rfl
theorem takeA5_tbl : StableHlo.after (takeA5 (F := F)) W (Proc.devRef .tc main_v41) = (W (Proc.devRef .tc main_v41)) := by
  simp only [takeA5, hostOps1, List.take_succ_cons, List.take_zero, List.drop_succ_cons, List.drop_zero]
  after_results_simp
theorem takeB5_mask : StableHlo.after (takeB5 (F := F)) W (Proc.devRef .tc main_call5_v12) = kMask 99999#32 (W (Proc.devRef .tc main_call5_v5)) := by
  simp only [takeB5, hostOps1, List.take_succ_cons, List.take_zero, List.drop_succ_cons, List.drop_zero]
  after_results_simp
  simp only [StableHlo.TRef.ofBuf, StableHlo.TRef.toBuf, cast_eq]
  rfl
theorem takeB5_tbl : StableHlo.after (takeB5 (F := F)) W (Proc.devRef .tc main_v41) = (W (Proc.devRef .tc main_v41)) := by
  simp only [takeB5, hostOps1, List.take_succ_cons, List.take_zero, List.drop_succ_cons, List.drop_zero]
  after_results_simp
theorem takeB5_col : StableHlo.after (takeB5 (F := F)) W (Proc.devRef .tc main_call5_v5) = (W (Proc.devRef .tc main_call5_v5)) := by
  simp only [takeB5, hostOps1, List.take_succ_cons, List.take_zero, List.drop_succ_cons, List.drop_zero]
  after_results_simp
theorem takeC5_res : StableHlo.after (takeC5 (F := F)) W (Proc.devRef .tc main_v42)
    = select (broadcastInDim S1250000x64 ![0] bcast_S1250000_S1250000x64_0 (W (Proc.devRef .tc main_call5_v12)))
      (Host.gather gather_S100000x64_S1250000x1_S1250000x64_1_0_n_n_0_1_164 (W (Proc.devRef .tc main_v41)) (W (Proc.devRef .tc main_call5_v5)))
      (broadcastInDim S1250000x64 ![] bcast_S_S1250000x64 (constant (F := F) S_ .f32 0x7FC00000#32)) := by
  simp only [takeC5, hostOps1, List.take_succ_cons, List.take_zero, List.drop_succ_cons, List.drop_zero]
  after_results_simp
  simp only [StableHlo.TRef.ofBuf, StableHlo.TRef.toBuf, cast_eq]
theorem take5_run : StableHlo.after (hostOps1 (F := F)) W (Proc.devRef .tc main_v42)
    = kTake64 (W (Proc.devRef .tc main_v41)) (W (Proc.devRef .tc main_arg1)) := by
  rw [← List.take_append_drop 8 (hostOps1 (F := F)), ← List.take_append_drop 10 (List.drop 8 (hostOps1 (F := F))),
    StableHlo.after_append, StableHlo.after_append, takeC5_res, takeB5_mask, takeB5_tbl, takeB5_col,
    takeA5_col, takeA5_tbl]
  rfl

set_option maxHeartbeats 2000000 in
theorem att_run : StableHlo.after (hostOps0_4 (F := F)) W (Proc.devRef .tc main_v13)
    = kAttOf (W (Proc.devRef .tc main_v0)) (W (Proc.devRef .tc main_v1)) (W (Proc.devRef .tc main_v2)) (W (Proc.devRef .tc main_v3)) := by
  after_results_simp
  rfl

set_option maxHeartbeats 2000000 in
theorem ns_run : StableHlo.after (hostOps0_4 (F := F)) W (Proc.devRef .tc main_v24) = kNs (W (Proc.devRef .tc main_arg1)) := by
  after_results_simp
  rfl

set_option maxHeartbeats 2000000 in
theorem norms_run : StableHlo.after (hostOps0_4 (F := F)) W (Proc.devRef .tc main_v31)
    = kNorms (W (Proc.devRef .tc main_arg1)) (W (Proc.devRef .tc main_arg2)) := by
  after_results_simp
  rfl

theorem agg1_run : StableHlo.after (hostOps0_6 (F := F)) W (Proc.devRef .tc main_v39)
    = kAgg1Of (W (Proc.devRef .tc main_v0)) (W (Proc.devRef .tc main_v32)) (W (Proc.devRef .tc main_v13)) (W (Proc.devRef .tc main_arg2)) := by
  after_results_simp
  rfl

theorem b1_run : StableHlo.after (hostOps0_6 (F := F)) W (Proc.devRef .tc main_v40)
    = shapeCast S1x64 (W (Proc.devRef .tc main_arg5)) shapeCasts_S64_S1x64 := by
  after_results_simp
  rfl

theorem agg2_run : StableHlo.after (hostOps1_1 (F := F)) W (Proc.devRef .tc main_v48)
    = kAgg2Of (W (Proc.devRef .tc main_v42)) (W (Proc.devRef .tc main_v13)) (W (Proc.devRef .tc main_arg2)) := by
  after_results_simp
  rfl

theorem b2_run : StableHlo.after (hostOps1_1 (F := F)) W (Proc.devRef .tc main_v49)
    = shapeCast S1x64 (W (Proc.devRef .tc main_arg7)) shapeCasts_S64_S1x64 := by
  after_results_simp
  rfl

end Stages

section Chain
variable (m : (ℓ : Loc nD τ sig) → Buf (Elt F) ℓ) (outs : Outs (F := F)) (c : Dev nD)

abbrev argsL : List (Ref sig .tc) := [main_arg0, main_arg1, main_arg2, main_arg3, main_arg4, main_arg5, main_arg6, main_arg7, main_arg8, main_arg9]

-- no host stretch and no kernel region writes an argument array
theorem V1_arg (b : Ref sig .tc) (hb : b ∈ argsL) : V1 m c b = m ((c : Thread nD τ).loc b) :=
  (V1_of m c b ((by decide : ∀ b ∈ argsL, b ∉ hostOps0_W) b hb)).trans rfl
theorem V2_arg (b : Ref sig .tc) (hb : b ∈ argsL) : V2 m c b = m ((c : Thread nD τ).loc b) :=
  (V2_of m c b ((by decide : ∀ b ∈ argsL, b ∉ hostOps0_1_W) b hb)).trans (V1_arg m c b hb)
theorem V3_arg (b : Ref sig .tc) (hb : b ∈ argsL) : V3 m c b = m ((c : Thread nD τ).loc b) :=
  (V3_of m c b ((by decide : ∀ b ∈ argsL, b ∉ hostOps0_2_W) b hb)).trans (V2_arg m c b hb)
theorem V4_arg (b : Ref sig .tc) (hb : b ∈ argsL) : V4 m c b = m ((c : Thread nD τ).loc b) :=
  (V4_of m c b ((by decide : ∀ b ∈ argsL, b ∉ hostOps0_3_W) b hb)).trans (V3_arg m c b hb)
theorem V5_arg (b : Ref sig .tc) (hb : b ∈ argsL) : V5 m c b = m ((c : Thread nD τ).loc b) :=
  (V5_of m c b ((by decide : ∀ b ∈ argsL, b ∉ hostOps0_4_W) b hb)).trans (V4_arg m c b hb)
theorem V6_arg (b : Ref sig .tc) (hb : b ∈ argsL) : V6 m c b = m ((c : Thread nD τ).loc b) :=
  (V6_of m c b ((by decide : ∀ b ∈ argsL, b ∉ hostOps0_5_W) b hb)).trans (V5_arg m c b hb)
theorem V7_arg (b : Ref sig .tc) (hb : b ∈ argsL) : V7 m c b = m ((c : Thread nD τ).loc b) :=
  (V7_of m c b ((by decide : ∀ b ∈ argsL, b ∉ hostOps0_6_W) b hb)).trans (V6_arg m c b hb)
theorem V8_arg (b : Ref sig .tc) (hb : b ∈ argsL) : V8 m outs c b = m ((c : Thread nD τ).loc b) :=
  (V8_of m outs c b ((by decide : ∀ b ∈ argsL, b ∉ ([main_v41] : List (Ref sig .tc))) b hb)).trans (V7_arg m c b hb)
theorem V9_arg (b : Ref sig .tc) (hb : b ∈ argsL) : V9 m outs c b = m ((c : Thread nD τ).loc b) :=
  (V9_of m outs c b ((by decide : ∀ b ∈ argsL, b ∉ hostOps1_W) b hb)).trans (V8_arg m outs c b hb)
theorem V10_arg (b : Ref sig .tc) (hb : b ∈ argsL) : V10 m outs c b = m ((c : Thread nD τ).loc b) :=
  (V10_of m outs c b ((by decide : ∀ b ∈ argsL, b ∉ hostOps1_1_W) b hb)).trans (V9_arg m outs c b hb)

theorem V4_v0 : V4 m c main_v0 = kTakeFeat (m ((c : Thread nD τ).loc main_arg0)) (m ((c : Thread nD τ).loc main_arg1)) :=
  (V4_of m c main_v0 (by decide)).trans <| (V3_of m c main_v0 (by decide)).trans <| (V2_of m c main_v0 (by decide)).trans <| take0_run (V0 m c)
theorem V6_v0 : V6 m c main_v0 = kTakeFeat (m ((c : Thread nD τ).loc main_arg0)) (m ((c : Thread nD τ).loc main_arg1)) :=
  (V6_of m c main_v0 (by decide)).trans <| (V5_of m c main_v0 (by decide)).trans <| V4_v0 m c
theorem V4_v1 : V4 m c main_v1 = kTakeFeat (m ((c : Thread nD τ).loc main_arg0)) (m ((c : Thread nD τ).loc main_arg2)) :=
  (V4_of m c main_v1 (by decide)).trans <| (V3_of m c main_v1 (by decide)).trans <| (take1_run (V1 m c)).trans (by rw [V1_arg m c main_arg0 (by decide), V1_arg m c main_arg2 (by decide)])
theorem V4_v2 : V4 m c main_v2 = kTake4 (m ((c : Thread nD τ).loc main_arg8)) (m ((c : Thread nD τ).loc main_arg3)) :=
  (V4_of m c main_v2 (by decide)).trans <| (take2_run (V2 m c)).trans (by rw [V2_arg m c main_arg8 (by decide), V2_arg m c main_arg3 (by decide)])
theorem V4_v3 : V4 m c main_v3 = kTake4 (m ((c : Thread nD τ).loc main_arg9)) (m ((c : Thread nD τ).loc main_arg3)) := (take3_run (V3 m c)).trans (by rw [V3_arg m c main_arg9 (by decide), V3_arg m c main_arg3 (by decide)])

theorem V5_v13 : V5 m c main_v13 = kAtt (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (att_run (V4 m c)).trans (by rw [V4_v0, V4_v1, V4_v2, V4_v3]; rfl)
theorem V6_v13 : V6 m c main_v13 = kAtt (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := (V6_of m c main_v13 (by decide)).trans (V5_v13 m c)
theorem V9_v13 : V9 m outs c main_v13 = kAtt (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (V9_of m outs c main_v13 (by decide)).trans <| (V8_of m outs c main_v13 (by decide)).trans <| (V7_of m c main_v13 (by decide)).trans <| V6_v13 m c

theorem V5_v24 : V5 m c main_v24 = kNs (m ((c : Thread nD τ).loc main_arg1)) := (ns_run (V4 m c)).trans (by rw [V4_arg m c main_arg1 (by decide)])
theorem V6_v32 : V6 m c main_v32 = kTake1 (kNs (m ((c : Thread nD τ).loc main_arg1))) (m ((c : Thread nD τ).loc main_arg1)) := (take4_run (V5 m c)).trans (by rw [V5_v24, V5_arg m c main_arg1 (by decide)])

theorem V7_agg1 : V7 m c main_v39 = kAgg1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (agg1_run (V6 m c)).trans (by rw [V6_v0, V6_v32, V6_v13, V6_arg m c main_arg2 (by decide)]; rfl)
theorem V7_norms : V7 m c main_v31 = kNorms (m ((c : Thread nD τ).loc main_arg1)) (m ((c : Thread nD τ).loc main_arg2)) :=
  (V7_of m c main_v31 (by decide)).trans <| (V6_of m c main_v31 (by decide)).trans <| (norms_run (V4 m c)).trans (by rw [V4_arg m c main_arg1 (by decide), V4_arg m c main_arg2 (by decide)])
theorem V7_b1 : V7 m c main_v40 = shapeCast S1x64 (m ((c : Thread nD τ).loc main_arg5)) shapeCasts_S64_S1x64 := (b1_run (V6 m c)).trans (by rw [V6_arg m c main_arg5 (by decide)])
theorem V7_W1 : V7 m c main_arg4 = (m ((c : Thread nD τ).loc main_arg4)) := V7_arg m c main_arg4 (by decide)

theorem V8_v41 : V8 m outs c main_v41 = outs 8 main_v41 c := by
  simp only [V8, Function.update_self]
theorem V9_v42 : V9 m outs c main_v42 = kTake64 (outs 8 main_v41 c) (m ((c : Thread nD τ).loc main_arg1)) :=
  (take5_run (V8 m outs c)).trans (by rw [V8_v41, V8_arg m outs c main_arg1 (by decide)])
theorem V10_agg2 : V10 m outs c main_v48 = kAgg2 (outs 8 main_v41 c) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (agg2_run (V9 m outs c)).trans (by rw [V9_v42, V9_v13, V9_arg m outs c main_arg2 (by decide)]; rfl)
theorem V10_norms : V10 m outs c main_v31 = kNorms (m ((c : Thread nD τ).loc main_arg1)) (m ((c : Thread nD τ).loc main_arg2)) :=
  (V10_of m outs c main_v31 (by decide)).trans <| (V9_of m outs c main_v31 (by decide)).trans <| (V8_of m outs c main_v31 (by decide)).trans <| V7_norms m c
theorem V10_b2 : V10 m outs c main_v49 = shapeCast S1x64 (m ((c : Thread nD τ).loc main_arg7)) shapeCasts_S64_S1x64 := (b2_run (V9 m outs c)).trans (by rw [V9_arg m outs c main_arg7 (by decide)])
theorem V10_W2 : V10 m outs c main_arg6 = (m ((c : Thread nD τ).loc main_arg6)) := V10_arg m outs c main_arg6 (by decide)

end Chain

end Cert.KernelIdeal.Hand

end
-- ==== Proof.Spec.lean ====
-- The second dense layer and the five result rows (rows 0 and 1; mean, supremum and infimum of rows 2 to 99999) as functions of whole arrays.
import Idealize.ShloMosaic.PureOps.Ideal
import Idealize.ShloMosaic.Lib.ValueIdx

noncomputable section

namespace Cert.Hand.Spec

open Idealize.ShloMosaic Idealize.ShloMosaic.ValueIdx

abbrev A100000x64 : Shape := ⟨2, ![100000, 64]⟩
abbrev A100000x2 : Shape := ⟨2, ![100000, 2]⟩
abbrev A64x64 : Shape := ⟨2, ![64, 64]⟩
abbrev A1x64 : Shape := ⟨2, ![1, 64]⟩
abbrev A5x64 : Shape := ⟨2, ![5, 64]⟩

abbrev at2 {a b : Nat} (p : Fin a) (q : Fin b) : (⟨2, ![a, b]⟩ : Shape).Idx := fun | ⟨0, _⟩ => p | ⟨1, _⟩ => q

def dense2 (agg : A100000x64.Idx → EReal) (norms : A100000x2.Idx → EReal) (W : A64x64.Idx → EReal) (b : A1x64.Idx → EReal) :
    A100000x64.Idx → EReal :=
  fun i => max ((∑ k : Fin 64, (agg (at2 (i 0) k) * norms (at2 (i 0) (1 : Fin 2))) * W (at2 k (i 1))) + b (at2 (0 : Fin 1) (i 1))) 0

abbrev row2 (k : Fin 99998) : Fin 100000 := ⟨k.val + 2, by omega⟩

def stats2 (D : A100000x64.Idx → EReal) : A5x64.Idx → EReal :=
  fun i =>
    if (i 0).val = 0 then D (at2 (0 : Fin 100000) (i 1))
    else if (i 0).val = 1 then D (at2 (1 : Fin 100000) (i 1))
    else if (i 0).val = 2 then Ideal.div ((0 : EReal) + ∑ k : Fin 99998, D (at2 (row2 k) (i 1))) (Ideal.ofBits .f32 0x47C34F00#32)
    else if (i 0).val = 3 then ⨆ k : Fin 99998, D (at2 (row2 k) (i 1))
    else ⨅ k : Fin 99998, D (at2 (row2 k) (i 1))

end Cert.Hand.Spec

end
-- ==== Proof.KI.NormsRead.lean ====
-- The two degree norms read at a node.
import proofs.«416059_j58626303591152_2_alg».proof.Proof.KI.HostValues
import proofs.«416059_j58626303591152_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Cert.Hand.Spec (at2)

variable {F : FTy → Type} [FloatOps F]

theorem col_at {α : Type} (v : S100000.Idx → α) (p : Fin 100000) :
    broadcastInDim S100000x1 ![0] bcast_S100000_S100000x1_0 v (at2 p (0 : Fin 1)) = v (ix1 p) :=
  broadcastInDim_apply _ bcast_S100000_S100000x1_0 v (at2 p (0 : Fin 1)) (ix1 p) (fun a => match a with
    | ⟨0, _⟩ => by show p.val = if (100000 : Nat) = 1 then 0 else p.val; rw [if_neg (by decide)])

theorem cols2_left {α : Type} (a b : S100000x1.Idx → α)
    (h : Shape.Concatenates (([⟨S100000x1, a⟩, ⟨S100000x1, b⟩] : List ((s : Shape) × (s.Idx → α))).map (·.1)) S100000x2 1)
    (p : Fin 100000) :
    concatenate S100000x2 1 [⟨S100000x1, a⟩, ⟨S100000x1, b⟩] h (at2 p (0 : Fin 2)) = a (at2 p (0 : Fin 1)) :=
  concatenate_apply_piece 1 _ h (at2 p (0 : Fin 2)) 0 (by show (0 : Nat) < 2; omega) S100000x1 a rfl rfl 0 rfl
    (at2 p (0 : Fin 1))
    (fun c hc => by
      match c with
      | ⟨0, _⟩ => rfl
      | ⟨1, _⟩ => exact absurd rfl hc)
    rfl

theorem cols2_right {α : Type} (a b : S100000x1.Idx → α)
    (h : Shape.Concatenates (([⟨S100000x1, a⟩, ⟨S100000x1, b⟩] : List ((s : Shape) × (s.Idx → α))).map (·.1)) S100000x2 1)
    (p : Fin 100000) :
    concatenate S100000x2 1 [⟨S100000x1, a⟩, ⟨S100000x1, b⟩] h (at2 p (1 : Fin 2)) = b (at2 p (0 : Fin 1)) :=
  concatenate_apply_piece 1 _ h (at2 p (1 : Fin 2)) 1 (by show (1 : Nat) < 2; omega) S100000x1 b rfl rfl 1 rfl
    (at2 p (0 : Fin 1))
    (fun c hc => by
      match c with
      | ⟨0, _⟩ => rfl
      | ⟨1, _⟩ => exact absurd rfl hc)
    rfl

theorem kNorms_col0 (x1 x2 : IVec S1250000 32) (p : Fin 100000) :
    kNorms (F := F) x1 x2 (at2 p (0 : Fin 2)) = kNs (F := F) x1 (ix1 p) := by
  unfold kNorms
  rw [cols2_left, col_at]

theorem kNorms_col1 (x1 x2 : IVec S1250000 32) (p : Fin 100000) :
    kNorms (F := F) x1 x2 (at2 p (1 : Fin 2)) = kNd (F := F) x2 (ix1 p) := by
  unfold kNorms
  rw [cols2_right, col_at]

theorem bias_row {α : Type} (x : S64.Idx → α) (q : Fin 64) :
    shapeCast S1x64 x shapeCasts_S64_S1x64 (at2 (0 : Fin 1) q) = x (ix1 q) :=
  shapeCast_apply x shapeCasts_S64_S1x64 (at2 (0 : Fin 1) q) (ix1 q) (by
    rw [Shape.rowMajor_val_one, Shape.rowMajor_val_two]
    show q.val = 0 * 64 + q.val
    omega)

end Cert.KernelIdeal.Hand
-- ==== Proof.KI.Region0Value.lean ====
-- The first region's result array is the dense layer of the whole arrays, row by row.
import proofs.«416059_j58626303591152_2_alg».proof.Proof.KI.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open Idealize.SL.Sem
open Idealize.ShloMosaic.Pipeline (Dat Cfg Window)
open scoped BigOperators

section Layout
variable {α : Type}

theorem bcast_col64 (v : S10000x1.Idx → α) (h : S10000x1.Broadcasts S10000x64) (p : Fin 10000) (q : Fin 64) :
    broadcastTo S10000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

theorem bcast_col32 (v : S10000x1.Idx → α) (h : S10000x1.Broadcasts S10000x32) (p : Fin 10000) (k : Fin 32) :
    broadcastTo S10000x32 v h (ix2 p k) = v (ix2 p (0 : Fin 1)) := by
  refine broadcastTo_apply v h (ix2 p k) (ix2 p (0 : Fin 1)) fun ax => ?_
  match ax with
  | ⟨0, _⟩ => rfl
  | ⟨1, _⟩ => rfl

theorem slice_col (o : Nat) (v : S10000x2.Idx → α) (h : S10000x2.Slices ![0, o] S10000x1) (p : Fin 10000) (k : Fin 2)
    (hk : k.val = o) : extractStridedSlice S10000x1 ![0, o] v h (ix2 p (0 : Fin 1)) = v (ix2 p k) :=
  slice2_axis1_apply o v h p (0 : Fin 1) k (by rw [hk]; rfl)

end Layout

theorem lhs_dense_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_dense_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs_dense_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs_dense_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

theorem matmul_dense_apply (l : FVec Ideal S10000x32 .f32) (r : FVec Ideal S32x64 .f32) (p : Fin 10000) (q : Fin 64) :
    matmul dot_S10000x32_S32x64_S10000x64_1_0_0_1_n_n none l r (constant (F := Ideal) S10000x64 .f32 0x00000000#32) (ix2 p q)
      = ∑ k : Fin 32, l (ix2 p k) * r (ix2 k q) := by
  simp only [matmul]
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx (ix2 p q) ((ValueIdx.contrEquiv1 dot_S10000x32_S32x64_S10000x64_1_0_0_1_n_n 32 rfl rfl).symm k) = ix2 p k := funext fun a => Fin.ext (by
    match a with
    | ⟨0, _⟩ => exact lhs_dense_0 _ _
    | ⟨1, _⟩ => exact (lhs_dense_1 _ _).trans hk)
  have er : dot_S10000x32_S32x64_S10000x64_1_0_0_1_n_n.rhsIdx (ix2 p q) ((ValueIdx.contrEquiv1 dot_S10000x32_S32x64_S10000x64_1_0_0_1_n_n 32 rfl rfl).symm k) = ix2 k q := funext fun a => Fin.ext (by
    match a with
    | ⟨0, _⟩ => exact (rhs_dense_0 _ _).trans hk
    | ⟨1, _⟩ => exact rhs_dense_1 _ _)
  rw [el, er]

theorem pay_dense_apply (x1 : Vec Ideal S10000x2 .f32) (x0 : Vec Ideal S10000x32 .f32) (x2 : Vec Ideal S32x64 .f32) (x3 : Vec Ideal S1x64 .f32)
    (p : Fin 10000) (q : Fin 64) :
    k0_pay1 (F := Ideal) x1 x0 x2 x3 (ix2 p q)
      = max (∑ k : Fin 32, (x0 (ix2 p k) * x1 (ix2 p (1 : Fin 2))) * x2 (ix2 k q) + x3 (ix2 (0 : Fin 1) q)) 0 * x1 (ix2 p (0 : Fin 2)) := by
  unfold k0_pay1
  simp only [shapeCast_self]
  rw [mulf_apply, maximumf_apply, addf_apply, matmul_dense_apply, broadcast_apply, bcast_col64, broadcastTo_1b_ab_apply,
    slice_col 0 _ _ p (0 : Fin 2) rfl]
  simp only [mulf_apply, bcast_col32, slice_col 1 _ _ _ (1 : Fin 2) rfl]
  rw [show (Scalar.ofBits .f32 0x00000000#32 : Ideal .f32) = 0 from Ideal.ofBits_zero_f32]

def denseAt (agg : FVec Ideal S100000x32 .f32) (norms : FVec Ideal S100000x2 .f32) (W : FVec Ideal S32x64 .f32) (b : FVec Ideal S1x64 .f32)
    (r : Fin 100000) (q : Fin 64) : EReal :=
  max (∑ k : Fin 32, (agg (ix2 r k) * norms (ix2 r (1 : Fin 2))) * W (ix2 k q) + b (ix2 (0 : Fin 1) q)) 0 * norms (ix2 r (0 : Fin 2))

def dense1 (agg : FVec Ideal S100000x32 .f32) (norms : FVec Ideal S100000x2 .f32) (W : FVec Ideal S32x64 .f32) (b : FVec Ideal S1x64 .f32) :
    FVec Ideal S100000x64 .f32 :=
  fun i => denseAt agg norms W b (i 0) (i 1)

theorem dense1_apply (agg : FVec Ideal S100000x32 .f32) (norms : FVec Ideal S100000x2 .f32) (W : FVec Ideal S32x64 .f32) (b : FVec Ideal S1x64 .f32)
    (i : S100000x64.Idx) (r : Fin 100000) (q : Fin 64) (h0 : (i 0).val = r.val) (h1 : (i 1).val = q.val) :
    dense1 agg norms W b i = denseAt agg norms W b r q := by
  obtain rfl : i = ix2 r q := funext fun a => Fin.ext (by
    match a with
    | ⟨0, _⟩ => exact h0
    | ⟨1, _⟩ => exact h1)
  rfl

section Region0Value
variable (V : (c : Dev nD) → (b : Ref sig .tc) → Buf (Elt Ideal) ((c : Thread nD τ).loc b))

theorem zero_off2 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem iblk0_0_apply (c : Dev nD) (t : Fin cfg0.N) (p : Fin 10000) (k : Fin 32) (r : Fin 100000) (hr : r.val = 10000 * t.val + p.val) :
    (iblk0 V c 0 t : Vec Ideal S10000x32 .f32) (ix2 p k) = (V c (Pipeline.arrRef spec0 0) : S100000x32.Idx → EReal) (ix2 r k) := by
  obtain ⟨e0, e1, -⟩ := idx_facts0 t
  show (V c (Pipeline.arrRef spec0 0) : S100000x32.Idx → EReal) (((cfg0.win 0).blk t).view.emb (ix2 p k)) = _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 32 + 1 * k.val = k.val; rw [e1]; omega

theorem iblk0_1_apply (c : Dev nD) (t : Fin cfg0.N) (p : Fin 10000) (k : Fin 2) (r : Fin 100000) (hr : r.val = 10000 * t.val + p.val) :
    (iblk0 V c 1 t : Vec Ideal S10000x2 .f32) (ix2 p k) = (V c (Pipeline.arrRef spec0 1) : S100000x2.Idx → EReal) (ix2 r k) := by
  obtain ⟨-, -, e0, e1, -⟩ := idx_facts0 t
  show (V c (Pipeline.arrRef spec0 1) : S100000x2.Idx → EReal) (((cfg0.win 1).blk t).view.emb (ix2 p k)) = _
  congr 1
  funext a
  apply Fin.ext
  match a with
  | ⟨0, _⟩ => show win0_1.index t (0 : Fin 2) * 10000 + 1 * p.val = r.val; rw [e0, hr]; omega
  | ⟨1, _⟩ => show win0_1.index t (1 : Fin 2) * 2 + 1 * k.val = k.val; rw [e1]; omega

theorem iblk0_2_apply (c : Dev nD) (t : Fin cfg0.N) (k : Fin 32) (q : Fin 64) :
    (iblk0 V c 2 t : Vec Ideal S32x64 .f32) (ix2 k q) = (V c (Pipeline.arrRef spec0 2) : S32x64.Idx → EReal) (ix2 k q) := by
  obtain ⟨-, -, -, -, e0, e1, -⟩ := idx_facts0 t
  show (V c (Pipeline.arrRef spec0 2) : S32x64.Idx → EReal) (((cfg0.win 2).blk t).view.emb (ix2 k q)) = _
  congr 1
  funext a
  apply Fin.ext
  match a with
  | ⟨0, _⟩ => show win0_2.index t (0 : Fin 2) * 32 + 1 * k.val = k.val; rw [e0]; omega
  | ⟨1, _⟩ => show win0_2.index t (1 : Fin 2) * 64 + 1 * q.val = q.val; rw [e1]; omega

theorem iblk0_3_apply (c : Dev nD) (t : Fin cfg0.N) (z : Fin 1) (q : Fin 64) :
    (iblk0 V c 3 t : Vec Ideal S1x64 .f32) (ix2 z q) = (V c (Pipeline.arrRef spec0 3) : S1x64.Idx → EReal) (ix2 z q) := by
  obtain ⟨-, -, -, -, -, -, e0, e1, -⟩ := idx_facts0 t
  show (V c (Pipeline.arrRef spec0 3) : S1x64.Idx → EReal) (((cfg0.win 3).blk t).view.emb (ix2 z q)) = _
  congr 1
  funext a
  apply Fin.ext
  match a with
  | ⟨0, _⟩ => show win0_3.index t (0 : Fin 2) * 1 + 1 * z.val = z.val; rw [e0]; omega
  | ⟨1, _⟩ => show win0_3.index t (1 : Fin 2) * 64 + 1 * q.val = q.val; rw [e1]; omega

theorem flushed0_4_eq (c : Dev nD) (t : Fin cfg0.N) :
    (dat0 (F := Ideal) V c).flushed 4 t = ((cfg0.win 4).blk t).view.read (Elt Ideal)
      (dense1 (V c (Pipeline.arrRef spec0 0)) (V c (Pipeline.arrRef spec0 1)) (V c (Pipeline.arrRef spec0 2)) (V c (Pipeline.arrRef spec0 3))) := by
  show (cfg0.win 4).cut (grid0.coords t) ((dat0 (F := Ideal) V c).after 4 t) = _
  rw [after0_4]
  unfold out0_4
  rw [View.canon_unit_zero zero_off2]
  simp only [View.ld_unit_zero (S := S10000x32) zero_off2, View.ld_unit_zero (S := S10000x2) zero_off2,
    View.ld_unit_zero (S := S32x64) zero_off2, View.ld_unit_zero (S := S1x64) zero_off2]
  have hN : t.val < 10 := by have h := t.isLt; have e : cfg0.N = 10 := N_0; omega
  obtain ⟨-, -, -, -, -, -, -, -, e0, e1⟩ := idx_facts0 t
  funext j
  obtain ⟨p, q, rfl⟩ : ∃ (p : Fin 10000) (q : Fin 64), j = ix2 p q := ⟨j 0, j 1, eq_ix2 j⟩
  show k0_pay1 (F := Ideal) (iblk0 V c 1 t) (iblk0 V c 0 t) (iblk0 V c 2 t) (iblk0 V c 3 t) (ix2 p q)
    = dense1 (V c (Pipeline.arrRef spec0 0)) (V c (Pipeline.arrRef spec0 1)) (V c (Pipeline.arrRef spec0 2)) (V c (Pipeline.arrRef spec0 3))
        (((cfg0.win 4).blk t).view.emb (ix2 p q))
  have hr : 10000 * t.val + p.val < 100000 := by have := p.isLt; omega
  refine (pay_dense_apply _ _ _ _ p q).trans (Eq.trans ?_ (dense1_apply _ _ _ _ _ ⟨10000 * t.val + p.val, hr⟩ q ?_ ?_).symm)
  · unfold denseAt
    have h0 : ∀ k : Fin 32, (iblk0 V c 0 t : Vec Ideal S10000x32 .f32) (ix2 p k)
        = (V c (Pipeline.arrRef spec0 0) : S100000x32.Idx → EReal) (ix2 ⟨10000 * t.val + p.val, hr⟩ k) :=
      fun k => iblk0_0_apply V c t p k _ rfl
    have h1 : ∀ k : Fin 2, (iblk0 V c 1 t : Vec Ideal S10000x2 .f32) (ix2 p k)
        = (V c (Pipeline.arrRef spec0 1) : S100000x2.Idx → EReal) (ix2 ⟨10000 * t.val + p.val, hr⟩ k) :=
      fun k => iblk0_1_apply V c t p k _ rfl
    simp only [h0, h1, iblk0_2_apply V c t, iblk0_3_apply V c t]
  · show win0_4.index t (0 : Fin 2) * 10000 + 1 * p.val = 10000 * t.val + p.val; rw [e0]; omega
  · show win0_4.index t (1 : Fin 2) * 64 + 1 * q.val = q.val; rw [e1]; omega

theorem mem_blk0_4 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v41).slice (win0_4.rect t)).set ↔ _
  rw [View.set_slice_whole, Rect.mem_set_unit]
  exact Iff.rfl

theorem cover0_4_arr (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_4 _, ?_⟩
  obtain ⟨-, -, -, -, -, -, -, -, e0, e1⟩ := idx_facts0 ⟨(i 0).val / 10000, by rw [hN]; omega⟩
  rw [mem_blk0_4]
  intro a
  match a with
  | ⟨0, _⟩ =>
    show win0_4.index _ (0 : Fin 2) * 10000 ≤ (i 0).val ∧ (i 0).val < win0_4.index _ (0 : Fin 2) * 10000 + 10000
    rw [e0]; show (i 0).val / 10000 * 10000 ≤ (i 0).val ∧ (i 0).val < (i 0).val / 10000 * 10000 + 10000; omega
  | ⟨1, _⟩ =>
    show win0_4.index _ (1 : Fin 2) * 64 ≤ (i 1).val ∧ (i 1).val < win0_4.index _ (1 : Fin 2) * 64 + 64
    rw [e1]; omega

theorem res0_value (c : Dev nD) :
    (dat0 (F := Ideal) V c).arrAt 4 cfg0.N
      = dense1 (V c (Pipeline.arrRef spec0 0)) (V c (Pipeline.arrRef spec0 1)) (V c (Pipeline.arrRef spec0 2)) (V c (Pipeline.arrRef spec0 3)) :=
  (dat0 (F := Ideal) V c).arrAt_eq_of_cover 4 _ (fun t _ => flushed0_4_eq V c t) cover0_4_arr

end Region0Value

end Cert.KernelIdeal.Hand

end
-- ==== Proof.RefP.Run.lean ====
-- The reference as a list of host operations, in consecutive stretches; its run ends with the result buffer at the list's fold over the arguments.
import proofs.«416059_j58626303591152_2_alg».proof.Proof.Gen.ReferenceIdeal
import Idealize.ShloMosaic.Lib.StableHlo.Run
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ nullary main_c (constantI S_ 32 0#32),
    unary main_c main_v0 (broadcastInDim S1250000 ![] bcast_S_S1250000 : (⟨S_, .i32⟩ : BufTy).Contents (Elt F) → (⟨S1250000, .i32⟩ : BufTy).Contents (Elt F)),
    binary main_arg1 main_v0 main_v1 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 100000#32),
    unary main_c_0 main_v2 (broadcastInDim S1250000 ![] bcast_S_S1250000 : (⟨S_, .i32⟩ : BufTy).Contents (Elt F) → (⟨S1250000, .i32⟩ : BufTy).Contents (Elt F)),
    binary main_arg1 main_v2 main_v3 (addi : (⟨S1250000, .i32⟩ : BufTy).Contents (Elt F) → (⟨S1250000, .i32⟩ : BufTy).Contents (Elt F) → (⟨S1250000, .i32⟩ : BufTy).Contents (Elt F)),
    ternary main_v1 main_v3 main_arg1 main_v4 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v4 main_v5 (broadcastInDim S1250000x1 ![0] bcast_S1250000_S1250000x1_0 : (⟨S1250000, .i32⟩ : BufTy).Contents (Elt F) → (⟨S1250000x1, .i32⟩ : BufTy).Contents (Elt F)),
    binary main_arg0 main_v5 main_v6 ((fun x i => Host.gather gather_S100000x32_S1250000x1_S1250000x32_1_0_n_n_0_1_132 x i) : (⟨S100000x32, .f32⟩ : BufTy).Contents (Elt F) → (⟨S1250000x1, .i32⟩ : BufTy).Contents (Elt F) → (⟨S1250000x32, .f32⟩ : BufTy).Contents (Elt F)) ]

abbrev ops2 : List (HloOp τ sig (Elt F)) :=
  [ nullary main_c_1 (constantI S_ 32 0#32),
    unary main_c_1 main_v7 (broadcastInDim S1250000 ![] bcast_S_S1250000 : (⟨S_, .i32⟩ : BufTy).Contents (Elt F) → (⟨S1250000, .i32⟩ : BufTy).Contents (Elt F)),
    binary main_arg2 main_v7 main_v8 (cmpi .slt : (⟨S1250000, .i32⟩ : BufTy).Contents (Elt F) → (⟨S1250000, .i32⟩ : BufTy).Contents (Elt F) → (⟨S1250000, .i1⟩ : BufTy).Contents (Elt F)),
    nullary main_c_2 (constantI S_ 32 100000#32),
    unary main_c_2 main_v9 (broadcastInDim S1250000 ![] bcast_S_S1250000 : (⟨S_, .i32⟩ : BufTy).Contents (Elt F) → (⟨S1250000, .i32⟩ : BufTy).Contents (Elt F)),
    binary main_arg2 main_v9 main_v10 (addi : (⟨S1250000, .i32⟩ : BufTy).Contents (Elt F) → (⟨S1250000, .i32⟩ : BufTy).Contents (Elt F) → (⟨S1250000, .i32⟩ : BufTy).Contents (Elt F)),
    ternary main_v8 main_v10 main_arg2 main_v11 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v11 main_v12 (broadcastInDim S1250000x1 ![0] bcast_S1250000_S1250000x1_0 : (⟨S1250000, .i32⟩ : BufTy).Contents (Elt F) → (⟨S1250000x1, .i32⟩ : BufTy).Contents (Elt F)),
    binary main_arg0 main_v12 main_v13 ((fun x i => Host.gather gather_S100000x32_S1250000x1_S1250000x32_1_0_n_n_0_1_132 x i) : (⟨S100000x32, .f32⟩ : BufTy).Contents (Elt F) → (⟨S1250000x1, .i32⟩ : BufTy).Contents (Elt F) → (⟨S1250000x32, .f32⟩ : BufTy).Contents (Elt F)) ]

abbrev ops3 : List (HloOp τ sig (Elt F)) :=
  [ binary main_v6 main_v13 main_v14 (subf : (⟨S1250000x32, .f32⟩ : BufTy).Contents (Elt F) → (⟨S1250000x32, .f32⟩ : BufTy).Contents (Elt F) → (⟨S1250000x32, .f32⟩ : BufTy).Contents (Elt F)),
    TRef.binary (TRef.of (T := ⟨S1250000x32, .f32⟩) main_v14) (TRef.of (T := ⟨S1250000x32, .f32⟩) main_v14) (TRef.of (T := ⟨S1250000x32, .f32⟩) main_call0_v0) mulf,
    TRef.nullary (TRef.of (T := ⟨S_, .f32⟩) main_call0_cst) (constant S_ .f32 0x00000000#32),
    TRef.binary (TRef.of (T := ⟨S1250000x32, .f32⟩) main_call0_v0) (TRef.of (T := ⟨S_, .f32⟩) main_call0_cst) (TRef.of (T := ⟨S1250000, .f32⟩) main_call0_v1) (fun x v => Host.reduceAdd x v reducesTo_S1250000x32_S1250000_d1 h_S_),
    TRef.unary (TRef.of (T := ⟨S1250000, .f32⟩) main_call0_v1) (TRef.of (T := ⟨S1250000, .f32⟩) main_v15) Host.sqrt ]

abbrev ops4 : List (HloOp τ sig (Elt F)) :=
  [ nullary main_c_3 (constantI S_ 32 0#32),
    unary main_c_3 main_v16 (broadcastInDim S1250000 ![] bcast_S_S1250000 : (⟨S_, .i32⟩ : BufTy).Contents (Elt F) → (⟨S1250000, .i32⟩ : BufTy).Contents (Elt F)),
    binary main_arg3 main_v16 main_v17 (cmpi .slt : (⟨S1250000, .i32⟩ : BufTy).Contents (Elt F) → (⟨S1250000, .i32⟩ : BufTy).Contents (Elt F) → (⟨S1250000, .i1⟩ : BufTy).Contents (Elt F)),
    nullary main_c_4 (constantI S_ 32 4#32),
    unary main_c_4 main_v18 (broadcastInDim S1250000 ![] bcast_S_S1250000 : (⟨S_, .i32⟩ : BufTy).Contents (Elt F) → (⟨S1250000, .i32⟩ : BufTy).Contents (Elt F)),
    binary main_arg3 main_v18 main_v19 (addi : (⟨S1250000, .i32⟩ : BufTy).Contents (Elt F) → (⟨S1250000, .i32⟩ : BufTy).Contents (Elt F) → (⟨S1250000, .i32⟩ : BufTy).Contents (Elt F)),
    ternary main_v17 main_v19 main_arg3 main_v20 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v20 main_v21 (broadcastInDim S1250000x1 ![0] bcast_S1250000_S1250000x1_0 : (⟨S1250000, .i32⟩ : BufTy).Contents (Elt F) → (⟨S1250000x1, .i32⟩ : BufTy).Contents (Elt F)),
    binary main_arg8 main_v21 main_v22 ((fun x i => Host.gather gather_S4_S1250000x1_S1250000_n_0_n_n_0_1_1 x i) : (⟨S4, .f32⟩ : BufTy).Contents (Elt F) → (⟨S1250000x1, .i32⟩ : BufTy).Contents (Elt F) → (⟨S1250000, .f32⟩ : BufTy).Contents (Elt F)),
    binary main_v15 main_v22 main_v23 (subf : (⟨S1250000, .f32⟩ : BufTy).Contents (Elt F) → (⟨S1250000, .f32⟩ : BufTy).Contents (Elt F) → (⟨S1250000, .f32⟩ : BufTy).Contents (Elt F)),
    binary main_v23 main_v23 main_v24 (mulf : (⟨S1250000, .f32⟩ : BufTy).Contents (Elt F) → (⟨S1250000, .f32⟩ : BufTy).Contents (Elt F) → (⟨S1250000, .f32⟩ : BufTy).Contents (Elt F)),
    unary main_v24 main_v25 (Host.negf : (⟨S1250000, .f32⟩ : BufTy).Contents (Elt F) → (⟨S1250000, .f32⟩ : BufTy).Contents (Elt F)) ]

abbrev ops5 : List (HloOp τ sig (Elt F)) :=
  [ nullary main_c_5 (constantI S_ 32 0#32),
    unary main_c_5 main_v26 (broadcastInDim S1250000 ![] bcast_S_S1250000 : (⟨S_, .i32⟩ : BufTy).Contents (Elt F) → (⟨S1250000, .i32⟩ : BufTy).Contents (Elt F)),
    binary main_arg3 main_v26 main_v27 (cmpi .slt : (⟨S1250000, .i32⟩ : BufTy).Contents (Elt F) → (⟨S1250000, .i32⟩ : BufTy).Contents (Elt F) → (⟨S1250000, .i1⟩ : BufTy).Contents (Elt F)),
    nullary main_c_6 (constantI S_ 32 4#32),
    unary main_c_6 main_v28 (broadcastInDim S1250000 ![] bcast_S_S1250000 : (⟨S_, .i32⟩ : BufTy).Contents (Elt F) → (⟨S1250000, .i32⟩ : BufTy).Contents (Elt F)),
    binary main_arg3 main_v28 main_v29 (addi : (⟨S1250000, .i32⟩ : BufTy).Contents (Elt F) → (⟨S1250000, .i32⟩ : BufTy).Contents (Elt F) → (⟨S1250000, .i32⟩ : BufTy).Contents (Elt F)),
    ternary main_v27 main_v29 main_arg3 main_v30 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v30 main_v31 (broadcastInDim S1250000x1 ![0] bcast_S1250000_S1250000x1_0 : (⟨S1250000, .i32⟩ : BufTy).Contents (Elt F) → (⟨S1250000x1, .i32⟩ : BufTy).Contents (Elt F)),
    binary main_arg9 main_v31 main_v32 ((fun x i => Host.gather gather_S4_S1250000x1_S1250000_n_0_n_n_0_1_1 x i) : (⟨S4, .f32⟩ : BufTy).Contents (Elt F) → (⟨S1250000x1, .i32⟩ : BufTy).Contents (Elt F) → (⟨S1250000, .f32⟩ : BufTy).Contents (Elt F)),
    binary main_v32 main_v32 main_v33 (mulf : (⟨S1250000, .f32⟩ : BufTy).Contents (Elt F) → (⟨S1250000, .f32⟩ : BufTy).Contents (Elt F) → (⟨S1250000, .f32⟩ : BufTy).Contents (Elt F)),
    nullary main_cst (constant S_ .f32 0x40000000#32),
    unary main_cst main_v34 (broadcastInDim S1250000 ![] bcast_S_S1250000 : (⟨S_, .f32⟩ : BufTy).Contents (Elt F) → (⟨S1250000, .f32⟩ : BufTy).Contents (Elt F)),
    binary main_v34 main_v33 main_v35 (mulf : (⟨S1250000, .f32⟩ : BufTy).Contents (Elt F) → (⟨S1250000, .f32⟩ : BufTy).Contents (Elt F) → (⟨S1250000, .f32⟩ : BufTy).Contents (Elt F)),
    binary main_v25 main_v35 main_v36 (Host.divf : (⟨S1250000, .f32⟩ : BufTy).Contents (Elt F) → (⟨S1250000, .f32⟩ : BufTy).Contents (Elt F) → (⟨S1250000, .f32⟩ : BufTy).Contents (Elt F)),
    unary main_v36 main_v37 (Host.exp : (⟨S1250000, .f32⟩ : BufTy).Contents (Elt F) → (⟨S1250000, .f32⟩ : BufTy).Contents (Elt F)) ]

abbrev ops6 : List (HloOp τ sig (Elt F)) :=
  [ nullary main_cst_7 (constant S_ .f32 0x3F800000#32),
    unary main_cst_7 main_v38 (broadcastInDim S1250000 ![] bcast_S_S1250000 : (⟨S_, .f32⟩ : BufTy).Contents (Elt F) → (⟨S1250000, .f32⟩ : BufTy).Contents (Elt F)),
    nullary main_cst_8 (constant S_ .f32 0x00000000#32),
    unary main_cst_8 main_v39 (broadcastInDim S100000 ![] bcast_S_S100000 : (⟨S_, .f32⟩ : BufTy).Contents (Elt F) → (⟨S100000, .f32⟩ : BufTy).Contents (Elt F)),
    unary main_arg1 main_v40 (broadcastInDim S1250000x1 ![0] bcast_S1250000_S1250000x1_0 : (⟨S1250000, .i32⟩ : BufTy).Contents (Elt F) → (⟨S1250000x1, .i32⟩ : BufTy).Contents (Elt F)),
    ternary main_v39 main_v40 main_v38 main_v41 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_9 (constant S_ .f32 0x00000000#32),
    unary main_cst_9 main_v42 (broadcastInDim S100000 ![] bcast_S_S100000 : (⟨S_, .f32⟩ : BufTy).Contents (Elt F) → (⟨S100000, .f32⟩ : BufTy).Contents (Elt F)),
    unary main_arg2 main_v43 (broadcastInDim S1250000x1 ![0] bcast_S1250000_S1250000x1_0 : (⟨S1250000, .i32⟩ : BufTy).Contents (Elt F) → (⟨S1250000x1, .i32⟩ : BufTy).Contents (Elt F)),
    ternary main_v42 main_v43 main_v38 main_v44 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_10 (constant S_ .f32 0x3F800000#32),
    unary main_cst_10 main_v45 (broadcastInDim S100000 ![] bcast_S_S100000 : (⟨S_, .f32⟩ : BufTy).Contents (Elt F) → (⟨S100000, .f32⟩ : BufTy).Contents (Elt F)),
    binary main_v41 main_v45 main_v46 (maximumf : (⟨S100000, .f32⟩ : BufTy).Contents (Elt F) → (⟨S100000, .f32⟩ : BufTy).Contents (Elt F) → (⟨S100000, .f32⟩ : BufTy).Contents (Elt F)),
    nullary main_cst_11 (constant S_ .f32 0xBF000000#32),
    unary main_cst_11 main_v47 (broadcastInDim S100000 ![] bcast_S_S100000 : (⟨S_, .f32⟩ : BufTy).Contents (Elt F) → (⟨S100000, .f32⟩ : BufTy).Contents (Elt F)),
    binary main_v46 main_v47 main_v48 (Host.powf : (⟨S100000, .f32⟩ : BufTy).Contents (Elt F) → (⟨S100000, .f32⟩ : BufTy).Contents (Elt F) → (⟨S100000, .f32⟩ : BufTy).Contents (Elt F)),
    nullary main_cst_12 (constant S_ .f32 0x3F800000#32),
    unary main_cst_12 main_v49 (broadcastInDim S100000 ![] bcast_S_S100000 : (⟨S_, .f32⟩ : BufTy).Contents (Elt F) → (⟨S100000, .f32⟩ : BufTy).Contents (Elt F)),
    binary main_v44 main_v49 main_v50 (maximumf : (⟨S100000, .f32⟩ : BufTy).Contents (Elt F) → (⟨S100000, .f32⟩ : BufTy).Contents (Elt F) → (⟨S100000, .f32⟩ : BufTy).Contents (Elt F)),
    nullary main_cst_13 (constant S_ .f32 0xBF000000#32),
    unary main_cst_13 main_v51 (broadcastInDim S100000 ![] bcast_S_S100000 : (⟨S_, .f32⟩ : BufTy).Contents (Elt F) → (⟨S100000, .f32⟩ : BufTy).Contents (Elt F)),
    binary main_v50 main_v51 main_v52 (Host.powf : (⟨S100000, .f32⟩ : BufTy).Contents (Elt F) → (⟨S100000, .f32⟩ : BufTy).Contents (Elt F) → (⟨S100000, .f32⟩ : BufTy).Contents (Elt F)) ]

abbrev ops7 : List (HloOp τ sig (Elt F)) :=
  [ unary main_v48 main_v53 (broadcastInDim S100000x1 ![0] bcast_S100000_S100000x1_0 : (⟨S100000, .f32⟩ : BufTy).Contents (Elt F) → (⟨S100000x1, .f32⟩ : BufTy).Contents (Elt F)),
    unary main_v53 main_v54 (broadcastInDim S100000x32 ![0, 1] bcast_S100000x1_S100000x32_0_1 : (⟨S100000x1, .f32⟩ : BufTy).Contents (Elt F) → (⟨S100000x32, .f32⟩ : BufTy).Contents (Elt F)),
    binary main_arg0 main_v54 main_v55 (mulf : (⟨S100000x32, .f32⟩ : BufTy).Contents (Elt F) → (⟨S100000x32, .f32⟩ : BufTy).Contents (Elt F) → (⟨S100000x32, .f32⟩ : BufTy).Contents (Elt F)),
    nullary main_c_14 (constantI S_ 32 0#32),
    unary main_c_14 main_v56 (broadcastInDim S1250000 ![] bcast_S_S1250000 : (⟨S_, .i32⟩ : BufTy).Contents (Elt F) → (⟨S1250000, .i32⟩ : BufTy).Contents (Elt F)),
    binary main_arg1 main_v56 main_v57 (cmpi .slt : (⟨S1250000, .i32⟩ : BufTy).Contents (Elt F) → (⟨S1250000, .i32⟩ : BufTy).Contents (Elt F) → (⟨S1250000, .i1⟩ : BufTy).Contents (Elt F)),
    nullary main_c_15 (constantI S_ 32 100000#32),
    unary main_c_15 main_v58 (broadcastInDim S1250000 ![] bcast_S_S1250000 : (⟨S_, .i32⟩ : BufTy).Contents (Elt F) → (⟨S1250000, .i32⟩ : BufTy).Contents (Elt F)),
    binary main_arg1 main_v58 main_v59 (addi : (⟨S1250000, .i32⟩ : BufTy).Contents (Elt F) → (⟨S1250000, .i32⟩ : BufTy).Contents (Elt F) → (⟨S1250000, .i32⟩ : BufTy).Contents (Elt F)),
    ternary main_v57 main_v59 main_arg1 main_v60 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v60 main_v61 (broadcastInDim S1250000x1 ![0] bcast_S1250000_S1250000x1_0 : (⟨S1250000, .i32⟩ : BufTy).Contents (Elt F) → (⟨S1250000x1, .i32⟩ : BufTy).Contents (Elt F)),
    binary main_v55 main_v61 main_v62 ((fun x i => Host.gather gather_S100000x32_S1250000x1_S1250000x32_1_0_n_n_0_1_132 x i) : (⟨S100000x32, .f32⟩ : BufTy).Contents (Elt F) → (⟨S1250000x1, .i32⟩ : BufTy).Contents (Elt F) → (⟨S1250000x32, .f32⟩ : BufTy).Contents (Elt F)),
    unary main_v37 main_v63 (broadcastInDim S1250000x1 ![0] bcast_S1250000_S1250000x1_0 : (⟨S1250000, .f32⟩ : BufTy).Contents (Elt F) → (⟨S1250000x1, .f32⟩ : BufTy).Contents (Elt F)),
    unary main_v63 main_v64 (broadcastInDim S1250000x32 ![0, 1] bcast_S1250000x1_S1250000x32_0_1 : (⟨S1250000x1, .f32⟩ : BufTy).Contents (Elt F) → (⟨S1250000x32, .f32⟩ : BufTy).Contents (Elt F)),
    binary main_v62 main_v64 main_v65 (mulf : (⟨S1250000x32, .f32⟩ : BufTy).Contents (Elt F) → (⟨S1250000x32, .f32⟩ : BufTy).Contents (Elt F) → (⟨S1250000x32, .f32⟩ : BufTy).Contents (Elt F)),
    nullary main_cst_16 (constant S_ .f32 0x00000000#32),
    unary main_cst_16 main_v66 (broadcastInDim S100000x32 ![] bcast_S_S100000x32 : (⟨S_, .f32⟩ : BufTy).Contents (Elt F) → (⟨S100000x32, .f32⟩ : BufTy).Contents (Elt F)),
    unary main_arg2 main_v67 (broadcastInDim S1250000x1 ![0] bcast_S1250000_S1250000x1_0 : (⟨S1250000, .i32⟩ : BufTy).Contents (Elt F) → (⟨S1250000x1, .i32⟩ : BufTy).Contents (Elt F)),
    ternary main_v66 main_v67 main_v65 main_v68 ((fun x i u => Host.scatterAdd scatter_S100000x32_S1250000x1_S1250000x32_1_0_0_1 x i u) : (⟨S100000x32, .f32⟩ : BufTy).Contents (Elt F) → (⟨S1250000x1, .i32⟩ : BufTy).Contents (Elt F) → (⟨S1250000x32, .f32⟩ : BufTy).Contents (Elt F) → (⟨S100000x32, .f32⟩ : BufTy).Contents (Elt F)) ]

abbrev ops8 : List (HloOp τ sig (Elt F)) :=
  [ unary main_v52 main_v69 (broadcastInDim S100000x1 ![0] bcast_S100000_S100000x1_0 : (⟨S100000, .f32⟩ : BufTy).Contents (Elt F) → (⟨S100000x1, .f32⟩ : BufTy).Contents (Elt F)),
    unary main_v69 main_v70 (broadcastInDim S100000x32 ![0, 1] bcast_S100000x1_S100000x32_0_1 : (⟨S100000x1, .f32⟩ : BufTy).Contents (Elt F) → (⟨S100000x32, .f32⟩ : BufTy).Contents (Elt F)),
    binary main_v68 main_v70 main_v71 (mulf : (⟨S100000x32, .f32⟩ : BufTy).Contents (Elt F) → (⟨S100000x32, .f32⟩ : BufTy).Contents (Elt F) → (⟨S100000x32, .f32⟩ : BufTy).Contents (Elt F)),
    binary main_v71 main_arg4 main_v72 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg5 main_v73 (broadcastInDim S1x64 ![1] bcast_S64_S1x64_1 : (⟨S64, .f32⟩ : BufTy).Contents (Elt F) → (⟨S1x64, .f32⟩ : BufTy).Contents (Elt F)),
    unary main_v73 main_v74 (broadcastInDim S100000x64 ![0, 1] bcast_S1x64_S100000x64_0_1 : (⟨S1x64, .f32⟩ : BufTy).Contents (Elt F) → (⟨S100000x64, .f32⟩ : BufTy).Contents (Elt F)),
    binary main_v72 main_v74 main_v75 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v75) (TRef.of (T := ⟨S100000x64, .f32⟩) main_call1_v0) (TRef.of (T := ⟨S100000x64, .f32⟩) main_v76) maximumf ]

abbrev ops9 : List (HloOp τ sig (Elt F)) :=
  [ nullary main_cst_17 (constant S_ .f32 0x3F800000#32),
    unary main_cst_17 main_v77 (broadcastInDim S1250000 ![] bcast_S_S1250000 : (⟨S_, .f32⟩ : BufTy).Contents (Elt F) → (⟨S1250000, .f32⟩ : BufTy).Contents (Elt F)),
    nullary main_cst_18 (constant S_ .f32 0x00000000#32),
    unary main_cst_18 main_v78 (broadcastInDim S100000 ![] bcast_S_S100000 : (⟨S_, .f32⟩ : BufTy).Contents (Elt F) → (⟨S100000, .f32⟩ : BufTy).Contents (Elt F)),
    unary main_arg1 main_v79 (broadcastInDim S1250000x1 ![0] bcast_S1250000_S1250000x1_0 : (⟨S1250000, .i32⟩ : BufTy).Contents (Elt F) → (⟨S1250000x1, .i32⟩ : BufTy).Contents (Elt F)),
    ternary main_v78 main_v79 main_v77 main_v80 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_19 (constant S_ .f32 0x00000000#32),
    unary main_cst_19 main_v81 (broadcastInDim S100000 ![] bcast_S_S100000 : (⟨S_, .f32⟩ : BufTy).Contents (Elt F) → (⟨S100000, .f32⟩ : BufTy).Contents (Elt F)),
    unary main_arg2 main_v82 (broadcastInDim S1250000x1 ![0] bcast_S1250000_S1250000x1_0 : (⟨S1250000, .i32⟩ : BufTy).Contents (Elt F) → (⟨S1250000x1, .i32⟩ : BufTy).Contents (Elt F)),
    ternary main_v81 main_v82 main_v77 main_v83 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_20 (constant S_ .f32 0x3F800000#32),
    unary main_cst_20 main_v84 (broadcastInDim S100000 ![] bcast_S_S100000 : (⟨S_, .f32⟩ : BufTy).Contents (Elt F) → (⟨S100000, .f32⟩ : BufTy).Contents (Elt F)),
    binary main_v80 main_v84 main_v85 (maximumf : (⟨S100000, .f32⟩ : BufTy).Contents (Elt F) → (⟨S100000, .f32⟩ : BufTy).Contents (Elt F) → (⟨S100000, .f32⟩ : BufTy).Contents (Elt F)),
    nullary main_cst_21 (constant S_ .f32 0xBF000000#32),
    unary main_cst_21 main_v86 (broadcastInDim S100000 ![] bcast_S_S100000 : (⟨S_, .f32⟩ : BufTy).Contents (Elt F) → (⟨S100000, .f32⟩ : BufTy).Contents (Elt F)),
    binary main_v85 main_v86 main_v87 (Host.powf : (⟨S100000, .f32⟩ : BufTy).Contents (Elt F) → (⟨S100000, .f32⟩ : BufTy).Contents (Elt F) → (⟨S100000, .f32⟩ : BufTy).Contents (Elt F)),
    nullary main_cst_22 (constant S_ .f32 0x3F800000#32),
    unary main_cst_22 main_v88 (broadcastInDim S100000 ![] bcast_S_S100000 : (⟨S_, .f32⟩ : BufTy).Contents (Elt F) → (⟨S100000, .f32⟩ : BufTy).Contents (Elt F)),
    binary main_v83 main_v88 main_v89 (maximumf : (⟨S100000, .f32⟩ : BufTy).Contents (Elt F) → (⟨S100000, .f32⟩ : BufTy).Contents (Elt F) → (⟨S100000, .f32⟩ : BufTy).Contents (Elt F)),
    nullary main_cst_23 (constant S_ .f32 0xBF000000#32),
    unary main_cst_23 main_v90 (broadcastInDim S100000 ![] bcast_S_S100000 : (⟨S_, .f32⟩ : BufTy).Contents (Elt F) → (⟨S100000, .f32⟩ : BufTy).Contents (Elt F)),
    binary main_v89 main_v90 main_v91 (Host.powf : (⟨S100000, .f32⟩ : BufTy).Contents (Elt F) → (⟨S100000, .f32⟩ : BufTy).Contents (Elt F) → (⟨S100000, .f32⟩ : BufTy).Contents (Elt F)),
    unary main_v87 main_v92 (broadcastInDim S100000x1 ![0] bcast_S100000_S100000x1_0 : (⟨S100000, .f32⟩ : BufTy).Contents (Elt F) → (⟨S100000x1, .f32⟩ : BufTy).Contents (Elt F)),
    unary main_v92 main_v93 (broadcastInDim S100000x64 ![0, 1] bcast_S100000x1_S100000x64_0_1 : (⟨S100000x1, .f32⟩ : BufTy).Contents (Elt F) → (⟨S100000x64, .f32⟩ : BufTy).Contents (Elt F)),
    binary main_v76 main_v93 main_v94 (mulf : (⟨S100000x64, .f32⟩ : BufTy).Contents (Elt F) → (⟨S100000x64, .f32⟩ : BufTy).Contents (Elt F) → (⟨S100000x64, .f32⟩ : BufTy).Contents (Elt F)) ]

abbrev ops10 : List (HloOp τ sig (Elt F)) :=
  [ nullary main_c_24 (constantI S_ 32 0#32),
    unary main_c_24 main_v95 (broadcastInDim S1250000 ![] bcast_S_S1250000 : (⟨S_, .i32⟩ : BufTy).Contents (Elt F) → (⟨S1250000, .i32⟩ : BufTy).Contents (Elt F)),
    binary main_arg1 main_v95 main_v96 (cmpi .slt : (⟨S1250000, .i32⟩ : BufTy).Contents (Elt F) → (⟨S1250000, .i32⟩ : BufTy).Contents (Elt F) → (⟨S1250000, .i1⟩ : BufTy).Contents (Elt F)),
    nullary main_c_25 (constantI S_ 32 100000#32),
    unary main_c_25 main_v97 (broadcastInDim S1250000 ![] bcast_S_S1250000 : (⟨S_, .i32⟩ : BufTy).Contents (Elt F) → (⟨S1250000, .i32⟩ : BufTy).Contents (Elt F)),
    binary main_arg1 main_v97 main_v98 (addi : (⟨S1250000, .i32⟩ : BufTy).Contents (Elt F) → (⟨S1250000, .i32⟩ : BufTy).Contents (Elt F) → (⟨S1250000, .i32⟩ : BufTy).Contents (Elt F)),
    ternary main_v96 main_v98 main_arg1 main_v99 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v99 main_v100 (broadcastInDim S1250000x1 ![0] bcast_S1250000_S1250000x1_0 : (⟨S1250000, .i32⟩ : BufTy).Contents (Elt F) → (⟨S1250000x1, .i32⟩ : BufTy).Contents (Elt F)),
    binary main_v94 main_v100 main_v101 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    unary main_v37 main_v102 (broadcastInDim S1250000x1 ![0] bcast_S1250000_S1250000x1_0 : (⟨S1250000, .f32⟩ : BufTy).Contents (Elt F) → (⟨S1250000x1, .f32⟩ : BufTy).Contents (Elt F)),
    unary main_v102 main_v103 (broadcastInDim S1250000x64 ![0, 1] bcast_S1250000x1_S1250000x64_0_1 : (⟨S1250000x1, .f32⟩ : BufTy).Contents (Elt F) → (⟨S1250000x64, .f32⟩ : BufTy).Contents (Elt F)),
    binary main_v101 main_v103 main_v104 (mulf : (⟨S1250000x64, .f32⟩ : BufTy).Contents (Elt F) → (⟨S1250000x64, .f32⟩ : BufTy).Contents (Elt F) → (⟨S1250000x64, .f32⟩ : BufTy).Contents (Elt F)),
    nullary main_cst_26 (constant S_ .f32 0x00000000#32),
    unary main_cst_26 main_v105 (broadcastInDim S100000x64 ![] bcast_S_S100000x64 : (⟨S_, .f32⟩ : BufTy).Contents (Elt F) → (⟨S100000x64, .f32⟩ : BufTy).Contents (Elt F)),
    unary main_arg2 main_v106 (broadcastInDim S1250000x1 ![0] bcast_S1250000_S1250000x1_0 : (⟨S1250000, .i32⟩ : BufTy).Contents (Elt F) → (⟨S1250000x1, .i32⟩ : BufTy).Contents (Elt F)),
    ternary main_v105 main_v106 main_v104 main_v107 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ]

abbrev ops11 : List (HloOp τ sig (Elt F)) :=
  [ unary main_v91 main_v108 (broadcastInDim S100000x1 ![0] bcast_S100000_S100000x1_0 : (⟨S100000, .f32⟩ : BufTy).Contents (Elt F) → (⟨S100000x1, .f32⟩ : BufTy).Contents (Elt F)),
    unary main_v108 main_v109 (broadcastInDim S100000x64 ![0, 1] bcast_S100000x1_S100000x64_0_1 : (⟨S100000x1, .f32⟩ : BufTy).Contents (Elt F) → (⟨S100000x64, .f32⟩ : BufTy).Contents (Elt F)),
    binary main_v107 main_v109 main_v110 (mulf : (⟨S100000x64, .f32⟩ : BufTy).Contents (Elt F) → (⟨S100000x64, .f32⟩ : BufTy).Contents (Elt F) → (⟨S100000x64, .f32⟩ : BufTy).Contents (Elt F)),
    binary main_v110 main_arg6 main_v111 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v111 main_v113 main_v114 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v114) (TRef.of (T := ⟨S100000x64, .f32⟩) main_call2_v0) (TRef.of (T := ⟨S100000x64, .f32⟩) main_v115) maximumf ]

abbrev ops12a : List (HloOp τ sig (Elt F)) :=
  [ unary main_v115 main_v116 ((extractStridedSlice S1x64 ![0, 0] · slices_S100000x64_S1x64_0_0) : (⟨S100000x64, .f32⟩ : BufTy).Contents (Elt F) → (⟨S1x64, .f32⟩ : BufTy).Contents (Elt F)),
    reshape main_v116 main_v117 rfl shapeCasts_S1x64_S64,
    unary main_v115 main_v118 ((extractStridedSlice S1x64 ![1, 0] · slices_S100000x64_S1x64_1_0) : (⟨S100000x64, .f32⟩ : BufTy).Contents (Elt F) → (⟨S1x64, .f32⟩ : BufTy).Contents (Elt F)),
    reshape main_v118 main_v119 rfl shapeCasts_S1x64_S64,
    unary main_v115 main_v120 ((extractStridedSlice S99998x64 ![2, 0] · slices_S100000x64_S99998x64_2_0) : (⟨S100000x64, .f32⟩ : BufTy).Contents (Elt F) → (⟨S99998x64, .f32⟩ : BufTy).Contents (Elt F)),
    nullary main_cst_27 (constant S_ .f32 0x00000000#32),
    binary main_v120 main_cst_27 main_v121 ((fun x v => Host.reduceAdd x v reducesTo_S99998x64_S64_d0 h_S_) : (⟨S99998x64, .f32⟩ : BufTy).Contents (Elt F) → (⟨S_, .f32⟩ : BufTy).Contents (Elt F) → (⟨S64, .f32⟩ : BufTy).Contents (Elt F)),
    nullary main_cst_28 (constant S_ .f32 0x47C34F00#32),
    unary main_cst_28 main_v122 (broadcastInDim S64 ![] bcast_S_S64 : (⟨S_, .f32⟩ : BufTy).Contents (Elt F) → (⟨S64, .f32⟩ : BufTy).Contents (Elt F)),
    binary main_v121 main_v122 main_v123 (Host.divf : (⟨S64, .f32⟩ : BufTy).Contents (Elt F) → (⟨S64, .f32⟩ : BufTy).Contents (Elt F) → (⟨S64, .f32⟩ : BufTy).Contents (Elt F)),
    unary main_v115 main_v124 ((extractStridedSlice S99998x64 ![2, 0] · slices_S100000x64_S99998x64_2_0) : (⟨S100000x64, .f32⟩ : BufTy).Contents (Elt F) → (⟨S99998x64, .f32⟩ : BufTy).Contents (Elt F)),
    nullary main_cst_29 (constant S_ .f32 0xFF800000#32),
    binary main_v124 main_cst_29 main_v125 ((fun x v => Host.reduce FloatOps.maximumf x v reducesTo_S99998x64_S64_d0 h_S_) : (⟨S99998x64, .f32⟩ : BufTy).Contents (Elt F) → (⟨S_, .f32⟩ : BufTy).Contents (Elt F) → (⟨S64, .f32⟩ : BufTy).Contents (Elt F)),
    unary main_v115 main_v126 ((extractStridedSlice S99998x64 ![2, 0] · slices_S100000x64_S99998x64_2_0) : (⟨S100000x64, .f32⟩ : BufTy).Contents (Elt F) → (⟨S99998x64, .f32⟩ : BufTy).Contents (Elt F)),
    nullary main_cst_30 (constant S_ .f32 0x7F800000#32),
    binary main_v126 main_cst_30 main_v127 ((fun x v => Host.reduce FloatOps.minimumf x v reducesTo_S99998x64_S64_d0 h_S_) : (⟨S99998x64, .f32⟩ : BufTy).Contents (Elt F) → (⟨S_, .f32⟩ : BufTy).Contents (Elt F) → (⟨S64, .f32⟩ : BufTy).Contents (Elt F)),
    unary main_v117 main_v128 (broadcastInDim S1x64 ![1] bcast_S64_S1x64_1 : (⟨S64, .f32⟩ : BufTy).Contents (Elt F) → (⟨S1x64, .f32⟩ : BufTy).Contents (Elt F)),
    unary main_v119 main_v129 (broadcastInDim S1x64 ![1] bcast_S64_S1x64_1 : (⟨S64, .f32⟩ : BufTy).Contents (Elt F) → (⟨S1x64, .f32⟩ : BufTy).Contents (Elt F)),
    unary main_v123 main_v130 (broadcastInDim S1x64 ![1] bcast_S64_S1x64_1 : (⟨S64, .f32⟩ : BufTy).Contents (Elt F) → (⟨S1x64, .f32⟩ : BufTy).Contents (Elt F)),
    unary main_v125 main_v131 (broadcastInDim S1x64 ![1] bcast_S64_S1x64_1 : (⟨S64, .f32⟩ : BufTy).Contents (Elt F) → (⟨S1x64, .f32⟩ : BufTy).Contents (Elt F)),
    unary main_v127 main_v132 (broadcastInDim S1x64 ![1] bcast_S64_S1x64_1 : (⟨S64, .f32⟩ : BufTy).Contents (Elt F) → (⟨S1x64, .f32⟩ : BufTy).Contents (Elt F)) ]

abbrev ops12b : List (HloOp τ sig (Elt F)) :=
  [ nary ![main_v128, main_v129, main_v130, main_v131, main_v132] main_v133 (fun u => concatenate S5x64 0 [⟨S1x64, u 0⟩, ⟨S1x64, u 1⟩, ⟨S1x64, u 2⟩, ⟨S1x64, u 3⟩, ⟨S1x64, u 4⟩] concatenates_S1x64_S1x64_S1x64_S1x64_S1x64_S5x64_d0) ]

abbrev ops12 : List (HloOp τ sig (Elt F)) := ops12a ++ ops12b

abbrev ops : List (HloOp τ sig (Elt F)) :=
  ops1 ++ (ops2 ++ (ops3 ++ (ops4 ++ (ops5 ++ (ops6 ++ (ops7 ++ (ops8 ++ (ops9 ++ (ops10 ++ (ops11 ++ ops12))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub .., unary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., nullary_bufs_sub .., binary_bufs_sub .., nullary_bufs_sub .., unary_bufs_sub .., binary_bufs_sub .., unary_bufs_sub .., nullary_bufs_sub .., binary_bufs_sub .., unary_bufs_sub .., nullary_bufs_sub .., binary_bufs_sub .., unary_bufs_sub .., unary_bufs_sub .., unary_bufs_sub .., unary_bufs_sub .., unary_bufs_sub .., nary_bufs_sub ..⟩

def res_main_v133 (m : (ℓ : Loc nD τ sig) → Buf (Elt F) ℓ) (c : Dev nD) : Buf (Elt F) ((c.tc : Thread nD τ).loc main_v133) :=
  after ops (launchContents m c) (Proc.devRef .tc main_v133)

set_option maxRecDepth 8192 in
set_option maxHeartbeats 69600000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = res_main_v133 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v133,
      (h c main_arg0).trans (by simp only [after_append]; after_results_simp <;> rfl),
      (h c main_arg1).trans (by simp only [after_append]; after_results_simp <;> rfl),
      (h c main_arg2).trans (by simp only [after_append]; after_results_simp <;> rfl),
      (h c main_arg3).trans (by simp only [after_append]; after_results_simp <;> rfl),
      (h c main_arg4).trans (by simp only [after_append]; after_results_simp <;> rfl),
      (h c main_arg5).trans (by simp only [after_append]; after_results_simp <;> rfl),
      (h c main_arg6).trans (by simp only [after_append]; after_results_simp <;> rfl),
      (h c main_arg7).trans (by simp only [after_append]; after_results_simp <;> rfl),
      (h c main_arg8).trans (by simp only [after_append]; after_results_simp <;> rfl),
      (h c main_arg9).trans (by simp only [after_append]; after_results_simp <;> rfl)⟩)
    (run_seq scopedRefs_eq scopedSems_eq defs main (fun _ => ops) main_eq (fun _ => ops_sub) m ρ)

end Cert.ReferenceIdeal.Value

end
-- ==== Proof.RefP.Read.lean ====
-- Each host operation of the reference as a function of the arguments, with its entry at an index where a later module reads it.
import proofs.«416059_j58626303591152_2_alg».proof.Proof.RefP.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S100000x32, .f32⟩ : BufTy).Contents (Elt F)) (x1 x2 x3 : (⟨S1250000, .i32⟩ : BufTy).Contents (Elt F)) (x4 : (⟨S32x64, .f32⟩ : BufTy).Contents (Elt F))
  (x5 : (⟨S64, .f32⟩ : BufTy).Contents (Elt F)) (x6 : (⟨S64x64, .f32⟩ : BufTy).Contents (Elt F)) (x7 : (⟨S64, .f32⟩ : BufTy).Contents (Elt F)) (x8 x9 : (⟨S4, .f32⟩ : BufTy).Contents (Elt F))

def val_main_c : (⟨S_, .i32⟩ : BufTy).Contents (Elt F) :=
  constantI S_ 32 0#32

def val_main_v0 : (⟨S1250000, .i32⟩ : BufTy).Contents (Elt F) :=
  broadcastInDim S1250000 ![] bcast_S_S1250000 (val_main_c (F := F))

def val_main_v1 : (⟨S1250000, .i1⟩ : BufTy).Contents (Elt F) :=
  cmpi .slt (x1) (val_main_v0 (F := F))

def val_main_c_0 : (⟨S_, .i32⟩ : BufTy).Contents (Elt F) :=
  constantI S_ 32 100000#32

def val_main_v2 : (⟨S1250000, .i32⟩ : BufTy).Contents (Elt F) :=
  broadcastInDim S1250000 ![] bcast_S_S1250000 (val_main_c_0 (F := F))

def val_main_v3 : (⟨S1250000, .i32⟩ : BufTy).Contents (Elt F) :=
  addi (x1) (val_main_v2 (F := F))

def val_main_v4 : (⟨S1250000, .i32⟩ : BufTy).Contents (Elt F) :=
  select (val_main_v1 (F := F) x1) (val_main_v3 (F := F) x1) (x1)

def val_main_v5 : (⟨S1250000x1, .i32⟩ : BufTy).Contents (Elt F) :=
  broadcastInDim S1250000x1 ![0] bcast_S1250000_S1250000x1_0 (val_main_v4 (F := F) x1)

def val_main_v6 : (⟨S1250000x32, .f32⟩ : BufTy).Contents (Elt F) :=
  Host.gather gather_S100000x32_S1250000x1_S1250000x32_1_0_n_n_0_1_132 (x0) (val_main_v5 (F := F) x1)

def val_main_c_1 : (⟨S_, .i32⟩ : BufTy).Contents (Elt F) :=
  constantI S_ 32 0#32

def val_main_v7 : (⟨S1250000, .i32⟩ : BufTy).Contents (Elt F) :=
  broadcastInDim S1250000 ![] bcast_S_S1250000 (val_main_c_1 (F := F))

def val_main_v8 : (⟨S1250000, .i1⟩ : BufTy).Contents (Elt F) :=
  cmpi .slt (x2) (val_main_v7 (F := F))

def val_main_c_2 : (⟨S_, .i32⟩ : BufTy).Contents (Elt F) :=
  constantI S_ 32 100000#32

def val_main_v9 : (⟨S1250000, .i32⟩ : BufTy).Contents (Elt F) :=
  broadcastInDim S1250000 ![] bcast_S_S1250000 (val_main_c_2 (F := F))

def val_main_v10 : (⟨S1250000, .i32⟩ : BufTy).Contents (Elt F) :=
  addi (x2) (val_main_v9 (F := F))

def val_main_v11 : (⟨S1250000, .i32⟩ : BufTy).Contents (Elt F) :=
  select (val_main_v8 (F := F) x2) (val_main_v10 (F := F) x2) (x2)

def val_main_v12 : (⟨S1250000x1, .i32⟩ : BufTy).Contents (Elt F) :=
  broadcastInDim S1250000x1 ![0] bcast_S1250000_S1250000x1_0 (val_main_v11 (F := F) x2)

def val_main_v13 : (⟨S1250000x32, .f32⟩ : BufTy).Contents (Elt F) :=
  Host.gather gather_S100000x32_S1250000x1_S1250000x32_1_0_n_n_0_1_132 (x0) (val_main_v12 (F := F) x2)

def val_main_v14 : (⟨S1250000x32, .f32⟩ : BufTy).Contents (Elt F) :=
  subf (val_main_v6 (F := F) x0 x1) (val_main_v13 (F := F) x0 x2)

def val_main_call0_v0 : (⟨S1250000x32, .f32⟩ : BufTy).Contents (Elt F) :=
  mulf (val_main_v14 (F := F) x0 x1 x2) (val_main_v14 (F := F) x0 x1 x2)

def val_main_call0_cst : (⟨S_, .f32⟩ : BufTy).Contents (Elt F) :=
  constant S_ .f32 0x00000000#32

def val_main_call0_v1 : (⟨S1250000, .f32⟩ : BufTy).Contents (Elt F) :=
  Host.reduceAdd (val_main_call0_v0 (F := F) x0 x1 x2) (val_main_call0_cst (F := F)) reducesTo_S1250000x32_S1250000_d1 h_S_

def val_main_v15 : (⟨S1250000, .f32⟩ : BufTy).Contents (Elt F) :=
  Host.sqrt (val_main_call0_v1 (F := F) x0 x1 x2)

def val_main_c_3 : (⟨S_, .i32⟩ : BufTy).Contents (Elt F) :=
  constantI S_ 32 0#32

def val_main_v16 : (⟨S1250000, .i32⟩ : BufTy).Contents (Elt F) :=
  broadcastInDim S1250000 ![] bcast_S_S1250000 (val_main_c_3 (F := F))

def val_main_v17 : (⟨S1250000, .i1⟩ : BufTy).Contents (Elt F) :=
  cmpi .slt (x3) (val_main_v16 (F := F))

def val_main_c_4 : (⟨S_, .i32⟩ : BufTy).Contents (Elt F) :=
  constantI S_ 32 4#32

def val_main_v18 : (⟨S1250000, .i32⟩ : BufTy).Contents (Elt F) :=
  broadcastInDim S1250000 ![] bcast_S_S1250000 (val_main_c_4 (F := F))

def val_main_v19 : (⟨S1250000, .i32⟩ : BufTy).Contents (Elt F) :=
  addi (x3) (val_main_v18 (F := F))

def val_main_v20 : (⟨S1250000, .i32⟩ : BufTy).Contents (Elt F) :=
  select (val_main_v17 (F := F) x3) (val_main_v19 (F := F) x3) (x3)

def val_main_v21 : (⟨S1250000x1, .i32⟩ : BufTy).Contents (Elt F) :=
  broadcastInDim S1250000x1 ![0] bcast_S1250000_S1250000x1_0 (val_main_v20 (F := F) x3)

def val_main_v22 : (⟨S1250000, .f32⟩ : BufTy).Contents (Elt F) :=
  Host.gather gather_S4_S1250000x1_S1250000_n_0_n_n_0_1_1 (x8) (val_main_v21 (F := F) x3)

def val_main_v23 : (⟨S1250000, .f32⟩ : BufTy).Contents (Elt F) :=
  subf (val_main_v15 (F := F) x0 x1 x2) (val_main_v22 (F := F) x3 x8)

def val_main_v24 : (⟨S1250000, .f32⟩ : BufTy).Contents (Elt F) :=
  mulf (val_main_v23 (F := F) x0 x1 x2 x3 x8) (val_main_v23 (F := F) x0 x1 x2 x3 x8)

def val_main_v25 : (⟨S1250000, .f32⟩ : BufTy).Contents (Elt F) :=
  Host.negf (val_main_v24 (F := F) x0 x1 x2 x3 x8)

def val_main_c_5 : (⟨S_, .i32⟩ : BufTy).Contents (Elt F) :=
  constantI S_ 32 0#32

def val_main_v26 : (⟨S1250000, .i32⟩ : BufTy).Contents (Elt F) :=
  broadcastInDim S1250000 ![] bcast_S_S1250000 (val_main_c_5 (F := F))

def val_main_v27 : (⟨S1250000, .i1⟩ : BufTy).Contents (Elt F) :=
  cmpi .slt (x3) (val_main_v26 (F := F))

def val_main_c_6 : (⟨S_, .i32⟩ : BufTy).Contents (Elt F) :=
  constantI S_ 32 4#32

def val_main_v28 : (⟨S1250000, .i32⟩ : BufTy).Contents (Elt F) :=
  broadcastInDim S1250000 ![] bcast_S_S1250000 (val_main_c_6 (F := F))

def val_main_v29 : (⟨S1250000, .i32⟩ : BufTy).Contents (Elt F) :=
  addi (x3) (val_main_v28 (F := F))

def val_main_v30 : (⟨S1250000, .i32⟩ : BufTy).Contents (Elt F) :=
  select (val_main_v27 (F := F) x3) (val_main_v29 (F := F) x3) (x3)

def val_main_v31 : (⟨S1250000x1, .i32⟩ : BufTy).Contents (Elt F) :=
  broadcastInDim S1250000x1 ![0] bcast_S1250000_S1250000x1_0 (val_main_v30 (F := F) x3)

def val_main_v32 : (⟨S1250000, .f32⟩ : BufTy).Contents (Elt F) :=
  Host.gather gather_S4_S1250000x1_S1250000_n_0_n_n_0_1_1 (x9) (val_main_v31 (F := F) x3)

def val_main_v33 : (⟨S1250000, .f32⟩ : BufTy).Contents (Elt F) :=
  mulf (val_main_v32 (F := F) x3 x9) (val_main_v32 (F := F) x3 x9)

def val_main_cst : (⟨S_, .f32⟩ : BufTy).Contents (Elt F) :=
  constant S_ .f32 0x40000000#32

def val_main_v34 : (⟨S1250000, .f32⟩ : BufTy).Contents (Elt F) :=
  broadcastInDim S1250000 ![] bcast_S_S1250000 (val_main_cst (F := F))

def val_main_v35 : (⟨S1250000, .f32⟩ : BufTy).Contents (Elt F) :=
  mulf (val_main_v34 (F := F)) (val_main_v33 (F := F) x3 x9)

def val_main_v36 : (⟨S1250000, .f32⟩ : BufTy).Contents (Elt F) :=
  Host.divf (val_main_v25 (F := F) x0 x1 x2 x3 x8) (val_main_v35 (F := F) x3 x9)

def val_main_v37 : (⟨S1250000, .f32⟩ : BufTy).Contents (Elt F) :=
  Host.exp (val_main_v36 (F := F) x0 x1 x2 x3 x8 x9)

def val_main_cst_7 : (⟨S_, .f32⟩ : BufTy).Contents (Elt F) :=
  constant S_ .f32 0x3F800000#32

def val_main_v38 : (⟨S1250000, .f32⟩ : BufTy).Contents (Elt F) :=
  broadcastInDim S1250000 ![] bcast_S_S1250000 (val_main_cst_7 (F := F))

def val_main_cst_8 : (⟨S_, .f32⟩ : BufTy).Contents (Elt F) :=
  constant S_ .f32 0x00000000#32

def val_main_v39 : (⟨S100000, .f32⟩ : BufTy).Contents (Elt F) :=
  broadcastInDim S100000 ![] bcast_S_S100000 (val_main_cst_8 (F := F))

def val_main_v40 : (⟨S1250000x1, .i32⟩ : BufTy).Contents (Elt F) :=
  broadcastInDim S1250000x1 ![0] bcast_S1250000_S1250000x1_0 (x1)

def val_main_v41 : (⟨S100000, .f32⟩ : BufTy).Contents (Elt F) :=
  Host.scatterAdd scatter_S100000_S1250000x1_S1250000_n_0_0_1 (val_main_v39 (F := F)) (val_main_v40 (F := F) x1) (val_main_v38 (F := F))

def val_main_cst_9 : (⟨S_, .f32⟩ : BufTy).Contents (Elt F) :=
  constant S_ .f32 0x00000000#32

def val_main_v42 : (⟨S100000, .f32⟩ : BufTy).Contents (Elt F) :=
  broadcastInDim S100000 ![] bcast_S_S100000 (val_main_cst_9 (F := F))

def val_main_v43 : (⟨S1250000x1, .i32⟩ : BufTy).Contents (Elt F) :=
  broadcastInDim S1250000x1 ![0] bcast_S1250000_S1250000x1_0 (x2)

def val_main_v44 : (⟨S100000, .f32⟩ : BufTy).Contents (Elt F) :=
  Host.scatterAdd scatter_S100000_S1250000x1_S1250000_n_0_0_1 (val_main_v42 (F := F)) (val_main_v43 (F := F) x2) (val_main_v38 (F := F))

def val_main_cst_10 : (⟨S_, .f32⟩ : BufTy).Contents (Elt F) :=
  constant S_ .f32 0x3F800000#32

def val_main_v45 : (⟨S100000, .f32⟩ : BufTy).Contents (Elt F) :=
  broadcastInDim S100000 ![] bcast_S_S100000 (val_main_cst_10 (F := F))

def val_main_v46 : (⟨S100000, .f32⟩ : BufTy).Contents (Elt F) :=
  maximumf (val_main_v41 (F := F) x1) (val_main_v45 (F := F))

def val_main_cst_11 : (⟨S_, .f32⟩ : BufTy).Contents (Elt F) :=
  constant S_ .f32 0xBF000000#32

def val_main_v47 : (⟨S100000, .f32⟩ : BufTy).Contents (Elt F) :=
  broadcastInDim S100000 ![] bcast_S_S100000 (val_main_cst_11 (F := F))

def val_main_v48 : (⟨S100000, .f32⟩ : BufTy).Contents (Elt F) :=
  Host.powf (val_main_v46 (F := F) x1) (val_main_v47 (F := F))

def val_main_cst_12 : (⟨S_, .f32⟩ : BufTy).Contents (Elt F) :=
  constant S_ .f32 0x3F800000#32

def val_main_v49 : (⟨S100000, .f32⟩ : BufTy).Contents (Elt F) :=
  broadcastInDim S100000 ![] bcast_S_S100000 (val_main_cst_12 (F := F))

def val_main_v50 : (⟨S100000, .f32⟩ : BufTy).Contents (Elt F) :=
  maximumf (val_main_v44 (F := F) x2) (val_main_v49 (F := F))

def val_main_cst_13 : (⟨S_, .f32⟩ : BufTy).Contents (Elt F) :=
  constant S_ .f32 0xBF000000#32

def val_main_v51 : (⟨S100000, .f32⟩ : BufTy).Contents (Elt F) :=
  broadcastInDim S100000 ![] bcast_S_S100000 (val_main_cst_13 (F := F))

def val_main_v52 : (⟨S100000, .f32⟩ : BufTy).Contents (Elt F) :=
  Host.powf (val_main_v50 (F := F) x2) (val_main_v51 (F := F))

def val_main_v53 : (⟨S100000x1, .f32⟩ : BufTy).Contents (Elt F) :=
  broadcastInDim S100000x1 ![0] bcast_S100000_S100000x1_0 (val_main_v48 (F := F) x1)

def val_main_v54 : (⟨S100000x32, .f32⟩ : BufTy).Contents (Elt F) :=
  broadcastInDim S100000x32 ![0, 1] bcast_S100000x1_S100000x32_0_1 (val_main_v53 (F := F) x1)

def val_main_v55 : (⟨S100000x32, .f32⟩ : BufTy).Contents (Elt F) :=
  mulf (x0) (val_main_v54 (F := F) x1)

def val_main_c_14 : (⟨S_, .i32⟩ : BufTy).Contents (Elt F) :=
  constantI S_ 32 0#32

def val_main_v56 : (⟨S1250000, .i32⟩ : BufTy).Contents (Elt F) :=
  broadcastInDim S1250000 ![] bcast_S_S1250000 (val_main_c_14 (F := F))

def val_main_v57 : (⟨S1250000, .i1⟩ : BufTy).Contents (Elt F) :=
  cmpi .slt (x1) (val_main_v56 (F := F))

def val_main_c_15 : (⟨S_, .i32⟩ : BufTy).Contents (Elt F) :=
  constantI S_ 32 100000#32

def val_main_v58 : (⟨S1250000, .i32⟩ : BufTy).Contents (Elt F) :=
  broadcastInDim S1250000 ![] bcast_S_S1250000 (val_main_c_15 (F := F))

def val_main_v59 : (⟨S1250000, .i32⟩ : BufTy).Contents (Elt F) :=
  addi (x1) (val_main_v58 (F := F))

def val_main_v60 : (⟨S1250000, .i32⟩ : BufTy).Contents (Elt F) :=
  select (val_main_v57 (F := F) x1) (val_main_v59 (F := F) x1) (x1)

def val_main_v61 : (⟨S1250000x1, .i32⟩ : BufTy).Contents (Elt F) :=
  broadcastInDim S1250000x1 ![0] bcast_S1250000_S1250000x1_0 (val_main_v60 (F := F) x1)

def val_main_v62 : (⟨S1250000x32, .f32⟩ : BufTy).Contents (Elt F) :=
  Host.gather gather_S100000x32_S1250000x1_S1250000x32_1_0_n_n_0_1_132 (val_main_v55 (F := F) x0 x1) (val_main_v61 (F := F) x1)

def val_main_v63 : (⟨S1250000x1, .f32⟩ : BufTy).Contents (Elt F) :=
  broadcastInDim S1250000x1 ![0] bcast_S1250000_S1250000x1_0 (val_main_v37 (F := F) x0 x1 x2 x3 x8 x9)

def val_main_v64 : (⟨S1250000x32, .f32⟩ : BufTy).Contents (Elt F) :=
  broadcastInDim S1250000x32 ![0, 1] bcast_S1250000x1_S1250000x32_0_1 (val_main_v63 (F := F) x0 x1 x2 x3 x8 x9)

def val_main_v65 : (⟨S1250000x32, .f32⟩ : BufTy).Contents (Elt F) :=
  mulf (val_main_v62 (F := F) x0 x1) (val_main_v64 (F := F) x0 x1 x2 x3 x8 x9)

def val_main_cst_16 : (⟨S_, .f32⟩ : BufTy).Contents (Elt F) :=
  constant S_ .f32 0x00000000#32

def val_main_v66 : (⟨S100000x32, .f32⟩ : BufTy).Contents (Elt F) :=
  broadcastInDim S100000x32 ![] bcast_S_S100000x32 (val_main_cst_16 (F := F))

def val_main_v67 : (⟨S1250000x1, .i32⟩ : BufTy).Contents (Elt F) :=
  broadcastInDim S1250000x1 ![0] bcast_S1250000_S1250000x1_0 (x2)

def val_main_v68 : (⟨S100000x32, .f32⟩ : BufTy).Contents (Elt F) :=
  Host.scatterAdd scatter_S100000x32_S1250000x1_S1250000x32_1_0_0_1 (val_main_v66 (F := F)) (val_main_v67 (F := F) x2) (val_main_v65 (F := F) x0 x1 x2 x3 x8 x9)

def val_main_v69 : (⟨S100000x1, .f32⟩ : BufTy).Contents (Elt F) :=
  broadcastInDim S100000x1 ![0] bcast_S100000_S100000x1_0 (val_main_v52 (F := F) x2)

abbrev idx_main_v69 (i : S100000x1.Idx) : S100000.Idx := fun a => match a with
  | ⟨0, _⟩ => ⟨(i 0).val, (i 0).isLt⟩

theorem val_main_v69_apply (i : S100000x1.Idx) :
    val_main_v69 (F := F) x2 i = val_main_v52 (F := F) x2 (idx_main_v69 i) := by
  unfold val_main_v69
  generalize val_main_v52 (F := F) x2 = y
  exact broadcastInDim_apply _ bcast_S100000_S100000x1_0 y i (idx_main_v69 i) (fun a => match a with
    | ⟨0, _⟩ => by show (i 0).val = if (100000 : Nat) = 1 then 0 else (i 0).val; rw [if_neg (by decide)])

def val_main_v70 : (⟨S100000x32, .f32⟩ : BufTy).Contents (Elt F) :=
  broadcastInDim S100000x32 ![0, 1] bcast_S100000x1_S100000x32_0_1 (val_main_v69 (F := F) x2)

abbrev idx_main_v70 (i : S100000x32.Idx) : S100000x1.Idx := fun a => match a with
  | ⟨0, _⟩ => ⟨(i 0).val, (i 0).isLt⟩
  | ⟨1, _⟩ => ⟨0, Nat.one_pos⟩

theorem val_main_v70_apply (i : S100000x32.Idx) :
    val_main_v70 (F := F) x2 i = val_main_v69 (F := F) x2 (idx_main_v70 i) := by
  unfold val_main_v70
  generalize val_main_v69 (F := F) x2 = y
  exact broadcastInDim_apply _ bcast_S100000x1_S100000x32_0_1 y i (idx_main_v70 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v71 : (⟨S100000x32, .f32⟩ : BufTy).Contents (Elt F) :=
  mulf (val_main_v68 (F := F) x0 x1 x2 x3 x8 x9) (val_main_v70 (F := F) x2)

theorem val_main_v71_apply (i : S100000x32.Idx) :
    val_main_v71 (F := F) x0 x1 x2 x3 x8 x9 i = FloatOps.mulf (val_main_v68 (F := F) x0 x1 x2 x3 x8 x9 i) (val_main_v70 (F := F) x2 i) := rfl

def val_main_v72 : (⟨S100000x64, .f32⟩ : BufTy).Contents (Elt F) :=
  Host.dotGeneral dot_S100000x32_S32x64_S100000x64_1_0_0_1_n_n none (val_main_v71 (F := F) x0 x1 x2 x3 x8 x9) (x4)

theorem lhs_main_v72_0 (i : S100000x64.Idx) (q : dot_S100000x32_S32x64_S100000x64_1_0_0_1_n_n.contr.Idx) :
    (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl

theorem lhs_main_v72_1 (i : S100000x64.Idx) (q : dot_S100000x32_S32x64_S100000x64_1_0_0_1_n_n.contr.Idx) :
    (dot_S100000x32_S32x64_S100000x64_1_0_0_1_n_n.lhsIdx i q 1).val = (q ⟨0, by decide⟩).val :=
  dot_S100000x32_S32x64_S100000x64_1_0_0_1_n_n.lhsIdx_val_of_single rfl i q

theorem rhs_main_v72_0 (i : S100000x64.Idx) (q : dot_S100000x32_S32x64_S100000x64_1_0_0_1_n_n.contr.Idx) :
    (dot_S100000x32_S32x64_S100000x64_1_0_0_1_n_n.rhsIdx i q 0).val = (q ⟨0, by decide⟩).val :=
  dot_S100000x32_S32x64_S100000x64_1_0_0_1_n_n.rhsIdx_val_of_single rfl i q

theorem rhs_main_v72_1 (i : S100000x64.Idx) (q : dot_S100000x32_S32x64_S100000x64_1_0_0_1_n_n.contr.Idx) :
    (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl

abbrev lidx_main_v72 (i : S100000x64.Idx) (k : Fin 32) : S100000x32.Idx := fun a => match a with
  | ⟨0, _⟩ => ⟨(i 0).val, (i 0).isLt⟩
  | ⟨1, _⟩ => ⟨k.val, k.isLt⟩

abbrev ridx_main_v72 (i : S100000x64.Idx) (k : Fin 32) : S32x64.Idx := fun a => match a with
  | ⟨0, _⟩ => ⟨k.val, k.isLt⟩
  | ⟨1, _⟩ => ⟨(i 1).val, (i 1).isLt⟩

theorem val_main_v72_apply (x0 : (⟨S100000x32, .f32⟩ : BufTy).Contents (Elt Ideal)) (x1 x2 x3 : (⟨S1250000, .i32⟩ : BufTy).Contents (Elt Ideal)) (x4 : (⟨S32x64, .f32⟩ : BufTy).Contents (Elt Ideal)) (x8 x9 : (⟨S4, .f32⟩ : BufTy).Contents (Elt Ideal)) (i : S100000x64.Idx) :
    val_main_v72 (F := Ideal) x0 x1 x2 x3 x4 x8 x9 i = ∑ k : Fin 32, (val_main_v71 (F := Ideal) x0 x1 x2 x3 x8 x9) (lidx_main_v72 i k) * x4 (ridx_main_v72 i k) := by
  unfold val_main_v72
  generalize val_main_v71 (F := Ideal) x0 x1 x2 x3 x8 x9 = y0
  simp only [Host.dotGeneral]
  rw [Ideal.dotGeneral_apply, ← Equiv.sum_comp (ValueIdx.contrEquiv1 dot_S100000x32_S32x64_S100000x64_1_0_0_1_n_n 32 rfl rfl).symm]
  refine Finset.sum_congr rfl fun k _ => ?_
  have hk := ValueIdx.contrEquiv1_symm_val dot_S100000x32_S32x64_S100000x64_1_0_0_1_n_n 32 rfl rfl k
  have el : dot_S100000x32_S32x64_S100000x64_1_0_0_1_n_n.lhsIdx i ((ValueIdx.contrEquiv1 dot_S100000x32_S32x64_S100000x64_1_0_0_1_n_n 32 rfl rfl).symm k) = lidx_main_v72 i k := funext fun a => Fin.ext (by
    match a with
    | ⟨0, _⟩ => exact lhs_main_v72_0 _ _
    | ⟨1, _⟩ => exact (lhs_main_v72_1 _ _).trans hk)
  have er : dot_S100000x32_S32x64_S100000x64_1_0_0_1_n_n.rhsIdx i ((ValueIdx.contrEquiv1 dot_S100000x32_S32x64_S100000x64_1_0_0_1_n_n 32 rfl rfl).symm k) = ridx_main_v72 i k := funext fun a => Fin.ext (by
    match a with
    | ⟨0, _⟩ => exact (rhs_main_v72_0 _ _).trans hk
    | ⟨1, _⟩ => exact rhs_main_v72_1 _ _)
  rw [el, er]

def val_main_v73 : (⟨S1x64, .f32⟩ : BufTy).Contents (Elt F) :=
  broadcastInDim S1x64 ![1] bcast_S64_S1x64_1 (x5)

abbrev idx_main_v73 (i : S1x64.Idx) : S64.Idx := fun a => match a with
  | ⟨0, _⟩ => ⟨(i 1).val, (i 1).isLt⟩

theorem val_main_v73_apply (i : S1x64.Idx) :
    val_main_v73 (F := F) x5 i = x5 (idx_main_v73 i) := by
  unfold val_main_v73
  exact broadcastInDim_apply _ bcast_S64_S1x64_1 x5 i (idx_main_v73 i) (fun a => match a with
    | ⟨0, _⟩ => by show (i 1).val = if (64 : Nat) = 1 then 0 else (i 1).val; rw [if_neg (by decide)])

def val_main_v74 : (⟨S100000x64, .f32⟩ : BufTy).Contents (Elt F) :=
  broadcastInDim S100000x64 ![0, 1] bcast_S1x64_S100000x64_0_1 (val_main_v73 (F := F) x5)

abbrev idx_main_v74 (i : S100000x64.Idx) : S1x64.Idx := fun a => match a with
  | ⟨0, _⟩ => ⟨0, Nat.one_pos⟩
  | ⟨1, _⟩ => ⟨(i 1).val, (i 1).isLt⟩

theorem val_main_v74_apply (i : S100000x64.Idx) :
    val_main_v74 (F := F) x5 i = val_main_v73 (F := F) x5 (idx_main_v74 i) := by
  unfold val_main_v74
  generalize val_main_v73 (F := F) x5 = y
  exact broadcastInDim_apply _ bcast_S1x64_S100000x64_0_1 y i (idx_main_v74 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v75 : (⟨S100000x64, .f32⟩ : BufTy).Contents (Elt F) :=
  addf (val_main_v72 (F := F) x0 x1 x2 x3 x4 x8 x9) (val_main_v74 (F := F) x5)

theorem val_main_v75_apply (i : S100000x64.Idx) :
    val_main_v75 (F := F) x0 x1 x2 x3 x4 x5 x8 x9 i = FloatOps.addf (val_main_v72 (F := F) x0 x1 x2 x3 x4 x8 x9 i) (val_main_v74 (F := F) x5 i) := rfl

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v0 : (⟨S100000x64, .f32⟩ : BufTy).Contents (Elt F) :=
  broadcastInDim S100000x64 ![] bcast_S_S100000x64 (val_main_call1_cst (F := F))

abbrev idx_main_call1_v0 (i : S100000x64.Idx) : S_.Idx := fun a => a.elim0

theorem val_main_call1_v0_apply (i : S100000x64.Idx) :
    val_main_call1_v0 (F := F) i = val_main_call1_cst (F := F) (idx_main_call1_v0 i) := by
  unfold val_main_call1_v0
  generalize val_main_call1_cst (F := F) = y
  exact broadcastInDim_apply _ bcast_S_S100000x64 y i (idx_main_call1_v0 i) (fun a => a.elim0)

def val_main_v76 : (⟨S100000x64, .f32⟩ : BufTy).Contents (Elt F) :=
  maximumf (val_main_v75 (F := F) x0 x1 x2 x3 x4 x5 x8 x9) (val_main_call1_v0 (F := F))

theorem val_main_v76_apply (i : S100000x64.Idx) :
    val_main_v76 (F := F) x0 x1 x2 x3 x4 x5 x8 x9 i = FloatOps.maximumf (val_main_v75 (F := F) x0 x1 x2 x3 x4 x5 x8 x9 i) (val_main_call1_v0 (F := F) i) := rfl

def val_main_cst_17 : (⟨S_, .f32⟩ : BufTy).Contents (Elt F) :=
  constant S_ .f32 0x3F800000#32

def val_main_v77 : (⟨S1250000, .f32⟩ : BufTy).Contents (Elt F) :=
  broadcastInDim S1250000 ![] bcast_S_S1250000 (val_main_cst_17 (F := F))

def val_main_cst_18 : (⟨S_, .f32⟩ : BufTy).Contents (Elt F) :=
  constant S_ .f32 0x00000000#32

def val_main_v78 : (⟨S100000, .f32⟩ : BufTy).Contents (Elt F) :=
  broadcastInDim S100000 ![] bcast_S_S100000 (val_main_cst_18 (F := F))

def val_main_v79 : (⟨S1250000x1, .i32⟩ : BufTy).Contents (Elt F) :=
  broadcastInDim S1250000x1 ![0] bcast_S1250000_S1250000x1_0 (x1)

def val_main_v80 : (⟨S100000, .f32⟩ : BufTy).Contents (Elt F) :=
  Host.scatterAdd scatter_S100000_S1250000x1_S1250000_n_0_0_1 (val_main_v78 (F := F)) (val_main_v79 (F := F) x1) (val_main_v77 (F := F))

def val_main_cst_19 : (⟨S_, .f32⟩ : BufTy).Contents (Elt F) :=
  constant S_ .f32 0x00000000#32

def val_main_v81 : (⟨S100000, .f32⟩ : BufTy).Contents (Elt F) :=
  broadcastInDim S100000 ![] bcast_S_S100000 (val_main_cst_19 (F := F))

def val_main_v82 : (⟨S1250000x1, .i32⟩ : BufTy).Contents (Elt F) :=
  broadcastInDim S1250000x1 ![0] bcast_S1250000_S1250000x1_0 (x2)

def val_main_v83 : (⟨S100000, .f32⟩ : BufTy).Contents (Elt F) :=
  Host.scatterAdd scatter_S100000_S1250000x1_S1250000_n_0_0_1 (val_main_v81 (F := F)) (val_main_v82 (F := F) x2) (val_main_v77 (F := F))

def val_main_cst_20 : (⟨S_, .f32⟩ : BufTy).Contents (Elt F) :=
  constant S_ .f32 0x3F800000#32

def val_main_v84 : (⟨S100000, .f32⟩ : BufTy).Contents (Elt F) :=
  broadcastInDim S100000 ![] bcast_S_S100000 (val_main_cst_20 (F := F))

def val_main_v85 : (⟨S100000, .f32⟩ : BufTy).Contents (Elt F) :=
  maximumf (val_main_v80 (F := F) x1) (val_main_v84 (F := F))

def val_main_cst_21 : (⟨S_, .f32⟩ : BufTy).Contents (Elt F) :=
  constant S_ .f32 0xBF000000#32

def val_main_v86 : (⟨S100000, .f32⟩ : BufTy).Contents (Elt F) :=
  broadcastInDim S100000 ![] bcast_S_S100000 (val_main_cst_21 (F := F))

def val_main_v87 : (⟨S100000, .f32⟩ : BufTy).Contents (Elt F) :=
  Host.powf (val_main_v85 (F := F) x1) (val_main_v86 (F := F))

def val_main_cst_22 : (⟨S_, .f32⟩ : BufTy).Contents (Elt F) :=
  constant S_ .f32 0x3F800000#32

def val_main_v88 : (⟨S100000, .f32⟩ : BufTy).Contents (Elt F) :=
  broadcastInDim S100000 ![] bcast_S_S100000 (val_main_cst_22 (F := F))

def val_main_v89 : (⟨S100000, .f32⟩ : BufTy).Contents (Elt F) :=
  maximumf (val_main_v83 (F := F) x2) (val_main_v88 (F := F))

def val_main_cst_23 : (⟨S_, .f32⟩ : BufTy).Contents (Elt F) :=
  constant S_ .f32 0xBF000000#32

def val_main_v90 : (⟨S100000, .f32⟩ : BufTy).Contents (Elt F) :=
  broadcastInDim S100000 ![] bcast_S_S100000 (val_main_cst_23 (F := F))

def val_main_v91 : (⟨S100000, .f32⟩ : BufTy).Contents (Elt F) :=
  Host.powf (val_main_v89 (F := F) x2) (val_main_v90 (F := F))

def val_main_v92 : (⟨S100000x1, .f32⟩ : BufTy).Contents (Elt F) :=
  broadcastInDim S100000x1 ![0] bcast_S100000_S100000x1_0 (val_main_v87 (F := F) x1)

abbrev idx_main_v92 (i : S100000x1.Idx) : S100000.Idx := fun a => match a with
  | ⟨0, _⟩ => ⟨(i 0).val, (i 0).isLt⟩

theorem val_main_v92_apply (i : S100000x1.Idx) :
    val_main_v92 (F := F) x1 i = val_main_v87 (F := F) x1 (idx_main_v92 i) := by
  unfold val_main_v92
  generalize val_main_v87 (F := F) x1 = y
  exact broadcastInDim_apply _ bcast_S100000_S100000x1_0 y i (idx_main_v92 i) (fun a => match a with
    | ⟨0, _⟩ => by show (i 0).val = if (100000 : Nat) = 1 then 0 else (i 0).val; rw [if_neg (by decide)])

def val_main_v93 : (⟨S100000x64, .f32⟩ : BufTy).Contents (Elt F) :=
  broadcastInDim S100000x64 ![0, 1] bcast_S100000x1_S100000x64_0_1 (val_main_v92 (F := F) x1)

abbrev idx_main_v93 (i : S100000x64.Idx) : S100000x1.Idx := fun a => match a with
  | ⟨0, _⟩ => ⟨(i 0).val, (i 0).isLt⟩
  | ⟨1, _⟩ => ⟨0, Nat.one_pos⟩

theorem val_main_v93_apply (i : S100000x64.Idx) :
    val_main_v93 (F := F) x1 i = val_main_v92 (F := F) x1 (idx_main_v93 i) := by
  unfold val_main_v93
  generalize val_main_v92 (F := F) x1 = y
  exact broadcastInDim_apply _ bcast_S100000x1_S100000x64_0_1 y i (idx_main_v93 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v94 : (⟨S100000x64, .f32⟩ : BufTy).Contents (Elt F) :=
  mulf (val_main_v76 (F := F) x0 x1 x2 x3 x4 x5 x8 x9) (val_main_v93 (F := F) x1)

theorem val_main_v94_apply (i : S100000x64.Idx) :
    val_main_v94 (F := F) x0 x1 x2 x3 x4 x5 x8 x9 i = FloatOps.mulf (val_main_v76 (F := F) x0 x1 x2 x3 x4 x5 x8 x9 i) (val_main_v93 (F := F) x1 i) := rfl

def val_main_c_24 : (⟨S_, .i32⟩ : BufTy).Contents (Elt F) :=
  constantI S_ 32 0#32

def val_main_v95 : (⟨S1250000, .i32⟩ : BufTy).Contents (Elt F) :=
  broadcastInDim S1250000 ![] bcast_S_S1250000 (val_main_c_24 (F := F))

def val_main_v96 : (⟨S1250000, .i1⟩ : BufTy).Contents (Elt F) :=
  cmpi .slt (x1) (val_main_v95 (F := F))

def val_main_c_25 : (⟨S_, .i32⟩ : BufTy).Contents (Elt F) :=
  constantI S_ 32 100000#32

def val_main_v97 : (⟨S1250000, .i32⟩ : BufTy).Contents (Elt F) :=
  broadcastInDim S1250000 ![] bcast_S_S1250000 (val_main_c_25 (F := F))

def val_main_v98 : (⟨S1250000, .i32⟩ : BufTy).Contents (Elt F) :=
  addi (x1) (val_main_v97 (F := F))

def val_main_v99 : (⟨S1250000, .i32⟩ : BufTy).Contents (Elt F) :=
  select (val_main_v96 (F := F) x1) (val_main_v98 (F := F) x1) (x1)

def val_main_v100 : (⟨S1250000x1, .i32⟩ : BufTy).Contents (Elt F) :=
  broadcastInDim S1250000x1 ![0] bcast_S1250000_S1250000x1_0 (val_main_v99 (F := F) x1)

def val_main_v101 : (⟨S1250000x64, .f32⟩ : BufTy).Contents (Elt F) :=
  Host.gather gather_S100000x64_S1250000x1_S1250000x64_1_0_n_n_0_1_164 (val_main_v94 (F := F) x0 x1 x2 x3 x4 x5 x8 x9) (val_main_v100 (F := F) x1)

def val_main_v102 : (⟨S1250000x1, .f32⟩ : BufTy).Contents (Elt F) :=
  broadcastInDim S1250000x1 ![0] bcast_S1250000_S1250000x1_0 (val_main_v37 (F := F) x0 x1 x2 x3 x8 x9)

def val_main_v103 : (⟨S1250000x64, .f32⟩ : BufTy).Contents (Elt F) :=
  broadcastInDim S1250000x64 ![0, 1] bcast_S1250000x1_S1250000x64_0_1 (val_main_v102 (F := F) x0 x1 x2 x3 x8 x9)

def val_main_v104 : (⟨S1250000x64, .f32⟩ : BufTy).Contents (Elt F) :=
  mulf (val_main_v101 (F := F) x0 x1 x2 x3 x4 x5 x8 x9) (val_main_v103 (F := F) x0 x1 x2 x3 x8 x9)

def val_main_cst_26 : (⟨S_, .f32⟩ : BufTy).Contents (Elt F) :=
  constant S_ .f32 0x00000000#32

def val_main_v105 : (⟨S100000x64, .f32⟩ : BufTy).Contents (Elt F) :=
  broadcastInDim S100000x64 ![] bcast_S_S100000x64 (val_main_cst_26 (F := F))

def val_main_v106 : (⟨S1250000x1, .i32⟩ : BufTy).Contents (Elt F) :=
  broadcastInDim S1250000x1 ![0] bcast_S1250000_S1250000x1_0 (x2)

def val_main_v107 : (⟨S100000x64, .f32⟩ : BufTy).Contents (Elt F) :=
  Host.scatterAdd scatter_S100000x64_S1250000x1_S1250000x64_1_0_0_1 (val_main_v105 (F := F)) (val_main_v106 (F := F) x2) (val_main_v104 (F := F) x0 x1 x2 x3 x4 x5 x8 x9)

def val_main_v108 : (⟨S100000x1, .f32⟩ : BufTy).Contents (Elt F) :=
  broadcastInDim S100000x1 ![0] bcast_S100000_S100000x1_0 (val_main_v91 (F := F) x2)

abbrev idx_main_v108 (i : S100000x1.Idx) : S100000.Idx := fun a => match a with
  | ⟨0, _⟩ => ⟨(i 0).val, (i 0).isLt⟩

theorem val_main_v108_apply (i : S100000x1.Idx) :
    val_main_v108 (F := F) x2 i = val_main_v91 (F := F) x2 (idx_main_v108 i) := by
  unfold val_main_v108
  generalize val_main_v91 (F := F) x2 = y
  exact broadcastInDim_apply _ bcast_S100000_S100000x1_0 y i (idx_main_v108 i) (fun a => match a with
    | ⟨0, _⟩ => by show (i 0).val = if (100000 : Nat) = 1 then 0 else (i 0).val; rw [if_neg (by decide)])

def val_main_v109 : (⟨S100000x64, .f32⟩ : BufTy).Contents (Elt F) :=
  broadcastInDim S100000x64 ![0, 1] bcast_S100000x1_S100000x64_0_1 (val_main_v108 (F := F) x2)

abbrev idx_main_v109 (i : S100000x64.Idx) : S100000x1.Idx := fun a => match a with
  | ⟨0, _⟩ => ⟨(i 0).val, (i 0).isLt⟩
  | ⟨1, _⟩ => ⟨0, Nat.one_pos⟩

theorem val_main_v109_apply (i : S100000x64.Idx) :
    val_main_v109 (F := F) x2 i = val_main_v108 (F := F) x2 (idx_main_v109 i) := by
  unfold val_main_v109
  generalize val_main_v108 (F := F) x2 = y
  exact broadcastInDim_apply _ bcast_S100000x1_S100000x64_0_1 y i (idx_main_v109 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v110 : (⟨S100000x64, .f32⟩ : BufTy).Contents (Elt F) :=
  mulf (val_main_v107 (F := F) x0 x1 x2 x3 x4 x5 x8 x9) (val_main_v109 (F := F) x2)

theorem val_main_v110_apply (i : S100000x64.Idx) :
    val_main_v110 (F := F) x0 x1 x2 x3 x4 x5 x8 x9 i = FloatOps.mulf (val_main_v107 (F := F) x0 x1 x2 x3 x4 x5 x8 x9 i) (val_main_v109 (F := F) x2 i) := rfl

def val_main_v111 : (⟨S100000x64, .f32⟩ : BufTy).Contents (Elt F) :=
  Host.dotGeneral dot_S100000x64_S64x64_S100000x64_1_0_0_1_n_n none (val_main_v110 (F := F) x0 x1 x2 x3 x4 x5 x8 x9) (x6)

theorem lhs_main_v111_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_main_v111_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_main_v111_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_main_v111_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_main_v111 (i : S100000x64.Idx) (k : Fin 64) : S100000x64.Idx := fun a => match a with
  | ⟨0, _⟩ => ⟨(i 0).val, (i 0).isLt⟩
  | ⟨1, _⟩ => ⟨k.val, k.isLt⟩

abbrev ridx_main_v111 (i : S100000x64.Idx) (k : Fin 64) : S64x64.Idx := fun a => match a with
  | ⟨0, _⟩ => ⟨k.val, k.isLt⟩
  | ⟨1, _⟩ => ⟨(i 1).val, (i 1).isLt⟩

theorem val_main_v111_apply (x0 : (⟨S100000x32, .f32⟩ : BufTy).Contents (Elt Ideal)) (x1 x2 x3 : (⟨S1250000, .i32⟩ : BufTy).Contents (Elt Ideal)) (x4 : (⟨S32x64, .f32⟩ : BufTy).Contents (Elt Ideal)) (x5 : (⟨S64, .f32⟩ : BufTy).Contents (Elt Ideal)) (x6 : (⟨S64x64, .f32⟩ : BufTy).Contents (Elt Ideal)) (x8 x9 : (⟨S4, .f32⟩ : BufTy).Contents (Elt Ideal)) (i : S100000x64.Idx) :
    val_main_v111 (F := Ideal) x0 x1 x2 x3 x4 x5 x6 x8 x9 i = ∑ k : Fin 64, (val_main_v110 (F := Ideal) x0 x1 x2 x3 x4 x5 x8 x9) (lidx_main_v111 i k) * x6 (ridx_main_v111 i k) := by
  unfold val_main_v111
  generalize val_main_v110 (F := Ideal) x0 x1 x2 x3 x4 x5 x8 x9 = y0
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v111 i k := funext fun a => Fin.ext (by
    match a with
    | ⟨0, _⟩ => exact lhs_main_v111_0 _ _
    | ⟨1, _⟩ => exact (lhs_main_v111_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v111 i k := funext fun a => Fin.ext (by
    match a with
    | ⟨0, _⟩ => exact (rhs_main_v111_0 _ _).trans hk
    | ⟨1, _⟩ => exact rhs_main_v111_1 _ _)
  rw [el, er]

def val_main_v112 : (⟨S1x64, .f32⟩ : BufTy).Contents (Elt F) :=
  broadcastInDim S1x64 ![1] bcast_S64_S1x64_1 (x7)

abbrev idx_main_v112 (i : S1x64.Idx) : S64.Idx := fun a => match a with
  | ⟨0, _⟩ => ⟨(i 1).val, (i 1).isLt⟩

theorem val_main_v112_apply (i : S1x64.Idx) :
    val_main_v112 (F := F) x7 i = x7 (idx_main_v112 i) := by
  unfold val_main_v112
  exact broadcastInDim_apply _ bcast_S64_S1x64_1 x7 i (idx_main_v112 i) (fun a => match a with
    | ⟨0, _⟩ => by show (i 1).val = if (64 : Nat) = 1 then 0 else (i 1).val; rw [if_neg (by decide)])

def val_main_v113 : (⟨S100000x64, .f32⟩ : BufTy).Contents (Elt F) :=
  broadcastInDim S100000x64 ![0, 1] bcast_S1x64_S100000x64_0_1 (val_main_v112 (F := F) x7)

abbrev idx_main_v113 (i : S100000x64.Idx) : S1x64.Idx := fun a => match a with
  | ⟨0, _⟩ => ⟨0, Nat.one_pos⟩
  | ⟨1, _⟩ => ⟨(i 1).val, (i 1).isLt⟩

theorem val_main_v113_apply (i : S100000x64.Idx) :
    val_main_v113 (F := F) x7 i = val_main_v112 (F := F) x7 (idx_main_v113 i) := by
  unfold val_main_v113
  generalize val_main_v112 (F := F) x7 = y
  exact broadcastInDim_apply _ bcast_S1x64_S100000x64_0_1 y i (idx_main_v113 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v114 : (⟨S100000x64, .f32⟩ : BufTy).Contents (Elt F) :=
  addf (val_main_v111 (F := F) x0 x1 x2 x3 x4 x5 x6 x8 x9) (val_main_v113 (F := F) x7)

theorem val_main_v114_apply (i : S100000x64.Idx) :
    val_main_v114 (F := F) x0 x1 x2 x3 x4 x5 x6 x7 x8 x9 i = FloatOps.addf (val_main_v111 (F := F) x0 x1 x2 x3 x4 x5 x6 x8 x9 i) (val_main_v113 (F := F) x7 i) := rfl

def val_main_call2_cst : (⟨S_, .f32⟩ : BufTy).Contents (Elt F) :=
  constant S_ .f32 0x00000000#32

theorem val_main_call2_cst_apply (i : S_.Idx) :
    val_main_call2_cst (F := F) i = FloatOps.ofBits .f32 0x00000000#32 := rfl

def val_main_call2_v0 : (⟨S100000x64, .f32⟩ : BufTy).Contents (Elt F) :=
  broadcastInDim S100000x64 ![] bcast_S_S100000x64 (val_main_call2_cst (F := F))

abbrev idx_main_call2_v0 (i : S100000x64.Idx) : S_.Idx := fun a => a.elim0

theorem val_main_call2_v0_apply (i : S100000x64.Idx) :
    val_main_call2_v0 (F := F) i = val_main_call2_cst (F := F) (idx_main_call2_v0 i) := by
  unfold val_main_call2_v0
  generalize val_main_call2_cst (F := F) = y
  exact broadcastInDim_apply _ bcast_S_S100000x64 y i (idx_main_call2_v0 i) (fun a => a.elim0)

def val_main_v115 : (⟨S100000x64, .f32⟩ : BufTy).Contents (Elt F) :=
  maximumf (val_main_v114 (F := F) x0 x1 x2 x3 x4 x5 x6 x7 x8 x9) (val_main_call2_v0 (F := F))

theorem val_main_v115_apply (i : S100000x64.Idx) :
    val_main_v115 (F := F) x0 x1 x2 x3 x4 x5 x6 x7 x8 x9 i = FloatOps.maximumf (val_main_v114 (F := F) x0 x1 x2 x3 x4 x5 x6 x7 x8 x9 i) (val_main_call2_v0 (F := F) i) := rfl

def val_main_v116 : (⟨S1x64, .f32⟩ : BufTy).Contents (Elt F) :=
  extractStridedSlice S1x64 ![0, 0] (val_main_v115 (F := F) x0 x1 x2 x3 x4 x5 x6 x7 x8 x9) slices_S100000x64_S1x64_0_0

abbrev idx_main_v116 (i : S1x64.Idx) : S100000x64.Idx := fun a => match a with
  | ⟨0, _⟩ => ⟨(i 0).val, by have h0 : (i 0).val < 1 := (i 0).isLt; show (i 0).val < 100000; omega⟩
  | ⟨1, _⟩ => ⟨(i 1).val, (i 1).isLt⟩

theorem val_main_v116_apply (i : S1x64.Idx) :
    val_main_v116 (F := F) x0 x1 x2 x3 x4 x5 x6 x7 x8 x9 i = val_main_v115 (F := F) x0 x1 x2 x3 x4 x5 x6 x7 x8 x9 (idx_main_v116 i) := by
  unfold val_main_v116
  generalize val_main_v115 (F := F) x0 x1 x2 x3 x4 x5 x6 x7 x8 x9 = y
  exact extractStridedSlice_apply ![0, 0] y slices_S100000x64_S1x64_0_0 i (idx_main_v116 i) (fun a => match a with
    | ⟨0, _⟩ => by show (i 0).val = 0 + (i 0).val; omega
    | ⟨1, _⟩ => by show (i 1).val = 0 + (i 1).val; omega)

def val_main_v117 : (⟨S64, .f32⟩ : BufTy).Contents (Elt F) :=
  shapeCast _ (val_main_v116 (F := F) x0 x1 x2 x3 x4 x5 x6 x7 x8 x9) shapeCasts_S1x64_S64

abbrev idx_main_v117 (i : S64.Idx) : S1x64.Idx := fun a => match a with
  | ⟨0, _⟩ => ⟨0, Nat.one_pos⟩
  | ⟨1, _⟩ => ⟨((i 0).val) % 64, by have h0 : (i 0).val < 64 := (i 0).isLt; show ((i 0).val) % 64 < 64; omega⟩

theorem val_main_v117_apply (i : S64.Idx) :
    val_main_v117 (F := F) x0 x1 x2 x3 x4 x5 x6 x7 x8 x9 i = val_main_v116 (F := F) x0 x1 x2 x3 x4 x5 x6 x7 x8 x9 (idx_main_v117 i) := by
  unfold val_main_v117
  generalize val_main_v116 (F := F) x0 x1 x2 x3 x4 x5 x6 x7 x8 x9 = y
  exact shapeCast_apply y shapeCasts_S1x64_S64 i (idx_main_v117 i)
    (by rewrite [Shape.rowMajor_val_two, Shape.rowMajor_val_one]; have h0 : (i 0).val < 64 := (i 0).isLt; show 0 * 64 + ((i 0).val) % 64 = (i 0).val; omega)

def val_main_v118 : (⟨S1x64, .f32⟩ : BufTy).Contents (Elt F) :=
  extractStridedSlice S1x64 ![1, 0] (val_main_v115 (F := F) x0 x1 x2 x3 x4 x5 x6 x7 x8 x9) slices_S100000x64_S1x64_1_0

abbrev idx_main_v118 (i : S1x64.Idx) : S100000x64.Idx := fun a => match a with
  | ⟨0, _⟩ => ⟨1 + (i 0).val, by have h0 : (i 0).val < 1 := (i 0).isLt; show 1 + (i 0).val < 100000; omega⟩
  | ⟨1, _⟩ => ⟨(i 1).val, (i 1).isLt⟩

theorem val_main_v118_apply (i : S1x64.Idx) :
    val_main_v118 (F := F) x0 x1 x2 x3 x4 x5 x6 x7 x8 x9 i = val_main_v115 (F := F) x0 x1 x2 x3 x4 x5 x6 x7 x8 x9 (idx_main_v118 i) := by
  unfold val_main_v118
  generalize val_main_v115 (F := F) x0 x1 x2 x3 x4 x5 x6 x7 x8 x9 = y
  exact extractStridedSlice_apply ![1, 0] y slices_S100000x64_S1x64_1_0 i (idx_main_v118 i) (fun a => match a with
    | ⟨0, _⟩ => by show 1 + (i 0).val = 1 + (i 0).val; omega
    | ⟨1, _⟩ => by show (i 1).val = 0 + (i 1).val; omega)

def val_main_v119 : (⟨S64, .f32⟩ : BufTy).Contents (Elt F) :=
  shapeCast _ (val_main_v118 (F := F) x0 x1 x2 x3 x4 x5 x6 x7 x8 x9) shapeCasts_S1x64_S64

abbrev idx_main_v119 (i : S64.Idx) : S1x64.Idx := fun a => match a with
  | ⟨0, _⟩ => ⟨0, Nat.one_pos⟩
  | ⟨1, _⟩ => ⟨((i 0).val) % 64, by have h0 : (i 0).val < 64 := (i 0).isLt; show ((i 0).val) % 64 < 64; omega⟩

theorem val_main_v119_apply (i : S64.Idx) :
    val_main_v119 (F := F) x0 x1 x2 x3 x4 x5 x6 x7 x8 x9 i = val_main_v118 (F := F) x0 x1 x2 x3 x4 x5 x6 x7 x8 x9 (idx_main_v119 i) := by
  unfold val_main_v119
  generalize val_main_v118 (F := F) x0 x1 x2 x3 x4 x5 x6 x7 x8 x9 = y
  exact shapeCast_apply y shapeCasts_S1x64_S64 i (idx_main_v119 i)
    (by rewrite [Shape.rowMajor_val_two, Shape.rowMajor_val_one]; have h0 : (i 0).val < 64 := (i 0).isLt; show 0 * 64 + ((i 0).val) % 64 = (i 0).val; omega)

def val_main_v120 : (⟨S99998x64, .f32⟩ : BufTy).Contents (Elt F) :=
  extractStridedSlice S99998x64 ![2, 0] (val_main_v115 (F := F) x0 x1 x2 x3 x4 x5 x6 x7 x8 x9) slices_S100000x64_S99998x64_2_0

abbrev idx_main_v120 (i : S99998x64.Idx) : S100000x64.Idx := fun a => match a with
  | ⟨0, _⟩ => ⟨2 + (i 0).val, by have h0 : (i 0).val < 99998 := (i 0).isLt; show 2 + (i 0).val < 100000; omega⟩
  | ⟨1, _⟩ => ⟨(i 1).val, (i 1).isLt⟩

theorem val_main_v120_apply (i : S99998x64.Idx) :
    val_main_v120 (F := F) x0 x1 x2 x3 x4 x5 x6 x7 x8 x9 i = val_main_v115 (F := F) x0 x1 x2 x3 x4 x5 x6 x7 x8 x9 (idx_main_v120 i) := by
  unfold val_main_v120
  generalize val_main_v115 (F := F) x0 x1 x2 x3 x4 x5 x6 x7 x8 x9 = y
  exact extractStridedSlice_apply ![2, 0] y slices_S100000x64_S99998x64_2_0 i (idx_main_v120 i) (fun a => match a with
    | ⟨0, _⟩ => by show 2 + (i 0).val = 2 + (i 0).val; omega
    | ⟨1, _⟩ => by show (i 1).val = 0 + (i 1).val; omega)

def val_main_cst_27 : (⟨S_, .f32⟩ : BufTy).Contents (Elt F) :=
  constant S_ .f32 0x00000000#32

theorem val_main_cst_27_apply (i : S_.Idx) :
    val_main_cst_27 (F := F) i = FloatOps.ofBits .f32 0x00000000#32 := rfl

def val_main_v121 : (⟨S64, .f32⟩ : BufTy).Contents (Elt F) :=
  Host.reduceAdd (val_main_v120 (F := F) x0 x1 x2 x3 x4 x5 x6 x7 x8 x9) (val_main_cst_27 (F := F)) reducesTo_S99998x64_S64_d0 h_S_

abbrev idx_main_v121 (i : S64.Idx) (k : Fin 99998) : S99998x64.Idx := fun a => match a with
  | ⟨0, _⟩ => ⟨k.val, k.isLt⟩
  | ⟨1, _⟩ => ⟨(i 0).val, (i 0).isLt⟩

theorem val_main_v121_apply (x0 : (⟨S100000x32, .f32⟩ : BufTy).Contents (Elt Ideal)) (x1 x2 x3 : (⟨S1250000, .i32⟩ : BufTy).Contents (Elt Ideal)) (x4 : (⟨S32x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 x9 : (⟨S4, .f32⟩ : BufTy).Contents (Elt Ideal)) (i : S64.Idx) :
    val_main_v121 (F := Ideal) x0 x1 x2 x3 x4 x5 x6 x7 x8 x9 i = (val_main_cst_27 (F := Ideal)) (Shape.Idx.first h_S_) + ∑ k : Fin 99998, (val_main_v120 (F := Ideal) x0 x1 x2 x3 x4 x5 x6 x7 x8 x9) (idx_main_v121 i k) := by
  unfold val_main_v121
  generalize val_main_v120 (F := Ideal) x0 x1 x2 x3 x4 x5 x6 x7 x8 x9 = y0
  simp only [Host.reduceAdd, Ideal.hostReduceAdd_def]
  rw [Ideal.hostReduceAdd_single reducesTo_S99998x64_S64_d0 (by decide)]
  refine congrArg (_ + ·) (Finset.sum_congr rfl fun k _ => ?_)
  exact congrArg y0 (funext fun a => Fin.ext (by match a with | ⟨0, _⟩ => rfl | ⟨1, _⟩ => rfl))

def val_main_cst_28 : (⟨S_, .f32⟩ : BufTy).Contents (Elt F) :=
  constant S_ .f32 0x47C34F00#32

theorem val_main_cst_28_apply (i : S_.Idx) :
    val_main_cst_28 (F := F) i = FloatOps.ofBits .f32 0x47C34F00#32 := rfl

def val_main_v122 : (⟨S64, .f32⟩ : BufTy).Contents (Elt F) :=
  broadcastInDim S64 ![] bcast_S_S64 (val_main_cst_28 (F := F))

abbrev idx_main_v122 (i : S64.Idx) : S_.Idx := fun a => a.elim0

theorem val_main_v122_apply (i : S64.Idx) :
    val_main_v122 (F := F) i = val_main_cst_28 (F := F) (idx_main_v122 i) := by
  unfold val_main_v122
  generalize val_main_cst_28 (F := F) = y
  exact broadcastInDim_apply _ bcast_S_S64 y i (idx_main_v122 i) (fun a => a.elim0)

def val_main_v123 : (⟨S64, .f32⟩ : BufTy).Contents (Elt F) :=
  Host.divf (val_main_v121 (F := F) x0 x1 x2 x3 x4 x5 x6 x7 x8 x9) (val_main_v122 (F := F))

theorem val_main_v123_apply (i : S64.Idx) :
    val_main_v123 (F := F) x0 x1 x2 x3 x4 x5 x6 x7 x8 x9 i = FloatOps.hostDivf (val_main_v121 (F := F) x0 x1 x2 x3 x4 x5 x6 x7 x8 x9 i) (val_main_v122 (F := F) i) := rfl

def val_main_v124 : (⟨S99998x64, .f32⟩ : BufTy).Contents (Elt F) :=
  extractStridedSlice S99998x64 ![2, 0] (val_main_v115 (F := F) x0 x1 x2 x3 x4 x5 x6 x7 x8 x9) slices_S100000x64_S99998x64_2_0

abbrev idx_main_v124 (i : S99998x64.Idx) : S100000x64.Idx := fun a => match a with
  | ⟨0, _⟩ => ⟨2 + (i 0).val, by have h0 : (i 0).val < 99998 := (i 0).isLt; show 2 + (i 0).val < 100000; omega⟩
  | ⟨1, _⟩ => ⟨(i 1).val, (i 1).isLt⟩

theorem val_main_v124_apply (i : S99998x64.Idx) :
    val_main_v124 (F := F) x0 x1 x2 x3 x4 x5 x6 x7 x8 x9 i = val_main_v115 (F := F) x0 x1 x2 x3 x4 x5 x6 x7 x8 x9 (idx_main_v124 i) := by
  unfold val_main_v124
  generalize val_main_v115 (F := F) x0 x1 x2 x3 x4 x5 x6 x7 x8 x9 = y
  exact extractStridedSlice_apply ![2, 0] y slices_S100000x64_S99998x64_2_0 i (idx_main_v124 i) (fun a => match a with
    | ⟨0, _⟩ => by show 2 + (i 0).val = 2 + (i 0).val; omega
    | ⟨1, _⟩ => by show (i 1).val = 0 + (i 1).val; omega)

def val_main_cst_29 : (⟨S_, .f32⟩ : BufTy).Contents (Elt F) :=
  constant S_ .f32 0xFF800000#32

theorem val_main_cst_29_apply (i : S_.Idx) :
    val_main_cst_29 (F := F) i = FloatOps.ofBits .f32 0xFF800000#32 := rfl

def val_main_v125 : (⟨S64, .f32⟩ : BufTy).Contents (Elt F) :=
  Host.reduce FloatOps.maximumf (val_main_v124 (F := F) x0 x1 x2 x3 x4 x5 x6 x7 x8 x9) (val_main_cst_29 (F := F)) reducesTo_S99998x64_S64_d0 h_S_

def val_main_v126 : (⟨S99998x64, .f32⟩ : BufTy).Contents (Elt F) :=
  extractStridedSlice S99998x64 ![2, 0] (val_main_v115 (F := F) x0 x1 x2 x3 x4 x5 x6 x7 x8 x9) slices_S100000x64_S99998x64_2_0

abbrev idx_main_v126 (i : S99998x64.Idx) : S100000x64.Idx := fun a => match a with
  | ⟨0, _⟩ => ⟨2 + (i 0).val, by have h0 : (i 0).val < 99998 := (i 0).isLt; show 2 + (i 0).val < 100000; omega⟩
  | ⟨1, _⟩ => ⟨(i 1).val, (i 1).isLt⟩

theorem val_main_v126_apply (i : S99998x64.Idx) :
    val_main_v126 (F := F) x0 x1 x2 x3 x4 x5 x6 x7 x8 x9 i = val_main_v115 (F := F) x0 x1 x2 x3 x4 x5 x6 x7 x8 x9 (idx_main_v126 i) := by
  unfold val_main_v126
  generalize val_main_v115 (F := F) x0 x1 x2 x3 x4 x5 x6 x7 x8 x9 = y
  exact extractStridedSlice_apply ![2, 0] y slices_S100000x64_S99998x64_2_0 i (idx_main_v126 i) (fun a => match a with
    | ⟨0, _⟩ => by show 2 + (i 0).val = 2 + (i 0).val; omega
    | ⟨1, _⟩ => by show (i 1).val = 0 + (i 1).val; omega)

def val_main_cst_30 : (⟨S_, .f32⟩ : BufTy).Contents (Elt F) :=
  constant S_ .f32 0x7F800000#32

theorem val_main_cst_30_apply (i : S_.Idx) :
    val_main_cst_30 (F := F) i = FloatOps.ofBits .f32 0x7F800000#32 := rfl

def val_main_v127 : (⟨S64, .f32⟩ : BufTy).Contents (Elt F) :=
  Host.reduce FloatOps.minimumf (val_main_v126 (F := F) x0 x1 x2 x3 x4 x5 x6 x7 x8 x9) (val_main_cst_30 (F := F)) reducesTo_S99998x64_S64_d0 h_S_

def val_main_v128 : (⟨S1x64, .f32⟩ : BufTy).Contents (Elt F) :=
  broadcastInDim S1x64 ![1] bcast_S64_S1x64_1 (val_main_v117 (F := F) x0 x1 x2 x3 x4 x5 x6 x7 x8 x9)

abbrev idx_main_v128 (i : S1x64.Idx) : S64.Idx := fun a => match a with
  | ⟨0, _⟩ => ⟨(i 1).val, (i 1).isLt⟩

theorem val_main_v128_apply (i : S1x64.Idx) :
    val_main_v128 (F := F) x0 x1 x2 x3 x4 x5 x6 x7 x8 x9 i = val_main_v117 (F := F) x0 x1 x2 x3 x4 x5 x6 x7 x8 x9 (idx_main_v128 i) := by
  unfold val_main_v128
  generalize val_main_v117 (F := F) x0 x1 x2 x3 x4 x5 x6 x7 x8 x9 = y
  exact broadcastInDim_apply _ bcast_S64_S1x64_1 y i (idx_main_v128 i) (fun a => match a with
    | ⟨0, _⟩ => by show (i 1).val = if (64 : Nat) = 1 then 0 else (i 1).val; rw [if_neg (by decide)])

def val_main_v129 : (⟨S1x64, .f32⟩ : BufTy).Contents (Elt F) :=
  broadcastInDim S1x64 ![1] bcast_S64_S1x64_1 (val_main_v119 (F := F) x0 x1 x2 x3 x4 x5 x6 x7 x8 x9)

abbrev idx_main_v129 (i : S1x64.Idx) : S64.Idx := fun a => match a with
  | ⟨0, _⟩ => ⟨(i 1).val, (i 1).isLt⟩

theorem val_main_v129_apply (i : S1x64.Idx) :
    val_main_v129 (F := F) x0 x1 x2 x3 x4 x5 x6 x7 x8 x9 i = val_main_v119 (F := F) x0 x1 x2 x3 x4 x5 x6 x7 x8 x9 (idx_main_v129 i) := by
  unfold val_main_v129
  generalize val_main_v119 (F := F) x0 x1 x2 x3 x4 x5 x6 x7 x8 x9 = y
  exact broadcastInDim_apply _ bcast_S64_S1x64_1 y i (idx_main_v129 i) (fun a => match a with
    | ⟨0, _⟩ => by show (i 1).val = if (64 : Nat) = 1 then 0 else (i 1).val; rw [if_neg (by decide)])

def val_main_v130 : (⟨S1x64, .f32⟩ : BufTy).Contents (Elt F) :=
  broadcastInDim S1x64 ![1] bcast_S64_S1x64_1 (val_main_v123 (F := F) x0 x1 x2 x3 x4 x5 x6 x7 x8 x9)

abbrev idx_main_v130 (i : S1x64.Idx) : S64.Idx := fun a => match a with
  | ⟨0, _⟩ => ⟨(i 1).val, (i 1).isLt⟩

theorem val_main_v130_apply (i : S1x64.Idx) :
    val_main_v130 (F := F) x0 x1 x2 x3 x4 x5 x6 x7 x8 x9 i = val_main_v123 (F := F) x0 x1 x2 x3 x4 x5 x6 x7 x8 x9 (idx_main_v130 i) := by
  unfold val_main_v130
  generalize val_main_v123 (F := F) x0 x1 x2 x3 x4 x5 x6 x7 x8 x9 = y
  exact broadcastInDim_apply _ bcast_S64_S1x64_1 y i (idx_main_v130 i) (fun a => match a with
    | ⟨0, _⟩ => by show (i 1).val = if (64 : Nat) = 1 then 0 else (i 1).val; rw [if_neg (by decide)])

def val_main_v131 : (⟨S1x64, .f32⟩ : BufTy).Contents (Elt F) :=
  broadcastInDim S1x64 ![1] bcast_S64_S1x64_1 (val_main_v125 (F := F) x0 x1 x2 x3 x4 x5 x6 x7 x8 x9)

abbrev idx_main_v131 (i : S1x64.Idx) : S64.Idx := fun a => match a with
  | ⟨0, _⟩ => ⟨(i 1).val, (i 1).isLt⟩

theorem val_main_v131_apply (i : S1x64.Idx) :
    val_main_v131 (F := F) x0 x1 x2 x3 x4 x5 x6 x7 x8 x9 i = val_main_v125 (F := F) x0 x1 x2 x3 x4 x5 x6 x7 x8 x9 (idx_main_v131 i) := by
  unfold val_main_v131
  generalize val_main_v125 (F := F) x0 x1 x2 x3 x4 x5 x6 x7 x8 x9 = y
  exact broadcastInDim_apply _ bcast_S64_S1x64_1 y i (idx_main_v131 i) (fun a => match a with
    | ⟨0, _⟩ => by show (i 1).val = if (64 : Nat) = 1 then 0 else (i 1).val; rw [if_neg (by decide)])

def val_main_v132 : (⟨S1x64, .f32⟩ : BufTy).Contents (Elt F) :=
  broadcastInDim S1x64 ![1] bcast_S64_S1x64_1 (val_main_v127 (F := F) x0 x1 x2 x3 x4 x5 x6 x7 x8 x9)

abbrev idx_main_v132 (i : S1x64.Idx) : S64.Idx := fun a => match a with
  | ⟨0, _⟩ => ⟨(i 1).val, (i 1).isLt⟩

theorem val_main_v132_apply (i : S1x64.Idx) :
    val_main_v132 (F := F) x0 x1 x2 x3 x4 x5 x6 x7 x8 x9 i = val_main_v127 (F := F) x0 x1 x2 x3 x4 x5 x6 x7 x8 x9 (idx_main_v132 i) := by
  unfold val_main_v132
  generalize val_main_v127 (F := F) x0 x1 x2 x3 x4 x5 x6 x7 x8 x9 = y
  exact broadcastInDim_apply _ bcast_S64_S1x64_1 y i (idx_main_v132 i) (fun a => match a with
    | ⟨0, _⟩ => by show (i 1).val = if (64 : Nat) = 1 then 0 else (i 1).val; rw [if_neg (by decide)])

def val_main_v133 : (⟨S5x64, .f32⟩ : BufTy).Contents (Elt F) :=
  concatenate S5x64 0 [⟨S1x64, (val_main_v128 (F := F) x0 x1 x2 x3 x4 x5 x6 x7 x8 x9)⟩, ⟨S1x64, (val_main_v129 (F := F) x0 x1 x2 x3 x4 x5 x6 x7 x8 x9)⟩, ⟨S1x64, (val_main_v130 (F := F) x0 x1 x2 x3 x4 x5 x6 x7 x8 x9)⟩, ⟨S1x64, (val_main_v131 (F := F) x0 x1 x2 x3 x4 x5 x6 x7 x8 x9)⟩, ⟨S1x64, (val_main_v132 (F := F) x0 x1 x2 x3 x4 x5 x6 x7 x8 x9)⟩] concatenates_S1x64_S1x64_S1x64_S1x64_S1x64_S5x64_d0

end Cert.ReferenceIdeal.Read

end
-- ==== Proof.KI.Dense1Ref.lean ====
-- The first dense layer is the reference's stage, index by index.
import proofs.«416059_j58626303591152_2_alg».proof.Proof.KI.Region0Value
import proofs.«416059_j58626303591152_2_alg».proof.Proof.RefP.Read
import Idealize.ShloMosaic.Lib.Pipeline.Value
import Idealize.ShloMosaic.Lib.ValueIdx
import Idealize.ShloMosaic.PureOps.Ideal.Laws

noncomputable section

namespace Cert.KernelIdeal.Hand

open Cert.KernelIdeal
open Idealize.ShloMosaic Idealize.ShloMosaic.TcCoe Idealize.ShloMosaic.ValueIdx
open Idealize.SL.Sem
open scoped BigOperators

section Reference
open Cert.ReferenceIdeal.Read

theorem dense1_ref (x0 : FVec Ideal S100000x32 .f32) (x1 x2 x3 : IVec S1250000 32) (x4 : FVec Ideal S32x64 .f32) (x5 : FVec Ideal S64 .f32)
    (x8 x9 : FVec Ideal S4 .f32) (norms : FVec Ideal S100000x2 .f32)
    (h0 : ∀ p : Fin 100000, norms (ix2 p (0 : Fin 2)) = Cert.ReferenceIdeal.Read.val_main_v87 (F := Ideal) x1 (ix1 p))
    (h1 : ∀ p : Fin 100000, norms (ix2 p (1 : Fin 2)) = Cert.ReferenceIdeal.Read.val_main_v52 (F := Ideal) x2 (ix1 p))
    (b : FVec Ideal S1x64 .f32) (hb : ∀ q : Fin 64, b (ix2 (0 : Fin 1) q) = x5 (ix1 q)) :
    dense1 (Cert.ReferenceIdeal.Read.val_main_v68 (F := Ideal) x0 x1 x2 x3 x8 x9) norms x4 b
      = Cert.ReferenceIdeal.Read.val_main_v94 (F := Ideal) x0 x1 x2 x3 x4 x5 x8 x9 := by
  funext i
  obtain ⟨p, q, rfl⟩ : ∃ (p : Fin 100000) (q : Fin 64), i = ix2 p q := ⟨i 0, i 1, eq_ix2 i⟩
  have el : ∀ k : Fin 32, lidx_main_v72 (ix2 p q) k = ix2 p k := fun k =>
    funext fun a => Fin.ext (by match a with | ⟨0, _⟩ => rfl | ⟨1, _⟩ => rfl)
  have er : ∀ k : Fin 32, ridx_main_v72 (ix2 p q) k = ix2 k q := fun k =>
    funext fun a => Fin.ext (by match a with | ⟨0, _⟩ => rfl | ⟨1, _⟩ => rfl)
  have en : ∀ k : Fin 32, idx_main_v69 (idx_main_v70 (ix2 p k)) = ix1 p := fun k =>
    funext fun a => Fin.ext (by match a with | ⟨0, _⟩ => rfl)
  have eb : idx_main_v73 (idx_main_v74 (ix2 p q)) = ix1 q :=
    funext fun a => Fin.ext (by match a with | ⟨0, _⟩ => rfl)
  have es : idx_main_v92 (idx_main_v93 (ix2 p q)) = ix1 p :=
    funext fun a => Fin.ext (by match a with | ⟨0, _⟩ => rfl)
  rw [val_main_v94_apply, val_main_v76_apply, val_main_v75_apply, val_main_v72_apply, val_main_v74_apply, val_main_v73_apply,
    val_main_call1_v0_apply, val_main_call1_cst_apply, val_main_v93_apply, val_main_v92_apply]
  simp only [val_main_v71_apply, val_main_v70_apply, val_main_v69_apply, el, er, en, eb, es]
  show denseAt _ norms x4 b p q = _
  unfold denseAt
  rw [h0 p, h1 p, hb q]
  simp only [Ideal.mulf_def, Ideal.addf_def, Ideal.maximumf_def, Ideal.ofBits_def, Ideal.ofBits_zero_f32]

end Reference

end Cert.KernelIdeal.Hand

end
-- ==== Proof.KI.Region1Write.lean ====
-- The five rows written at the first and the last grid point cover the result array.
import proofs.«416059_j58626303591152_2_alg».proof.Proof.KI.Region1Data
import Idealize.ShloMosaic.Lib.Pipeline.Value

set_option maxRecDepth 16384

noncomputable section

namespace Cert.KernelIdeal.Hand

open Idealize.ShloMosaic Idealize.ShloMosaic.TcCoe
open Cert.KernelIdeal Cert.KernelIdeal.Gen

theorem idx_facts4 : ∀ t : Fin cfg1.N, win1_4.index t (0 : Fin 2) = 0 ∧ win1_4.index t (1 : Fin 2) = 0 :=
  (by decide +kernel : ∀ t : Fin grid1.N, _)

theorem write_whole4 {F : FTy → Type} [FloatOps F] (c : Dev nD)
    (A : Buf (Elt F) ((cfg1.win 4).arr.view.loc (c.tc : Thread nD τ))) (X : Vec F S5x64 .f32) :
    ((cfg1.win 4).blk t1_9).view.write (Elt F) A X Finset.univ = X := by
  obtain ⟨e0, e1⟩ := idx_facts4 t1_9
  funext i
  have hi : ((cfg1.win 4).blk t1_9).view.emb (show S5x64.Idx from i) = i := by
    funext a; apply Fin.ext
    match a with
    | ⟨0, _⟩ => show win1_4.index t1_9 (0 : Fin 2) * 5 + 1 * (i 0).val = (i 0).val; omega
    | ⟨1, _⟩ => show win1_4.index t1_9 (1 : Fin 2) * 64 + 1 * (i 1).val = (i 1).val; omega
  conv_lhs => rw [← hi]
  rw [View.write_emb_of_mem _ _ (Finset.mem_univ _)]
  rfl

end Cert.KernelIdeal.Hand

end
-- ==== Proof.KI.Region1Value.lean ====
-- Sums, suprema and infima over ten blocks of rows regroup to those over all rows from 2 on, so the region's result is the statistics of the dense layer.
import proofs.«416059_j58626303591152_2_alg».proof.Proof.KI.Region1Data
import proofs.«416059_j58626303591152_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.Hand

open Idealize.ShloMosaic Idealize.ShloMosaic.TcCoe
open Idealize.ShloMosaic.ValueIdx
open Idealize.ShloMosaic.StableHlo.Predicate
open Cert.KernelIdeal Cert.KernelIdeal.Gen
open Cert.Hand

namespace Stats

section Blocks

theorem sum_blocks_step {M : Type*} [AddCommMonoid M] (g : ℕ → M) (B t : ℕ) :
    (∑ i ∈ Finset.range (B * t), g i) + ∑ r : Fin B, g (B * t + r.val) = ∑ i ∈ Finset.range (B * (t + 1)), g i := by
  rw [Nat.mul_succ, Finset.sum_range_add, Finset.sum_range (fun x => g (B * t + x))]

theorem sum_drop_two {M : Type*} [AddCommMonoid M] (d : ℕ → M) (N : ℕ) :
    ∑ i ∈ Finset.range (2 + N), (if 2 ≤ i then d i else 0) = ∑ k : Fin N, d (2 + k.val) := by
  rw [Finset.sum_range_add, Finset.sum_range_succ, Finset.sum_range_one, if_neg (by omega), if_neg (by omega), add_zero, zero_add,
    Finset.sum_range]
  exact Finset.sum_congr rfl fun k _ => if_pos (by omega)

variable {α : Type*} [CompleteLinearOrder α]

theorem sup_blocks_step (g : ℕ → α) (B t : ℕ) :
    max (⨆ i, ⨆ (_ : i < B * t), g i) (⨆ r : Fin B, g (B * t + r.val)) = ⨆ i, ⨆ (_ : i < B * (t + 1)), g i := by
  apply le_antisymm
  · apply max_le
    · exact iSup₂_le fun i hi => le_iSup₂_of_le i (by rw [Nat.mul_succ]; omega) le_rfl
    · exact iSup_le fun r => le_iSup₂_of_le (B * t + r.val) (by rw [Nat.mul_succ]; have := r.isLt; omega) le_rfl
  · refine iSup₂_le fun i hi => ?_
    by_cases h : i < B * t
    · exact le_max_of_le_left (le_iSup₂_of_le i h le_rfl)
    · refine le_max_of_le_right (le_iSup_of_le ⟨i - B * t, by rw [Nat.mul_succ] at hi; omega⟩ ?_)
      show g i ≤ g (B * t + (i - B * t))
      rw [Nat.add_sub_cancel' (Nat.le_of_not_lt h)]

theorem sup_drop_two (d : ℕ → α) (N : ℕ) :
    (⨆ i, ⨆ (_ : i < 2 + N), (if 2 ≤ i then d i else ⊥)) = ⨆ k : Fin N, d (2 + k.val) := by
  apply le_antisymm
  · refine iSup₂_le fun i hi => ?_
    by_cases h2 : 2 ≤ i
    · rw [if_pos h2]
      refine le_iSup_of_le ⟨i - 2, by omega⟩ ?_
      show d i ≤ d (2 + (i - 2))
      rw [Nat.add_sub_cancel' h2]
    · rw [if_neg h2]; exact bot_le
  · exact iSup_le fun k => le_iSup₂_of_le (2 + k.val) (by have := k.isLt; omega) (by rw [if_pos (by omega)])

theorem sup_below_zero (g : ℕ → α) (B : ℕ) : (⨆ i, ⨆ (_ : i < B * 0), g i) = ⊥ :=
  le_antisymm (iSup₂_le fun i hi => absurd hi (by rw [Nat.mul_zero]; exact Nat.not_lt_zero i)) bot_le

-- the statements for infima are those for suprema in the order dual
theorem inf_blocks_step (g : ℕ → α) (B t : ℕ) :
    min (⨅ i, ⨅ (_ : i < B * t), g i) (⨅ r : Fin B, g (B * t + r.val)) = ⨅ i, ⨅ (_ : i < B * (t + 1)), g i :=
  sup_blocks_step (α := αᵒᵈ) g B t

theorem inf_drop_two (d : ℕ → α) (N : ℕ) :
    (⨅ i, ⨅ (_ : i < 2 + N), (if 2 ≤ i then d i else ⊤)) = ⨅ k : Fin N, d (2 + k.val) :=
  sup_drop_two (α := αᵒᵈ) d N

theorem inf_below_zero (g : ℕ → α) (B : ℕ) : (⨅ i, ⨅ (_ : i < B * 0), g i) = ⊤ :=
  sup_below_zero (α := αᵒᵈ) g B

theorem fold_max_bot_eq_iSup {ι : Type*} [Fintype ι] (f : ι → α) : (Finset.univ : Finset ι).fold max ⊥ f = ⨆ i, f i := by
  apply le_antisymm
  · induction (Finset.univ : Finset ι) using Finset.cons_induction with
    | empty => rw [Finset.fold_empty]; exact bot_le
    | cons a S ha ih => rw [Finset.fold_cons]; exact max_le (le_iSup f a) ih
  · refine iSup_le fun i => ?_
    have : ∀ S : Finset ι, i ∈ S → f i ≤ S.fold max ⊥ f := by
      intro S
      induction S using Finset.cons_induction with
      | empty => intro h; exact absurd h (Finset.notMem_empty i)
      | cons a S ha ih =>
        intro h
        rw [Finset.fold_cons]
        rcases Finset.mem_cons.mp h with rfl | h'
        · exact le_max_left _ _
        · exact le_max_of_le_right (ih h')
    exact this _ (Finset.mem_univ i)

theorem fold_min_top_eq_iInf {ι : Type*} [Fintype ι] (f : ι → α) : (Finset.univ : Finset ι).fold min ⊤ f = ⨅ i, f i :=
  fold_max_bot_eq_iSup (α := αᵒᵈ) f

theorem fold_max_eq_iSup {ι : Type*} [Fintype ι] (z : α) (hz : z = ⊥) (f : ι → α) : (Finset.univ : Finset ι).fold max z f = ⨆ i, f i := by
  subst hz; exact fold_max_bot_eq_iSup f

theorem fold_min_eq_iInf {ι : Type*} [Fintype ι] (z : α) (hz : z = ⊤) (f : ι → α) : (Finset.univ : Finset ι).fold min z f = ⨅ i, f i := by
  subst hz; exact fold_min_top_eq_iInf f

end Blocks

theorem lhs_dense_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dense_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_dense_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_dense_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem matmul_dense_apply (x : FVec Ideal S10000x64 .f32) (w : FVec Ideal S64x64 .f32) (r : Fin 10000) (q : Fin 64) :
    matmul dot_S10000x64_S64x64_S10000x64_1_0_0_1_n_n none x w (constant (F := Ideal) S10000x64 .f32 0x00000000#32) (ix2 r q)
      = ∑ k : Fin 64, x (ix2 r k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r q) ((ValueIdx.contrEquiv1 dot_S10000x64_S64x64_S10000x64_1_0_0_1_n_n 64 rfl rfl).symm k) = ix2 r k := funext fun a => Fin.ext (by
    match a with
    | ⟨0, _⟩ => exact lhs_dense_0 _ _
    | ⟨1, _⟩ => exact (lhs_dense_1 _ _).trans hk)
  have er : dot_S10000x64_S64x64_S10000x64_1_0_0_1_n_n.rhsIdx (ix2 r q) ((ValueIdx.contrEquiv1 dot_S10000x64_S64x64_S10000x64_1_0_0_1_n_n 64 rfl rfl).symm k) = ix2 k q := funext fun a => Fin.ext (by
    match a with
    | ⟨0, _⟩ => exact (rhs_dense_0 _ _).trans hk
    | ⟨1, _⟩ => exact rhs_dense_1 _ _)
  rw [el, er]

theorem bcast_col_apply (v : FVec Ideal S10000x1 .f32) (r : Fin 10000) (k : Fin 64) :
    broadcastTo S10000x64 v broadcasts_S10000x1_S10000x64 (ix2 r k) = v (ix2 r (0 : Fin 1)) := by
  refine broadcastTo_apply v _ (ix2 r k) (ix2 r (0 : Fin 1)) fun ax => ?_
  match ax with
  | ⟨0, _⟩ =>
    show r.val = if (10000 : Nat) = 1 then 0 else r.val
    rw [if_neg (by decide)]
  | ⟨1, _⟩ =>
    show 0 = if (1 : Nat) = 1 then 0 else k.val
    rw [if_pos rfl]

theorem pay4_apply (v0 : Vec Ideal S10000x2 .f32) (v3 : Vec Ideal S10000x64 .f32) (v7 : Vec Ideal S64x64 .f32) (v9 : Vec Ideal S1x64 .f32)
    (r : Fin 10000) (q : Fin 64) :
    k1_pay4 (F := Ideal) v0 v3 v7 v9 (ix2 r q)
      = max ((∑ k : Fin 64, (v3 (ix2 r k) * v0 (ix2 r (1 : Fin 2))) * v7 (ix2 k q)) + v9 (ix2 (0 : Fin 1) q)) 0 := by
  unfold k1_pay4
  simp only [shapeCast_self]
  rw [maximumf_apply, addf_apply, matmul_dense_apply, broadcast_apply, broadcastTo_1b_ab_apply]
  show max (_ + _) (Ideal.ofBits .f32 0x00000000#32) = _
  rw [Ideal.ofBits_zero_f32]
  congr 2
  refine Finset.sum_congr rfl fun k _ => ?_
  rw [mulf_apply, bcast_col_apply, slice2_axis1_eq]
  rfl

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ (grid1.coords t 0).val = t.val ∧ t.val < 10 :=
  (by decide +kernel : ∀ t : Fin grid1.N, _)

abbrev arr0 (c : Dev nD) : Spec.A100000x64.Idx → EReal := V c (Pipeline.arrRef spec1 0)
abbrev arr1 (c : Dev nD) : Spec.A100000x2.Idx → EReal := V c (Pipeline.arrRef spec1 1)
abbrev arr2 (c : Dev nD) : Spec.A64x64.Idx → EReal := V c (Pipeline.arrRef spec1 2)
abbrev arr3 (c : Dev nD) : Spec.A1x64.Idx → EReal := V c (Pipeline.arrRef spec1 3)

theorem xb0_apply (c : Dev nD) (t : Fin cfg1.N) (r : Fin 10000) (k : Fin 64) (p : Fin 100000) (hp : p.val = 10000 * t.val + r.val) :
    xb0 V c t (ix2 r k) = arr0 V c (Spec.at2 p k) := by
  obtain ⟨e0, e1, -⟩ := idx_facts1 t
  show V c (Pipeline.arrRef spec1 0) (((cfg1.win 0).blk t).view.emb (ix2 r k)) = _
  refine congrArg _ (funext fun a => Fin.ext ?_)
  match a with
  | ⟨0, _⟩ => show win1_0.index t (0 : Fin 2) * 10000 + 1 * r.val = p.val; omega
  | ⟨1, _⟩ => show win1_0.index t (1 : Fin 2) * 64 + 1 * k.val = k.val; omega

theorem xb1_apply (c : Dev nD) (t : Fin cfg1.N) (r : Fin 10000) (k : Fin 2) (p : Fin 100000) (hp : p.val = 10000 * t.val + r.val) :
    xb1 V c t (ix2 r k) = arr1 V c (Spec.at2 p k) := by
  obtain ⟨-, -, e0, e1, -⟩ := idx_facts1 t
  show V c (Pipeline.arrRef spec1 1) (((cfg1.win 1).blk t).view.emb (ix2 r k)) = _
  refine congrArg _ (funext fun a => Fin.ext ?_)
  match a with
  | ⟨0, _⟩ => show win1_1.index t (0 : Fin 2) * 10000 + 1 * r.val = p.val; omega
  | ⟨1, _⟩ => show win1_1.index t (1 : Fin 2) * 2 + 1 * k.val = k.val; omega

theorem xb2_apply (c : Dev nD) (t : Fin cfg1.N) (k q : Fin 64) :
    xb2 V c t (ix2 k q) = arr2 V c (Spec.at2 k q) := by
  obtain ⟨-, -, -, -, e0, e1, -⟩ := idx_facts1 t
  show V c (Pipeline.arrRef spec1 2) (((cfg1.win 2).blk t).view.emb (ix2 k q)) = _
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

theorem xb3_apply (c : Dev nD) (t : Fin cfg1.N) (u : Fin 1) (q : Fin 64) :
    xb3 V c t (ix2 u q) = arr3 V c (Spec.at2 (0 : Fin 1) q) := by
  obtain ⟨-, -, -, -, -, -, e0, e1, -⟩ := idx_facts1 t
  show V c (Pipeline.arrRef spec1 3) (((cfg1.win 3).blk t).view.emb (ix2 u q)) = _
  refine congrArg _ (funext fun a => Fin.ext ?_)
  match a with
  | ⟨0, _⟩ => show win1_3.index t (0 : Fin 2) * 1 + 1 * u.val = 0; omega
  | ⟨1, _⟩ => show win1_3.index t (1 : Fin 2) * 64 + 1 * q.val = q.val; omega

abbrev dens (c : Dev nD) : Spec.A100000x64.Idx → EReal :=
  Spec.dense2 (arr0 V c) (arr1 V c) (arr2 V c) (arr3 V c)

theorem tile_apply (c : Dev nD) (t : Fin cfg1.N) (r : Fin 10000) (q : Fin 64) (p : Fin 100000) (hp : p.val = 10000 * t.val + r.val) :
    k1_pay4 (F := Ideal) (xb1 V c t) (xb0 V c t) (xb2 V c t) (xb3 V c t) (ix2 r q) = dens V c (Spec.at2 p q) := by
  rw [pay4_apply, xb1_apply V c t r 1 p hp, xb3_apply]
  show _ = max ((∑ k : Fin 64, (arr0 V c (Spec.at2 p k) * arr1 V c (Spec.at2 p (1 : Fin 2))) * arr2 V c (Spec.at2 k q)) + arr3 V c (Spec.at2 (0 : Fin 1) q)) 0
  refine congrArg (fun s => max (s + _) 0) (Finset.sum_congr rfl fun k _ => ?_)
  rw [xb0_apply V c t r k p hp, xb2_apply]

theorem pay10_apply (i : grid1.Coords) (n : ℕ) (hn : (i 0).val = n) (hn10 : n < 10) (r : Fin 10000) (q : Fin 64) :
    k1_pay10 i (ix2 r q) = if 2 ≤ 10000 * n + r.val then 1#1 else 0#1 := by
  unfold k1_pay10
  show IntOp.cmpi .sge (IntOp.addi (iota .tc S10000x64 32 [0] iota_S10000x64_d0_w32 (ix2 r q)) (Scalar.muli (BitVec.ofNat 32 (i 0).val) 10000#32)) 2#32 = _
  rw [iota_single_apply, hn]
  have hr := r.isLt
  have hw : (IntOp.addi (BitVec.ofNat 32 r.val) (Scalar.muli (BitVec.ofNat 32 n) 10000#32)).toNat = 10000 * n + r.val := by
    show (BitVec.ofNat 32 r.val + BitVec.ofNat 32 n * 10000#32).toNat = _
    rw [BitVec.toNat_add, BitVec.toNat_mul, BitVec.toNat_ofNat, BitVec.toNat_ofNat, BitVec.toNat_ofNat]
    simp only [Nat.reducePow]
    omega
  show IntOp.cmpi .sge (IntOp.addi (BitVec.ofNat 32 r.val) (Scalar.muli (BitVec.ofNat 32 n) 10000#32)) 2#32 = _
  have h2 : (2#32 : BitVec 32).toNat = 2 := rfl
  by_cases h : 2 ≤ 10000 * n + r.val
  · rw [if_pos h]
    exact (sge_iff_toNat (by rw [hw]; omega) (by decide)).2 (by rw [hw, h2]; exact h)
  · rw [if_neg h]
    refine eq_zero_of_ne_one fun h1 => h ?_
    have := (sge_iff_toNat (by rw [hw]; omega) (by decide)).1 h1
    rw [hw, h2] at this
    exact this

theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]

theorem lift_col (q : Fin 64) (r : Fin 10000) : reduces_S10000x64_S64.lift (ix1 q) r = ix2 r q :=
  funext fun a => Fin.ext (by match a with | ⟨0, _⟩ => rfl | ⟨1, _⟩ => rfl)

theorem colsum_apply (x : FVec Ideal S10000x64 .f32) (q : Fin 64) :
    multiReduction (F := Ideal) .add [0] S64 x 0x00000000#32 reduces_S10000x64_S64 (.inl rfl) rfl (ix1 q) = ∑ r : Fin 10000, x (ix2 r q) := by
  refine (Ideal.multiReduction_add_single x 0x00000000#32 reduces_S10000x64_S64 (.inl rfl) rfl (ix1 q)).trans ?_
  exact Finset.sum_congr rfl fun r _ => congrArg x (lift_col q r)

theorem colmax_apply (x : FVec Ideal S10000x64 .f32) (q : Fin 64) :
    multiReduction (F := Ideal) .maximumf [0] S64 x 0xFF800000#32 reduces_S10000x64_S64 (.inl rfl) rfl (ix1 q) = ⨆ r : Fin 10000, x (ix2 r q) := by
  refine (Ideal.multiReduction_maximumf_single x 0xFF800000#32 reduces_S10000x64_S64 (.inl rfl) rfl (ix1 q)).trans ?_
  exact (fold_max_eq_iSup _ ofBits_neg_inf_f32 _).trans (iSup_congr fun r => congrArg x (lift_col q r))

theorem colmin_apply (x : FVec Ideal S10000x64 .f32) (q : Fin 64) :
    multiReduction (F := Ideal) .minimumf [0] S64 x 0x7F800000#32 reduces_S10000x64_S64 (.inl rfl) rfl (ix1 q) = ⨅ r : Fin 10000, x (ix2 r q) := by
  refine (multiReduction_minimumf_eq_fold x 0x7F800000#32 reduces_S10000x64_S64 (.inl rfl) rfl (ix1 q)).trans ?_
  refine (reduces_S10000x64_S64.fold_filter_drop_single _ _ x (ix1 q)).trans ?_
  exact (fold_min_eq_iInf _ ofBits_pos_inf_f32 _).trans (iInf_congr fun r => congrArg x (lift_col q r))

theorem pay11_apply (i : grid1.Coords) (v0 : Vec Ideal S10000x2 .f32) (v3 : Vec Ideal S10000x64 .f32) (v7 : Vec Ideal S64x64 .f32)
    (v9 : Vec Ideal S1x64 .f32) (acc : Vec Ideal S1x64 .f32) (u : Fin 1) (q : Fin 64) :
    k1_pay11 (F := Ideal) i v0 v3 v7 v9 acc (ix2 u q)
      = acc (ix2 u q) + ∑ r : Fin 10000, Scalar.select (k1_pay10 i (ix2 r q)) (k1_pay4 (F := Ideal) v0 v3 v7 v9 (ix2 r q)) (0 : EReal) := by
  unfold k1_pay11
  simp only [shapeCast_self]
  rw [addf_apply, shapeCast_a_1a_apply, colsum_apply]
  refine congrArg (acc (ix2 u q) + ·) (Finset.sum_congr rfl fun r _ => ?_)
  rw [select_apply, broadcast_apply]
  show Scalar.select _ _ (Ideal.ofBits .f32 0x00000000#32) = _
  rw [Ideal.ofBits_zero_f32]

theorem pay12_apply (i : grid1.Coords) (v0 : Vec Ideal S10000x2 .f32) (v3 : Vec Ideal S10000x64 .f32) (v7 : Vec Ideal S64x64 .f32)
    (v9 : Vec Ideal S1x64 .f32) (r : Fin 10000) (q : Fin 64) :
    k1_pay12 (F := Ideal) i v0 v3 v7 v9 (ix2 r q)
      = Scalar.select (k1_pay10 i (ix2 r q)) (k1_pay4 (F := Ideal) v0 v3 v7 v9 (ix2 r q)) (⊥ : EReal) := by
  unfold k1_pay12
  rw [select_apply, broadcast_apply]
  show Scalar.select _ _ (Ideal.ofBits .f32 0xFF800000#32) = _
  rw [ofBits_neg_inf_f32]

theorem pay1_apply (x : FVec Ideal S10000x64 .f32) (acc : Vec Ideal S1x64 .f32) (u : Fin 1) (q : Fin 64) :
    k1_pay1 (F := Ideal) x acc (ix2 u q) = max (acc (ix2 u q)) (⨆ r : Fin 10000, x (ix2 r q)) := by
  unfold k1_pay1
  simp only [shapeCast_self]
  rw [maximumf_apply, shapeCast_a_1a_apply, colmax_apply]

theorem pay2_apply (x : FVec Ideal S10000x64 .f32) (m : IVec S10000x64 1) (acc : Vec Ideal S1x64 .f32) (u : Fin 1) (q : Fin 64) :
    k1_pay2 (F := Ideal) x m acc (ix2 u q)
      = min (acc (ix2 u q)) (⨅ r : Fin 10000, Scalar.select (m (ix2 r q)) (x (ix2 r q)) (⊤ : EReal)) := by
  unfold k1_pay2
  simp only [shapeCast_self]
  rw [minimumf_apply, shapeCast_a_1a_apply, colmin_apply]
  refine congrArg (min (acc (ix2 u q)) ·) (iInf_congr fun r => ?_)
  rw [select_apply, broadcast_apply]
  show Scalar.select _ _ (Ideal.ofBits .f32 0x7F800000#32) = _
  rw [ofBits_pos_inf_f32]

def rowAt (i : ℕ) : Fin 100000 := ⟨i % 100000, Nat.mod_lt _ (by decide)⟩

def cnt (z : EReal) (D : Spec.A100000x64.Idx → EReal) (q : Fin 64) (i : ℕ) : EReal :=
  if 2 ≤ i then D (Spec.at2 (rowAt i) q) else z

theorem masked_apply (z : EReal) (c : Dev nD) (t : Fin cfg1.N) (r : Fin 10000) (q : Fin 64) :
    Scalar.select (k1_pay10 (grid1.coords t) (ix2 r q)) (k1_pay4 (F := Ideal) (xb1 V c t) (xb0 V c t) (xb2 V c t) (xb3 V c t) (ix2 r q)) z
      = cnt z (dens V c) q (10000 * t.val + r.val) := by
  obtain ⟨-, -, -, -, -, -, -, -, hc, ht⟩ := idx_facts1 t
  have hr := r.isLt
  rw [pay10_apply _ t.val hc ht, tile_apply V c t r q (rowAt (10000 * t.val + r.val))
    (show (10000 * t.val + r.val) % 100000 = _ from Nat.mod_eq_of_lt (by omega))]
  unfold cnt
  by_cases h : 2 ≤ 10000 * t.val + r.val
  · rw [if_pos h, if_pos h, select_one]
  · rw [if_neg h, if_neg h, select_zero]

theorem sumStep_apply (c : Dev nD) (t : Fin cfg1.N) (acc : Vec Ideal S1x64 .f32) (u : Fin 1) (q : Fin 64) :
    sumStep V c t acc (ix2 u q) = acc (ix2 u q) + ∑ r : Fin 10000, cnt 0 (dens V c) q (10000 * t.val + r.val) := by
  unfold sumStep
  rw [pay11_apply]
  exact congrArg (acc (ix2 u q) + ·) (Finset.sum_congr rfl fun r _ => masked_apply V 0 c t r q)

theorem maxStep_apply (c : Dev nD) (t : Fin cfg1.N) (acc : Vec Ideal S1x64 .f32) (u : Fin 1) (q : Fin 64) :
    maxStep V c t acc (ix2 u q) = max (acc (ix2 u q)) (⨆ r : Fin 10000, cnt ⊥ (dens V c) q (10000 * t.val + r.val)) := by
  unfold maxStep
  rw [pay1_apply]
  refine congrArg (max (acc (ix2 u q)) ·) (iSup_congr fun r => ?_)
  rw [pay12_apply]
  exact masked_apply V ⊥ c t r q

theorem minStep_apply (c : Dev nD) (t : Fin cfg1.N) (acc : Vec Ideal S1x64 .f32) (u : Fin 1) (q : Fin 64) :
    minStep V c t acc (ix2 u q) = min (acc (ix2 u q)) (⨅ r : Fin 10000, cnt ⊤ (dens V c) q (10000 * t.val + r.val)) := by
  unfold minStep
  rw [pay2_apply]
  exact congrArg (min (acc (ix2 u q)) ·) (iInf_congr fun r => masked_apply V ⊤ c t r q)

theorem N1_eq : cfg1.N = 10 := N_1

theorem pay5_apply (u : Fin 1) (q : Fin 64) : (k1_pay5 (F := Ideal)) (ix2 u q) = (0 : EReal) := by
  unfold k1_pay5
  simp only [shapeCast_self]
  rw [broadcast_apply]
  exact Ideal.ofBits_zero_f32

theorem pay6_apply (u : Fin 1) (q : Fin 64) : (k1_pay6 (F := Ideal)) (ix2 u q) = (⊥ : EReal) := by
  unfold k1_pay6
  simp only [shapeCast_self]
  rw [broadcast_apply]
  exact ofBits_neg_inf_f32

theorem pay7_apply (u : Fin 1) (q : Fin 64) : (k1_pay7 (F := Ideal)) (ix2 u q) = (⊤ : EReal) := by
  unfold k1_pay7
  simp only [shapeCast_self]
  rw [broadcast_apply]
  exact ofBits_pos_inf_f32

theorem sumN_apply (c : Dev nD) (n : ℕ) (hn : n ≤ 10) (u : Fin 1) (q : Fin 64) :
    sumN V c n (ix2 u q) = ∑ i ∈ Finset.range (10000 * n), cnt 0 (dens V c) q i := by
  induction n with
  | zero => rw [sumN_zero, pay5_apply, Nat.mul_zero, Finset.sum_range_zero]
  | succ n ih =>
    have hlt : n < cfg1.N := by rw [N1_eq]; omega
    rw [show sumN V c (n + 1) = sumStep V c ⟨n, hlt⟩ (sumN V c n) from sumN_succ V c ⟨n, hlt⟩, sumStep_apply, ih (by omega)]
    exact sum_blocks_step (cnt 0 (dens V c) q) 10000 n

theorem maxN_apply (c : Dev nD) (n : ℕ) (hn : n ≤ 10) (u : Fin 1) (q : Fin 64) :
    maxN V c n (ix2 u q) = ⨆ i, ⨆ (_ : i < 10000 * n), cnt ⊥ (dens V c) q i := by
  induction n with
  | zero => rw [maxN_zero, pay6_apply]; exact (sup_below_zero _ 10000).symm
  | succ n ih =>
    have hlt : n < cfg1.N := by rw [N1_eq]; omega
    rw [show maxN V c (n + 1) = maxStep V c ⟨n, hlt⟩ (maxN V c n) from maxN_succ V c ⟨n, hlt⟩, maxStep_apply, ih (by omega)]
    exact sup_blocks_step (cnt ⊥ (dens V c) q) 10000 n

theorem minN_apply (c : Dev nD) (n : ℕ) (hn : n ≤ 10) (u : Fin 1) (q : Fin 64) :
    minN V c n (ix2 u q) = ⨅ i, ⨅ (_ : i < 10000 * n), cnt ⊤ (dens V c) q i := by
  induction n with
  | zero => rw [minN_zero, pay7_apply]; exact (inf_below_zero _ 10000).symm
  | succ n ih =>
    have hlt : n < cfg1.N := by rw [N1_eq]; omega
    rw [show minN V c (n + 1) = minStep V c ⟨n, hlt⟩ (minN V c n) from minN_succ V c ⟨n, hlt⟩, minStep_apply, ih (by omega)]
    exact inf_blocks_step (cnt ⊤ (dens V c) q) 10000 n

theorem rowAt_two_add (k : Fin 99998) : rowAt (2 + k.val) = Spec.row2 k :=
  Fin.ext (by have := k.isLt; show (2 + k.val) % 100000 = k.val + 2; omega)

theorem sum_all (c : Dev nD) (u : Fin 1) (q : Fin 64) :
    sumN V c 10 (ix2 u q) = ∑ k : Fin 99998, dens V c (Spec.at2 (Spec.row2 k) q) := by
  rw [sumN_apply V c 10 (Nat.le_refl _), show 10000 * 10 = 2 + 99998 from rfl]
  refine (sum_drop_two (fun i => dens V c (Spec.at2 (rowAt i) q)) 99998).trans ?_
  exact Finset.sum_congr rfl fun k _ => by rw [rowAt_two_add]

theorem max_all (c : Dev nD) (u : Fin 1) (q : Fin 64) :
    maxN V c 10 (ix2 u q) = ⨆ k : Fin 99998, dens V c (Spec.at2 (Spec.row2 k) q) := by
  rw [maxN_apply V c 10 (Nat.le_refl _), show 10000 * 10 = 2 + 99998 from rfl]
  refine (sup_drop_two (fun i => dens V c (Spec.at2 (rowAt i) q)) 99998).trans ?_
  exact iSup_congr fun k => by rw [rowAt_two_add]

theorem min_all (c : Dev nD) (u : Fin 1) (q : Fin 64) :
    minN V c 10 (ix2 u q) = ⨅ k : Fin 99998, dens V c (Spec.at2 (Spec.row2 k) q) := by
  rw [minN_apply V c 10 (Nat.le_refl _), show 10000 * 10 = 2 + 99998 from rfl]
  refine (inf_drop_two (fun i => dens V c (Spec.at2 (rowAt i) q)) 99998).trans ?_
  exact iInf_congr fun k => by rw [rowAt_two_add]

theorem emb_row (o : ℕ) (inb : ∀ a, (![o, 0] : Fin 2 → Nat) a + S1x64.size a ≤ S5x64.size a) (k : Fin 5) (hk : k.val = o)
    (u : Fin 1) (q : Fin 64) : (Rect.unit (s := S5x64) ![o, 0] S1x64.size inb).emb (ix2 u q) = ix2 k q :=
  funext fun a => Fin.ext (by
    match a with
    | ⟨0, _⟩ => show o + 1 * u.val = k.val; have := u.isLt; omega
    | ⟨1, _⟩ => show 0 + 1 * q.val = q.val; omega)

theorem mem_row (o : ℕ) (inb : ∀ a, (![o, 0] : Fin 2 → Nat) a + S1x64.size a ≤ S5x64.size a) (k : Fin 5) (hk : k.val = o)
    (q : Fin 64) : ix2 k q ∈ (Rect.unit (s := S5x64) ![o, 0] S1x64.size inb).set :=
  Rect.mem_set_unit.2 fun a => by
    match a with
    | ⟨0, _⟩ => show o ≤ k.val ∧ k.val < o + 1; omega
    | ⟨1, _⟩ => show 0 ≤ q.val ∧ q.val < 0 + 64; have := q.isLt; omega

theorem stats2_row0 (D : Spec.A100000x64.Idx → EReal) (q : Fin 64) :
    Spec.stats2 D (ix2 (0 : Fin 5) q) = D (Spec.at2 (0 : Fin 100000) q) := rfl
theorem stats2_row1 (D : Spec.A100000x64.Idx → EReal) (q : Fin 64) :
    Spec.stats2 D (ix2 (1 : Fin 5) q) = D (Spec.at2 (1 : Fin 100000) q) := rfl
theorem stats2_row2 (D : Spec.A100000x64.Idx → EReal) (q : Fin 64) :
    Spec.stats2 D (ix2 (2 : Fin 5) q)
      = Ideal.div ((0 : EReal) + ∑ k : Fin 99998, D (Spec.at2 (Spec.row2 k) q)) (Ideal.ofBits .f32 0x47C34F00#32) := rfl
theorem stats2_row3 (D : Spec.A100000x64.Idx → EReal) (q : Fin 64) :
    Spec.stats2 D (ix2 (3 : Fin 5) q) = ⨆ k : Fin 99998, D (Spec.at2 (Spec.row2 k) q) := rfl
theorem stats2_row4 (D : Spec.A100000x64.Idx → EReal) (q : Fin 64) :
    Spec.stats2 D (ix2 (4 : Fin 5) q) = ⨅ k : Fin 99998, D (Spec.at2 (Spec.row2 k) q) := rfl

theorem pay3_apply (v : Vec Ideal S1x64 .f32) (u : Fin 1) (q : Fin 64) :
    k1_pay3 (F := Ideal) v (ix2 u q) = Ideal.div (v (ix2 u q)) (Ideal.ofBits .f32 0x47C34F00#32) := by
  unfold k1_pay3
  rw [divf_apply, broadcast_apply]
  rfl

theorem pay8_apply (c : Dev nD) (u : Fin 1) (q : Fin 64) :
    k1_pay8 (F := Ideal) (xb1 V c t1_0) (xb0 V c t1_0) (xb2 V c t1_0) (xb3 V c t1_0) (ix2 u q) = dens V c (Spec.at2 (0 : Fin 100000) q) := by
  show extractStridedSlice S1x64 ![0, 0] (k1_pay4 (F := Ideal) (xb1 V c t1_0) (xb0 V c t1_0) (xb2 V c t1_0) (xb3 V c t1_0)) slices_S10000x64_o0_0_S1x64 (ix2 u q) = _
  rw [slice2_axis0_eq]
  exact tile_apply V c t1_0 _ q 0 (by have := u.isLt; show 0 = 10000 * 0 + (0 + u.val); omega)

theorem pay9_apply (c : Dev nD) (u : Fin 1) (q : Fin 64) :
    k1_pay9 (F := Ideal) (xb1 V c t1_0) (xb0 V c t1_0) (xb2 V c t1_0) (xb3 V c t1_0) (ix2 u q) = dens V c (Spec.at2 (1 : Fin 100000) q) := by
  show extractStridedSlice S1x64 ![1, 0] (k1_pay4 (F := Ideal) (xb1 V c t1_0) (xb0 V c t1_0) (xb2 V c t1_0) (xb3 V c t1_0)) slices_S10000x64_o1_0_S1x64 (ix2 u q) = _
  rw [slice2_axis0_eq]
  exact tile_apply V c t1_0 _ q 1 (by have := u.isLt; show 1 = 10000 * 0 + (1 + u.val); omega)

end Stats

open Stats

variable (V : (c : Dev nD) → (b : Ref sig .tc) → Buf (Elt Ideal) ((c : Thread nD τ).loc b))

theorem out1_value (c : Dev nD) :
    out1 V c = Spec.stats2 (Spec.dense2 (V c (Pipeline.arrRef spec1 0)) (V c (Pipeline.arrRef spec1 1)) (V c (Pipeline.arrRef spec1 2)) (V c (Pipeline.arrRef spec1 3))) := by
  show out1 V c = Spec.stats2 (dens V c)
  funext y
  unfold out1
  refine View.canon_apply_of_pieces (Val := Elt Ideal) (S := S5x64) (e := .f32) (show S5x64.Idx → Elt Ideal .f32 from Spec.stats2 (dens V c)) _ ?_ y ?_
  · intro p hp
    simp only [piecesLast, piecesFirst, List.cons_append, List.nil_append, List.mem_cons, List.not_mem_nil, or_false] at hp
    rcases hp with rfl | rfl | rfl | rfl | rfl
    · intro x
      obtain ⟨u, q, rfl⟩ : ∃ (u : Fin 1) (q : Fin 64), x = ix2 u q := ⟨x 0, x 1, eq_ix2 (n0 := 1) (n1 := 64) x⟩
      show minAt V c t1_9 (ix2 u q) = Spec.stats2 (dens V c) (r4_4.emb (ix2 u q))
      rw [emb_row 4 _ 4 rfl, stats2_row4]
      exact min_all V c u q
    · intro x
      obtain ⟨u, q, rfl⟩ : ∃ (u : Fin 1) (q : Fin 64), x = ix2 u q := ⟨x 0, x 1, eq_ix2 (n0 := 1) (n1 := 64) x⟩
      show maxAt V c t1_9 (ix2 u q) = Spec.stats2 (dens V c) (r4_3.emb (ix2 u q))
      rw [emb_row 3 _ 3 rfl, stats2_row3]
      exact max_all V c u q
    · intro x
      obtain ⟨u, q, rfl⟩ : ∃ (u : Fin 1) (q : Fin 64), x = ix2 u q := ⟨x 0, x 1, eq_ix2 (n0 := 1) (n1 := 64) x⟩
      show k1_pay3 (F := Ideal) (sumAt V c t1_9) (ix2 u q) = Spec.stats2 (dens V c) (r4_2.emb (ix2 u q))
      rw [emb_row 2 _ 2 rfl, stats2_row2, pay3_apply, zero_add]
      exact congrArg (Ideal.div · _) (sum_all V c u q)
    · intro x
      obtain ⟨u, q, rfl⟩ : ∃ (u : Fin 1) (q : Fin 64), x = ix2 u q := ⟨x 0, x 1, eq_ix2 (n0 := 1) (n1 := 64) x⟩
      show k1_pay9 (F := Ideal) (xb1 V c t1_0) (xb0 V c t1_0) (xb2 V c t1_0) (xb3 V c t1_0) (ix2 u q) = Spec.stats2 (dens V c) (r4_1.emb (ix2 u q))
      rw [emb_row 1 _ 1 rfl, stats2_row1]
      exact pay9_apply V c u q
    · intro x
      obtain ⟨u, q, rfl⟩ : ∃ (u : Fin 1) (q : Fin 64), x = ix2 u q := ⟨x 0, x 1, eq_ix2 (n0 := 1) (n1 := 64) x⟩
      show k1_pay8 (F := Ideal) (xb1 V c t1_0) (xb0 V c t1_0) (xb2 V c t1_0) (xb3 V c t1_0) (ix2 u q) = Spec.stats2 (dens V c) (r4_0.emb (ix2 u q))
      rw [emb_row 0 _ 0 rfl, stats2_row0]
      exact pay8_apply V c u q
  · obtain ⟨k, q, rfl⟩ : ∃ (k : Fin 5) (q : Fin 64), y = ix2 k q := ⟨y 0, y 1, eq_ix2 (n0 := 5) (n1 := 64) y⟩
    have hk := k.isLt
    rcases (by omega : k.val = 0 ∨ k.val = 1 ∨ k.val = 2 ∨ k.val = 3 ∨ k.val = 4) with h | h | h | h | h
    · exact ⟨⟨r4_0, k1_pay8 (F := Ideal) (xb1 V c t1_0) (xb0 V c t1_0) (xb2 V c t1_0) (xb3 V c t1_0)⟩, by simp [piecesLast, piecesFirst], mem_row 0 inb_S5x64_S1x64_0_0 k h q⟩
    · exact ⟨⟨r4_1, k1_pay9 (F := Ideal) (xb1 V c t1_0) (xb0 V c t1_0) (xb2 V c t1_0) (xb3 V c t1_0)⟩, by simp [piecesLast, piecesFirst], mem_row 1 inb_S5x64_S1x64_1_0 k h q⟩
    · exact ⟨⟨r4_2, k1_pay3 (F := Ideal) (sumAt V c t1_9)⟩, by simp [piecesLast, piecesFirst], mem_row 2 inb_S5x64_S1x64_2_0 k h q⟩
    · exact ⟨⟨r4_3, maxAt V c t1_9⟩, by simp [piecesLast, piecesFirst], mem_row 3 inb_S5x64_S1x64_3_0 k h q⟩
    · exact ⟨⟨r4_4, minAt V c t1_9⟩, by simp [piecesLast, piecesFirst], mem_row 4 inb_S5x64_S1x64_4_0 k h q⟩

end Cert.KernelIdeal.Hand

end
-- ==== Proof.BridgeLib.lean ====
-- A gather at in-range indices is a row lookup, and a scatter-add at a row is the sum over the edges that end there.
import Idealize.ShloMosaic.PureOps.Ideal.Laws
import Idealize.ShloMosaic.Lib.ValueIdx
import Idealize.ShloMosaic.Lib.IdealHost
import Idealize.ShloMosaic.Lib.StableHlo.Predicate

noncomputable section
namespace Cert.Hand.BridgeLib
open Idealize.ShloMosaic Idealize.ShloMosaic.StableHlo.Predicate

theorem ofBits_neg_half_f32 : Ideal.ofBits .f32 0xBF000000#32 = ((-(1/2) : ℝ) : EReal) := by
  simp [Ideal.ofBits, Ideal.ieee, -EReal.coe_mul, -EReal.coe_neg]; norm_num

theorem ofBits_two_f32 : Ideal.ofBits .f32 0x40000000#32 = ((2 : ℝ) : EReal) := by
  simp [Ideal.ofBits, Ideal.ieee, -EReal.coe_mul]; norm_num

theorem gauss_exponent_eq (a σ : ℝ) :
    ((( -(1/2) : ℝ) : EReal) * Ideal.div (a : EReal) σ) * Ideal.div (a : EReal) σ
      = Ideal.div (-((a : EReal) * a)) (((2:ℝ) : EReal) * ((σ : EReal) * σ)) := by
  by_cases hσ : σ = 0
  · subst hσ
    have hden : ((2:ℝ) : EReal) * (((0:ℝ) : EReal) * ((0:ℝ) : EReal)) = 0 := by
      rw [EReal.coe_zero, mul_zero, mul_zero]
    rw [hden]
    have hR : Ideal.div (-((a : EReal) * a)) 0 = ⊥ := by
      unfold Ideal.div
      rw [if_pos rfl, if_neg]
      rw [← EReal.coe_mul, ← EReal.coe_neg]
      intro h
      have : (0:ℝ) < -(a * a) := by exact_mod_cast h
      nlinarith [mul_self_nonneg a]
    rw [hR, EReal.coe_zero]
    unfold Ideal.div
    rw [if_pos rfl]
    by_cases ha : (0 : EReal) < (a : EReal)
    · rw [if_pos ha]
      rw [EReal.coe_mul_top_of_neg (by norm_num), EReal.bot_mul_top]
    · rw [if_neg ha]
      rw [EReal.coe_mul_bot_of_neg (by norm_num), EReal.top_mul_bot]
  · have h2 : (2 * (σ * σ) : ℝ) ≠ 0 := by positivity
    rw [← EReal.coe_mul, ← EReal.coe_mul, ← EReal.coe_mul, ← EReal.coe_neg, Ideal.div_coe hσ, Ideal.div_coe h2,
      ← EReal.coe_mul, ← EReal.coe_mul, ← EReal.coe_mul, ← EReal.coe_mul]
    congr 1
    field_simp

theorem cmpi_slt_zero {x : BitVec 32} (hx : x.toNat < 2 ^ 31) : IntOp.cmpi .slt x 0#32 = 0#1 := by
  apply ValueIdx.eq_zero_of_ne_one
  intro h
  have := (slt_iff_toNat hx (by decide)).1 h
  simp at this

theorem wrap_self {s : Shape} (idx zero ext : IVec s 32) (hz : ∀ e, zero e = 0#32)
    (h : ∀ e, (idx e).toNat < 2 ^ 31) : select (cmpi .slt idx zero) (addi idx ext) idx = idx := by
  funext e
  show Scalar.select (IntOp.cmpi .slt (idx e) (zero e)) (IntOp.addi (idx e) (ext e)) (idx e) = idx e
  rw [hz e, cmpi_slt_zero (h e)]
  exact ValueIdx.select_zero _ _

theorem inrange_mask {s : Shape} (v lo hi : IVec s 32) (c : BitVec 32) (hc : c.toNat < 2 ^ 31)
    (hlo : ∀ p, lo p = 0#32) (hhi : ∀ p, hi p = c) (hv : ∀ p, (v p).toNat ≤ c.toNat) :
    andi (cmpi .sge v lo) (cmpi .sle v hi) = fun _ => 1#1 := by
  funext p
  show IntOp.andi (IntOp.cmpi .sge (v p) (lo p)) (IntOp.cmpi .sle (v p) (hi p)) = 1#1
  have hp := hv p
  rw [hlo p, hhi p, (sge_iff_toNat (a := v p) (b := 0#32) (by omega) (by decide)).2 (by simp),
    (sle_iff_toNat (a := v p) (b := c) (by omega) hc).2 hp]
  rfl

theorem reduce_andi_ones {s t u : Shape} {axes : List (Fin s.rank)} (x : IVec s 1) (init : IVec u 1)
    (h : s.ReducesTo axes t) (hu : 0 < u.numel) (hx : ∀ i, x i = 1#1) (hi : ∀ i, init i = 1#1) :
    Host.reduce IntOp.andi x init h hu = fun _ => 1#1 := by
  funext j
  rw [Host.reduce_eq_fold, hi]
  induction (Finset.univ.filter fun i => h.drop i = j) using Finset.cons_induction with
  | empty => rfl
  | cons a S ha ih => rw [Finset.fold_cons, ih, hx a]; rfl

theorem select_ones {α : Type} {s : Shape} (c : IVec s 1) (a b : s.Idx → α) (hc : ∀ i, c i = 1#1) :
    select c a b = a := by
  funext i
  show Scalar.select (c i) (a i) (b i) = a i
  rw [hc i]; exact ValueIdx.select_one _ _

open Idealize.ShloMosaic.ValueIdx

abbrev rowsDims (N m n : Nat)
    (wf : GatherDims.WF ⟨2, ![N, m]⟩ ⟨2, ![n, 1]⟩ ⟨2, ![n, m]⟩ [1] [0] [] [0] [] 1 ![1, m]) :
    GatherDims ⟨2, ![N, m]⟩ ⟨2, ![n, 1]⟩ ⟨2, ![n, m]⟩ where
  offsetDims := [1]
  collapsedSliceDims := [0]
  operandBatchingDims := []
  startIndicesBatchingDims := []
  startIndexMap := [0]
  indexVectorDim := 1
  sliceSizes := ![1, m]
  wf := wf

abbrev colDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

abbrev startAt {n : Nat} (p : Fin n) : (⟨2, ![n, 1]⟩ : Shape).Idx :=
  fun a => match a with | ⟨0, _⟩ => p | ⟨1, _⟩ => ⟨0, Nat.one_pos⟩

def clampRow (N : Nat) (hN : 0 < N) {w : Nat} (b : BitVec w) : Fin N := ⟨min b.toInt.toNat (N - 1), by omega⟩

theorem gather_rows_apply {α : Type} {N m n w : Nat} (hN : 0 < N)
    (wf : GatherDims.WF ⟨2, ![N, m]⟩ ⟨2, ![n, 1]⟩ ⟨2, ![n, m]⟩ [1] [0] [] [0] [] 1 ![1, m])
    (x : (⟨2, ![N, m]⟩ : Shape).Idx → α) (idx : IVec ⟨2, ![n, 1]⟩ w) (y : (⟨2, ![n, m]⟩ : Shape).Idx) :
    Host.gather (rowsDims N m n wf) x idx y = x (ix2 (clampRow N hN (idx (startAt (y 0)))) (y 1)) := by
  unfold Host.gather
  congr 1
  funext a
  refine Fin.ext ?_
  match a with
  | ⟨0, _⟩ =>
    show (rowsDims N m n wf).start y idx 0 + (rowsDims N m n wf).batchCoord y 0 + (rowsDims N m n wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N m n wf).startIndexMap from List.mem_singleton.mpr rfl)]
    have hsi : (rowsDims N m n wf).siIdx y ⟨List.idxOf (0 : Fin 2) (rowsDims N m n wf).startIndexMap,
        List.idxOf_lt_length_iff.2 (List.mem_singleton.mpr rfl)⟩ = startAt (y 0) := by
      funext b; refine Fin.ext ?_
      match b with
      | ⟨0, _⟩ => rfl
      | ⟨1, _⟩ => rfl
    rw [hsi]
    rfl
  | ⟨1, _⟩ =>
    show (rowsDims N m n wf).start y idx 1 + (rowsDims N m n wf).batchCoord y 1 + (rowsDims N m n wf).offCoord y 1 = _
    rw [GatherDims.batchCoord_eq_zero _ _ _ List.not_mem_nil]
    unfold GatherDims.start
    rw [dif_neg (show (1 : Fin 2) ∉ (rowsDims N m n wf).startIndexMap from
      (by decide : (1 : Fin 2) ∉ ([0] : List (Fin 2))))]
    simp only [Nat.add_zero, Nat.zero_add]
    rfl

theorem gather_col_apply {α : Type} {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (y : (⟨1, ![n]⟩ : Shape).Idx) :
    Host.gather (colDims N n wf) x idx y = x (ix1 (clampRow N hN (idx (startAt (y 0))))) := by
  unfold Host.gather
  congr 1
  funext a
  obtain rfl : a = 0 := Subsingleton.elim _ _
  refine Fin.ext ?_
  show (colDims N n wf).start y idx 0 + (colDims N n wf).batchCoord y 0 + (colDims N n wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N n wf).startIndexMap from List.mem_singleton.mpr rfl)]
  have hsi : (colDims N n wf).siIdx y ⟨List.idxOf (0 : Fin 1) (colDims N n wf).startIndexMap,
      List.idxOf_lt_length_iff.2 (List.mem_singleton.mpr rfl)⟩ = startAt (y 0) := by
    funext b; refine Fin.ext ?_
    match b with
    | ⟨0, _⟩ => rfl
    | ⟨1, _⟩ => rfl
  rw [hsi]
  rfl

open scoped BigOperators

theorem coe_sum {ι : Type} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

theorem dist_finite {s t u : Shape} {axes : List (Fin s.rank)} (a b : FVec Ideal s .f32)
    (ha : ∀ i, ∃ r : ℝ, a i = (r : EReal)) (hb : ∀ i, ∃ r : ℝ, b i = (r : EReal))
    (h : s.ReducesTo axes t) (hu : 0 < u.numel) (j : t.Idx) :
    ∃ r : ℝ, Host.sqrt (Host.reduceAdd (mulf (subf a b) (subf a b)) (constant (F := Ideal) u .f32 0x00000000#32) h hu) j
      = (r : EReal) := by
  choose ra hra using ha
  choose rb hrb using hb
  show ∃ r : ℝ, Ideal.sqrt (Ideal.ofBits .f32 0x00000000#32
      + ∑ i ∈ Finset.univ.filter (fun i => h.drop i = j), (a i - b i) * (a i - b i)) = (r : EReal)
  have hs : ∑ i ∈ Finset.univ.filter (fun i => h.drop i = j), (a i - b i) * (a i - b i)
      = ((∑ i ∈ Finset.univ.filter (fun i => h.drop i = j), (ra i - rb i) * (ra i - rb i) : ℝ) : EReal) := by
    rw [coe_sum]
    refine Finset.sum_congr rfl fun i _ => ?_
    rw [hra i, hrb i, ← EReal.coe_sub, ← EReal.coe_mul]
  rw [Ideal.ofBits_zero_f32, zero_add, hs, Ideal.sqrt_coe,
    if_neg (not_lt.2 (Finset.sum_nonneg fun i _ => mul_self_nonneg _))]
  exact ⟨_, rfl⟩

theorem gauss_weight_eq {s : Shape} (d mu sg : FVec Ideal s .f32)
    (hd : ∀ i, ∃ r : ℝ, d i = (r : EReal)) (hmu : ∀ i, ∃ r : ℝ, mu i = (r : EReal)) (hsg : ∀ i, ∃ r : ℝ, sg i = (r : EReal))
    (hb hb' : (⟨0, ![]⟩ : Shape).BroadcastsInDim s ![]) :
    Host.exp (mulf (mulf (broadcastInDim s ![] hb (constant (F := Ideal) ⟨0, ![]⟩ .f32 0xBF000000#32)) (Host.divf (subf d mu) sg))
        (Host.divf (subf d mu) sg))
      = Host.exp (Host.divf (Host.negf (mulf (subf d mu) (subf d mu)))
        (mulf (broadcastInDim s ![] hb' (constant (F := Ideal) ⟨0, ![]⟩ .f32 0x40000000#32)) (mulf sg sg))) := by
  funext i
  obtain ⟨rd, hrd⟩ := hd i
  obtain ⟨rm, hrm⟩ := hmu i
  obtain ⟨rs, hrs⟩ := hsg i
  show Ideal.exp ((Ideal.ofBits .f32 0xBF000000#32 * Ideal.div (d i - mu i) (sg i)) * Ideal.div (d i - mu i) (sg i))
    = Ideal.exp (Ideal.div (-((d i - mu i) * (d i - mu i))) (Ideal.ofBits .f32 0x40000000#32 * (sg i * sg i)))
  rw [hrd, hrm, hrs, ofBits_neg_half_f32, ofBits_two_f32, ← EReal.coe_sub, gauss_exponent_eq]

theorem bcast_mulf {s t : Shape} {φ : FTy} (dims : Fin s.rank → Fin t.rank) (h : s.BroadcastsInDim t dims)
    (a b : FVec Ideal s φ) :
    broadcastInDim t dims h (mulf a b) = mulf (broadcastInDim t dims h a) (broadcastInDim t dims h b) := rfl

theorem mulf_assoc {s : Shape} {φ : FTy} (a b c : FVec Ideal s φ) : mulf a (mulf b c) = mulf (mulf a b) c := by
  funext i
  show a i * (b i * c i) = a i * b i * c i
  exact (mul_assoc _ _ _).symm

theorem bcast_rows_apply {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α)
    (y : (⟨2, ![n, m]⟩ : Shape).Idx) :
    broadcastInDim ⟨2, ![n, m]⟩ ![0, 1] h₂ (broadcastInDim ⟨2, ![n, 1]⟩ ![0] h₁ v) y = v (ix1 ⟨(y 0).val, idx2_lt0 y⟩) := by
  have hy : y = ij (⟨(y 0).val, idx2_lt0 y⟩ : Fin n) (⟨(y 1).val, idx2_lt1 y⟩ : Fin m) := by
    funext b; match b with | ⟨0, _⟩ => rfl | ⟨1, _⟩ => rfl
  have ho : (Shape.Idx.ofFin (⟨(y 0).val, idx2_lt0 y⟩ : Fin n) : (⟨1, ![n]⟩ : Shape).Idx) = ix1 ⟨(y 0).val, idx2_lt0 y⟩ := by
    funext b; match b with | ⟨0, _⟩ => rfl
  calc broadcastInDim ⟨2, ![n, m]⟩ ![0, 1] h₂ (broadcastInDim ⟨2, ![n, 1]⟩ ![0] h₁ v) y
      = broadcastInDim ⟨2, ![n, m]⟩ ![0, 1] h₂ (broadcastInDim ⟨2, ![n, 1]⟩ ![0] h₁ v)
          (ij (⟨(y 0).val, idx2_lt0 y⟩ : Fin n) (⟨(y 1).val, idx2_lt1 y⟩ : Fin m)) := congrArg _ hy
    _ = v (Shape.Idx.ofFin ⟨(y 0).val, idx2_lt0 y⟩) := bcast_rows h₁ h₂ v _ _
    _ = _ := congrArg v ho

theorem gather_rows_scaled {N m n w : Nat} {φ : FTy} (hN : 0 < N)
    (wf : GatherDims.WF ⟨2, ![N, m]⟩ ⟨2, ![n, 1]⟩ ⟨2, ![n, m]⟩ [1] [0] [] [0] [] 1 ![1, m])
    (wf1 : GatherDims.WF ⟨1, ![N]⟩ ⟨2, ![n, 1]⟩ ⟨1, ![n]⟩ [] [0] [] [0] [] 1 ![1])
    (x : FVec Ideal ⟨2, ![N, m]⟩ φ) (v : FVec Ideal ⟨1, ![N]⟩ φ) (idx : IVec ⟨2, ![n, 1]⟩ w)
    (h₁ : (⟨1, ![N]⟩ : Shape).BroadcastsInDim ⟨2, ![N, 1]⟩ ![0])
    (h₂ : (⟨2, ![N, 1]⟩ : Shape).BroadcastsInDim ⟨2, ![N, m]⟩ ![0, 1])
    (h₁' : (⟨1, ![n]⟩ : Shape).BroadcastsInDim ⟨2, ![n, 1]⟩ ![0])
    (h₂' : (⟨2, ![n, 1]⟩ : Shape).BroadcastsInDim ⟨2, ![n, m]⟩ ![0, 1]) :
    Host.gather (rowsDims N m n wf)
        (mulf x (broadcastInDim ⟨2, ![N, m]⟩ ![0, 1] h₂ (broadcastInDim ⟨2, ![N, 1]⟩ ![0] h₁ v))) idx
      = mulf (Host.gather (rowsDims N m n wf) x idx)
        (broadcastInDim ⟨2, ![n, m]⟩ ![0, 1] h₂' (broadcastInDim ⟨2, ![n, 1]⟩ ![0] h₁'
          (Host.gather (colDims N n wf1) v idx))) := by
  funext y
  rw [gather_rows_apply hN]
  show x _ * _ = Host.gather (rowsDims N m n wf) x idx y * _
  rw [gather_rows_apply hN]
  congr 1
  rw [bcast_rows_apply, bcast_rows_apply, gather_col_apply hN]
  rfl

end Cert.Hand.BridgeLib
-- ==== Proof.Bridge.lean ====
-- For finite inputs and in-range indices the kernel's attention weights, messages and aggregates are the reference's.
import proofs.«416059_j58626303591152_2_alg».proof.Proof.KI.HostValues
import proofs.«416059_j58626303591152_2_alg».proof.Proof.RefP.Read
import proofs.«416059_j58626303591152_2_alg».proof.Proof.BridgeLib

set_option maxRecDepth 4096
noncomputable section

namespace Cert.Hand.Bridge

open Idealize.ShloMosaic Idealize.ShloMosaic.TcCoe
open Cert.Hand.BridgeLib Cert.KernelIdeal.Hand

section KernelSide
open Cert.KernelIdeal Cert.KernelIdeal.Gen

variable {F : FTy → Type} [FloatOps F]

theorem kWrap_self (n : BitVec 32) (idx : IVec S1250000 32) (h : ∀ e, (idx e).toNat < 2 ^ 31) :
    kWrap n idx = idx :=
  wrap_self idx _ _ (fun _ => rfl) h

theorem kMask_ones (hi : BitVec 32) (hhi : hi.toNat < 2 ^ 31) (col : IVec S1250000x1 32)
    (hcol : ∀ p, (col p).toNat ≤ hi.toNat) (j : S1250000.Idx) : kMask hi col j = 1#1 := by
  unfold kMask
  have hm := inrange_mask col (broadcastInDim S1250000x1 ![] bcast_S_S1250000x1 (constantI S_ 32 0#32))
    (broadcastInDim S1250000x1 ![0, 1] bcast_S1x1_S1250000x1_0_1
      (broadcastInDim S1x1 ![1] bcast_S1_S1x1_1 (constantI S1 32 hi))) hi hhi (fun _ => rfl) (fun _ => rfl) hcol
  rw [hm]
  exact congrFun (reduce_andi_ones (s := S1250000x1) (fun _ => 1#1) (constantI S_ 1 1#1) reducesTo_S1250000x1_S1250000_d1 h_S_
    (fun _ => rfl) (fun _ => rfl)) j

theorem kCol_lt (idx : IVec S1250000 32) (N : Nat) (h : ∀ e, (idx e).toNat < N) (p : S1250000x1.Idx) :
    (kCol idx p).toNat < N := h _

theorem kTakeFeat_eq (x0 : FVec F S100000x32 .f32) (idx : IVec S1250000 32) (h : ∀ e, (idx e).toNat < 100000) :
    kTakeFeat x0 idx = Host.gather gather_S100000x32_S1250000x1_S1250000x32_1_0_n_n_0_1_132 x0 (kCol idx) := by
  unfold kTakeFeat
  rw [kWrap_self _ _ (fun e => by have := h e; omega)]
  exact select_ones _ _ _ (fun i => kMask_ones _ (by decide) _ (fun p => by
    have := kCol_lt idx 100000 h p
    show _ ≤ 99999
    omega) _)

theorem kTake64_eq (y : FVec F S100000x64 .f32) (idx : IVec S1250000 32) (h : ∀ e, (idx e).toNat < 100000) :
    kTake64 y idx = Host.gather gather_S100000x64_S1250000x1_S1250000x64_1_0_n_n_0_1_164 y (kCol idx) := by
  unfold kTake64
  rw [kWrap_self _ _ (fun e => by have := h e; omega)]
  exact select_ones _ _ _ (fun i => kMask_ones _ (by decide) _ (fun p => by
    have := kCol_lt idx 100000 h p
    show _ ≤ 99999
    omega) _)

theorem kTake1_eq (x : FVec F S100000 .f32) (idx : IVec S1250000 32) (h : ∀ e, (idx e).toNat < 100000) :
    kTake1 x idx = Host.gather gather_S100000_S1250000x1_S1250000_n_0_n_n_0_1_1 x (kCol idx) := by
  unfold kTake1
  rw [kWrap_self _ _ (fun e => by have := h e; omega)]
  exact select_ones _ _ _ (fun i => kMask_ones _ (by decide) _ (fun p => by
    have := kCol_lt idx 100000 h p
    show _ ≤ 99999
    omega) i)

theorem kTake4_eq (x : FVec F S4 .f32) (idx : IVec S1250000 32) (h : ∀ e, (idx e).toNat < 4) :
    kTake4 x idx = Host.gather gather_S4_S1250000x1_S1250000_n_0_n_n_0_1_1 x (kCol idx) := by
  unfold kTake4
  rw [kWrap_self _ _ (fun e => by have := h e; omega)]
  exact select_ones _ _ _ (fun i => kMask_ones _ (by decide) _ (fun p => by
    have := kCol_lt idx 4 h p
    show _ ≤ 3
    omega) i)

end KernelSide
end Cert.Hand.Bridge

namespace Cert.Hand.Bridge

open Idealize.ShloMosaic Idealize.ShloMosaic.TcCoe
open Cert.Hand.BridgeLib Cert.KernelIdeal.Hand Cert.ReferenceIdeal.Read

section ReferenceSide
open Cert.ReferenceIdeal Cert.ReferenceIdeal.Gen

variable {F : FTy → Type} [FloatOps F]

theorem v4_eq (x1 : IVec S1250000 32) (h : ∀ e, (x1 e).toNat < 100000) : val_main_v4 (F := F) x1 = x1 := by
  unfold val_main_v4 val_main_v1 val_main_v3
  exact wrap_self x1 _ _ (fun _ => rfl) (fun e => by have := h e; omega)

theorem v11_eq (x2 : IVec S1250000 32) (h : ∀ e, (x2 e).toNat < 100000) : val_main_v11 (F := F) x2 = x2 := by
  unfold val_main_v11 val_main_v8 val_main_v10
  exact wrap_self x2 _ _ (fun _ => rfl) (fun e => by have := h e; omega)

theorem v20_eq (x3 : IVec S1250000 32) (h : ∀ e, (x3 e).toNat < 4) : val_main_v20 (F := F) x3 = x3 := by
  unfold val_main_v20 val_main_v17 val_main_v19
  exact wrap_self x3 _ _ (fun _ => rfl) (fun e => by have := h e; omega)

theorem v30_eq (x3 : IVec S1250000 32) (h : ∀ e, (x3 e).toNat < 4) : val_main_v30 (F := F) x3 = x3 := by
  unfold val_main_v30 val_main_v27 val_main_v29
  exact wrap_self x3 _ _ (fun _ => rfl) (fun e => by have := h e; omega)

theorem v60_eq (x1 : IVec S1250000 32) (h : ∀ e, (x1 e).toNat < 100000) : val_main_v60 (F := F) x1 = x1 := by
  unfold val_main_v60 val_main_v57 val_main_v59
  exact wrap_self x1 _ _ (fun _ => rfl) (fun e => by have := h e; omega)

theorem v99_eq (x1 : IVec S1250000 32) (h : ∀ e, (x1 e).toNat < 100000) : val_main_v99 (F := F) x1 = x1 := by
  unfold val_main_v99 val_main_v96 val_main_v98
  exact wrap_self x1 _ _ (fun _ => rfl) (fun e => by have := h e; omega)

end ReferenceSide

section Lookups
variable {F : FTy → Type} [FloatOps F]

theorem takeFeat_src (x0 : FVec F Cert.ReferenceIdeal.S100000x32 .f32) (x1 : IVec Cert.ReferenceIdeal.S1250000 32)
    (h1 : ∀ e, (x1 e).toNat < 100000) : kTakeFeat x0 x1 = val_main_v6 x0 x1 := by
  rw [kTakeFeat_eq x0 x1 h1]
  unfold val_main_v6 val_main_v5
  rw [v4_eq x1 h1]
  rfl

theorem takeFeat_dst (x0 : FVec F Cert.ReferenceIdeal.S100000x32 .f32) (x2 : IVec Cert.ReferenceIdeal.S1250000 32)
    (h2 : ∀ e, (x2 e).toNat < 100000) : kTakeFeat x0 x2 = val_main_v13 x0 x2 := by
  rw [kTakeFeat_eq x0 x2 h2]
  unfold val_main_v13 val_main_v12
  rw [v11_eq x2 h2]
  rfl

theorem take4_mu (x8 : FVec F Cert.ReferenceIdeal.S4 .f32) (x3 : IVec Cert.ReferenceIdeal.S1250000 32)
    (h3 : ∀ e, (x3 e).toNat < 4) : kTake4 x8 x3 = val_main_v22 x3 x8 := by
  rw [kTake4_eq x8 x3 h3]
  unfold val_main_v22 val_main_v21
  rw [v20_eq x3 h3]
  rfl

theorem take4_sigma (x9 : FVec F Cert.ReferenceIdeal.S4 .f32) (x3 : IVec Cert.ReferenceIdeal.S1250000 32)
    (h3 : ∀ e, (x3 e).toNat < 4) : kTake4 x9 x3 = val_main_v32 x3 x9 := by
  rw [kTake4_eq x9 x3 h3]
  unfold val_main_v32 val_main_v31
  rw [v30_eq x3 h3]
  rfl

end Lookups

section Stages
open Cert.ReferenceIdeal

variable (x0 : FVec Ideal S100000x32 .f32) (x1 x2 x3 : IVec S1250000 32) (x8 x9 : FVec Ideal S4 .f32)

theorem att_eq (hf0 : ∀ i, ∃ r : ℝ, x0 i = (r : EReal)) (hf8 : ∀ i, ∃ r : ℝ, x8 i = (r : EReal))
    (hf9 : ∀ i, ∃ r : ℝ, x9 i = (r : EReal)) (h1 : ∀ e, (x1 e).toNat < 100000) (h2 : ∀ e, (x2 e).toNat < 100000)
    (h3 : ∀ e, (x3 e).toNat < 4) :
    kAtt (F := Ideal) x0 x1 x2 x3 x8 x9 = val_main_v37 (F := Ideal) x0 x1 x2 x3 x8 x9 := by
  unfold kAtt
  rw [takeFeat_src x0 x1 h1, takeFeat_dst x0 x2 h2, take4_mu x8 x3 h3, take4_sigma x9 x3 h3]
  have hd := dist_finite (val_main_v6 (F := Ideal) x0 x1) (val_main_v13 (F := Ideal) x0 x2) (fun _ => hf0 _) (fun _ => hf0 _)
    Gen.reducesTo_S1250000x32_S1250000_d1 Gen.h_S_
  have hmu : ∀ i, ∃ r : ℝ, val_main_v22 (F := Ideal) x3 x8 i = (r : EReal) := fun _ => hf8 _
  have hsg : ∀ i, ∃ r : ℝ, val_main_v32 (F := Ideal) x3 x9 i = (r : EReal) := fun _ => hf9 _
  unfold kAttOf val_main_v37 val_main_v36 val_main_v25 val_main_v24 val_main_v23 val_main_v35 val_main_v34 val_main_v33
    val_main_cst val_main_v15 val_main_call0_v1 val_main_call0_v0 val_main_call0_cst val_main_v14
  exact gauss_weight_eq _ _ _ hd hmu hsg _ _

theorem ns_eq : kNs (F := Ideal) x1 = val_main_v48 (F := Ideal) x1 := by
  unfold kNs kInvSqrtDeg kCol val_main_v48 val_main_v46 val_main_v41 val_main_v39 val_main_v40 val_main_v38 val_main_v45
    val_main_v47 val_main_cst_7 val_main_cst_8 val_main_cst_10 val_main_cst_11
  rfl

theorem ns_eq' : val_main_v87 (F := Ideal) x1 = val_main_v48 (F := Ideal) x1 := by
  unfold val_main_v87 val_main_v85 val_main_v80 val_main_v78 val_main_v79 val_main_v77 val_main_v84 val_main_v86
    val_main_cst_17 val_main_cst_18 val_main_cst_20 val_main_cst_21
    val_main_v48 val_main_v46 val_main_v41 val_main_v39 val_main_v40 val_main_v38 val_main_v45
    val_main_v47 val_main_cst_7 val_main_cst_8 val_main_cst_10 val_main_cst_11
  rfl

theorem nd_eq : kNd (F := Ideal) x2 = val_main_v52 (F := Ideal) x2 := by
  unfold kNd kInvSqrtDeg kCol val_main_v52 val_main_v50 val_main_v44 val_main_v42 val_main_v43 val_main_v38 val_main_v49
    val_main_v51 val_main_cst_7 val_main_cst_9 val_main_cst_12 val_main_cst_13
  rfl

theorem nd_eq' : val_main_v91 (F := Ideal) x2 = val_main_v52 (F := Ideal) x2 := by
  unfold val_main_v91 val_main_v89 val_main_v83 val_main_v81 val_main_v82 val_main_v77 val_main_v88 val_main_v90
    val_main_cst_17 val_main_cst_19 val_main_cst_22 val_main_cst_23
    val_main_v52 val_main_v50 val_main_v44 val_main_v42 val_main_v43 val_main_v38 val_main_v49
    val_main_v51 val_main_cst_7 val_main_cst_9 val_main_cst_12 val_main_cst_13
  rfl

end Stages
end Cert.Hand.Bridge

namespace Cert.Hand.Bridge

open Idealize.ShloMosaic Idealize.ShloMosaic.TcCoe
open Cert.Hand.BridgeLib Cert.KernelIdeal.Hand Cert.ReferenceIdeal.Read

section Aggregations
open Cert.ReferenceIdeal

variable (x0 : FVec Ideal S100000x32 .f32) (x1 x2 x3 : IVec S1250000 32) (x8 x9 : FVec Ideal S4 .f32)

theorem agg1_eq (hf0 : ∀ i, ∃ r : ℝ, x0 i = (r : EReal)) (hf8 : ∀ i, ∃ r : ℝ, x8 i = (r : EReal))
    (hf9 : ∀ i, ∃ r : ℝ, x9 i = (r : EReal)) (h1 : ∀ e, (x1 e).toNat < 100000) (h2 : ∀ e, (x2 e).toNat < 100000)
    (h3 : ∀ e, (x3 e).toNat < 4) :
    kAgg1 (F := Ideal) x0 x1 x2 x3 x8 x9 = val_main_v68 (F := Ideal) x0 x1 x2 x3 x8 x9 := by
  unfold kAgg1 kAgg1Of kMsg1Of
  rw [att_eq x0 x1 x2 x3 x8 x9 hf0 hf8 hf9 h1 h2 h3, kTakeFeat_eq x0 x1 h1, kTake1_eq (kNs x1) x1 h1, ns_eq x1,
    bcast_mulf, bcast_mulf, mulf_assoc]
  unfold val_main_v68 val_main_v65 val_main_v62 val_main_v61 val_main_v55 val_main_v54 val_main_v53 val_main_v64 val_main_v63
  rw [v60_eq x1 h1]
  refine congrArg (Host.scatterAdd _ _ _) ?_
  refine congrArg (fun t => mulf t _) ?_
  exact (gather_rows_scaled (N := 100000) (m := 32) (n := 1250000) (by decide)
    Cert.KernelIdeal.Facts₀.gather_S100000x32_S1250000x1_S1250000x32_1_0_n_n_0_1_132_wf
    Cert.KernelIdeal.Facts₀.gather_S100000_S1250000x1_S1250000_n_0_n_n_0_1_1_wf
    x0 (val_main_v48 (F := Ideal) x1) (kCol x1) _ _ _ _).symm

theorem agg2_eq (x4 : FVec Ideal S32x64 .f32) (x5 : FVec Ideal S64 .f32)
    (hf0 : ∀ i, ∃ r : ℝ, x0 i = (r : EReal)) (hf8 : ∀ i, ∃ r : ℝ, x8 i = (r : EReal))
    (hf9 : ∀ i, ∃ r : ℝ, x9 i = (r : EReal)) (h1 : ∀ e, (x1 e).toNat < 100000) (h2 : ∀ e, (x2 e).toNat < 100000)
    (h3 : ∀ e, (x3 e).toNat < 4)
    (y : FVec Ideal S100000x64 .f32) (hy : y = val_main_v94 (F := Ideal) x0 x1 x2 x3 x4 x5 x8 x9) :
    kAgg2 (F := Ideal) y x0 x1 x2 x3 x8 x9 = val_main_v107 (F := Ideal) x0 x1 x2 x3 x4 x5 x8 x9 := by
  subst hy
  unfold kAgg2 kAgg2Of kMsg2Of
  rw [att_eq x0 x1 x2 x3 x8 x9 hf0 hf8 hf9 h1 h2 h3, kTake64_eq _ x1 h1]
  unfold val_main_v107 val_main_v104 val_main_v101 val_main_v100 val_main_v103 val_main_v102
  rw [v99_eq x1 h1]
  rfl

end Aggregations
end Cert.Hand.Bridge
-- ==== Proof.RefStats.lean ====
-- The reference's last stages read at an index: rows 0 and 1, and the mean, supremum and infimum of the remaining rows.
import proofs.«416059_j58626303591152_2_alg».proof.Proof.RefP.Read
import proofs.«416059_j58626303591152_2_alg».proof.Proof.Spec
import Idealize.ShloMosaic.PureOps.Ideal.Laws
import Idealize.ShloMosaic.Lib.Pipeline.Value
import Mathlib.Order.CompleteLattice.Finset

namespace Cert.Hand.RefStats

open Idealize.ShloMosaic Cert.ReferenceIdeal Cert.ReferenceIdeal.Gen Cert.ReferenceIdeal.Read Cert.Hand

theorem fold_max_bot_eq_iSup {n : Nat} (f : Fin n → EReal) :
    (Finset.univ : Finset (Fin n)).fold (FloatOps.maximumf (F := Ideal) (φ := .f32)) (⊥ : EReal) f = ⨆ k, f k := by
  rw [← Finset.sup_univ_eq_iSup]; rfl

theorem fold_min_top_eq_iInf {n : Nat} (f : Fin n → EReal) :
    (Finset.univ : Finset (Fin n)).fold (FloatOps.minimumf (F := Ideal) (φ := .f32)) (⊤ : EReal) f = ⨅ k, f k := by
  rw [← Finset.inf_univ_eq_iInf]; rfl

theorem ofBits_neg_inf : Ideal.ofBits .f32 0xFF800000#32 = (⊥ : EReal) := by simp [Ideal.ofBits, Ideal.ieee]
theorem ofBits_pos_inf : Ideal.ofBits .f32 0x7F800000#32 = (⊤ : EReal) := by simp [Ideal.ofBits, Ideal.ieee]
theorem ofBits_zero : Ideal.ofBits .f32 0x00000000#32 = (0 : EReal) := by simp [Ideal.ofBits, Ideal.ieee]

section Generic
open Spec

theorem concat5_apply (p0 p1 p2 p3 p4 : A1x64.Idx → EReal)
    (h : Shape.Concatenates (([⟨A1x64, p0⟩, ⟨A1x64, p1⟩, ⟨A1x64, p2⟩, ⟨A1x64, p3⟩, ⟨A1x64, p4⟩] :
      List ((s : Shape) × (s.Idx → EReal))).map (·.1)) A5x64 0) (i : A5x64.Idx) :
    concatenate A5x64 0 [⟨A1x64, p0⟩, ⟨A1x64, p1⟩, ⟨A1x64, p2⟩, ⟨A1x64, p3⟩, ⟨A1x64, p4⟩] h i
      = if (i 0).val = 0 then p0 (at2 (0 : Fin 1) (i 1))
        else if (i 0).val = 1 then p1 (at2 (0 : Fin 1) (i 1))
        else if (i 0).val = 2 then p2 (at2 (0 : Fin 1) (i 1))
        else if (i 0).val = 3 then p3 (at2 (0 : Fin 1) (i 1))
        else p4 (at2 (0 : Fin 1) (i 1)) := by
  have h5 : (i 0).val < 5 := (i 0).isLt
  have hi : ∀ b : Fin A1x64.rank, b.cast (rfl : A1x64.rank = A5x64.rank) ≠ (0 : Fin A5x64.rank) →
      ((at2 (0 : Fin 1) (i 1) : A1x64.Idx) b).val = (i (b.cast rfl)).val := fun b hb => by
    match b with
    | ⟨0, _⟩ => exact absurd rfl hb
    | ⟨1, _⟩ => rfl
  obtain h0 | h0 | h0 | h0 | h0 : (i 0).val = 0 ∨ (i 0).val = 1 ∨ (i 0).val = 2 ∨ (i 0).val = 3 ∨ (i 0).val = 4 := by omega
  · rw [if_pos h0]
    exact concatenate_apply_piece 0 _ h i 0 (by show (0 : Nat) < 5; omega) A1x64 p0 rfl rfl 0 rfl _ hi (by show 0 + 0 = (i 0).val; omega)
  · rw [if_neg (by omega), if_pos h0]
    exact concatenate_apply_piece 0 _ h i 1 (by show (1 : Nat) < 5; omega) A1x64 p1 rfl rfl 1 rfl _ hi (by show 1 + 0 = (i 0).val; omega)
  · rw [if_neg (by omega), if_neg (by omega), if_pos h0]
    exact concatenate_apply_piece 0 _ h i 2 (by show (2 : Nat) < 5; omega) A1x64 p2 rfl rfl 2 rfl _ hi (by show 2 + 0 = (i 0).val; omega)
  · rw [if_neg (by omega), if_neg (by omega), if_neg (by omega), if_pos h0]
    exact concatenate_apply_piece 0 _ h i 3 (by show (3 : Nat) < 5; omega) A1x64 p3 rfl rfl 3 rfl _ hi (by show 3 + 0 = (i 0).val; omega)
  · rw [if_neg (by omega), if_neg (by omega), if_neg (by omega), if_neg (by omega)]
    exact concatenate_apply_piece 0 _ h i 4 (by show (4 : Nat) < 5; omega) A1x64 p4 rfl rfl 4 rfl _ hi (by show 4 + 0 = (i 0).val; omega)

abbrev A99998x64 : Shape := ⟨2, ![99998, 64]⟩
abbrev A64 : Shape := ⟨1, ![64]⟩
abbrev A0 : Shape := ⟨0, ![]⟩

theorem reduce_max_rows (x : A99998x64.Idx → EReal) (init : A0.Idx → EReal) (h' : A99998x64.ReducesTo [0] A64)
    (hu : 0 < A0.numel) (hinit : init (Shape.Idx.first hu) = ⊥) (j : A64.Idx) :
    Host.reduce (FloatOps.maximumf (F := Ideal) (φ := .f32)) x init h' hu j = ⨆ k : Fin 99998, x (at2 k (j 0)) := by
  rw [Host.reduce_eq_fold_single (FloatOps.maximumf (F := Ideal) (φ := .f32)) x init h' (by decide) hu j, hinit]
  refine (fold_max_bot_eq_iSup _).trans ?_
  refine iSup_congr fun k => ?_
  exact congrArg x (funext fun a => Fin.ext (by match a with | ⟨0, _⟩ => rfl | ⟨1, _⟩ => rfl))

theorem reduce_min_rows (x : A99998x64.Idx → EReal) (init : A0.Idx → EReal) (h' : A99998x64.ReducesTo [0] A64)
    (hu : 0 < A0.numel) (hinit : init (Shape.Idx.first hu) = ⊤) (j : A64.Idx) :
    Host.reduce (FloatOps.minimumf (F := Ideal) (φ := .f32)) x init h' hu j = ⨅ k : Fin 99998, x (at2 k (j 0)) := by
  rw [Host.reduce_eq_fold_single (FloatOps.minimumf (F := Ideal) (φ := .f32)) x init h' (by decide) hu j, hinit]
  refine (fold_min_top_eq_iInf _).trans ?_
  refine iInf_congr fun k => ?_
  exact congrArg x (funext fun a => Fin.ext (by match a with | ⟨0, _⟩ => rfl | ⟨1, _⟩ => rfl))

end Generic

theorem v115_eq (x0 : (⟨S100000x32, .f32⟩ : BufTy).Contents (Elt Ideal)) (x1 x2 x3 : (⟨S1250000, .i32⟩ : BufTy).Contents (Elt Ideal)) (x4 : (⟨S32x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 x9 : (⟨S4, .f32⟩ : BufTy).Contents (Elt Ideal))
    (norms : Spec.A100000x2.Idx → EReal)
    (h1 : ∀ p : Fin 100000, norms (Spec.at2 p (1 : Fin 2)) = val_main_v91 (F := Ideal) x2 (ValueIdx.ix1 p))
    (b : Spec.A1x64.Idx → EReal) (hb : ∀ q : Fin 64, b (Spec.at2 (0 : Fin 1) q) = x7 (ValueIdx.ix1 q)) :
    val_main_v115 (F := Ideal) x0 x1 x2 x3 x4 x5 x6 x7 x8 x9
      = Spec.dense2 (val_main_v107 (F := Ideal) x0 x1 x2 x3 x4 x5 x8 x9) norms x6 b := by
  funext i
  rw [val_main_v115_apply, val_main_v114_apply, val_main_v111_apply, val_main_v113_apply, val_main_v112_apply,
    val_main_call2_v0_apply, val_main_call2_cst_apply]
  simp only [Ideal.maximumf_def, Ideal.addf_def, Ideal.ofBits_def, ofBits_zero]
  unfold Spec.dense2
  refine congrArg₂ max (congrArg₂ (· + ·) (Finset.sum_congr rfl fun k _ => ?_) ?_) rfl
  · rw [val_main_v110_apply, val_main_v109_apply, val_main_v108_apply, Ideal.mulf_def, h1 (i 0)]
    have e1 : lidx_main_v111 i k = Spec.at2 (i 0) k :=
      funext fun a => Fin.ext (by match a with | ⟨0, _⟩ => rfl | ⟨1, _⟩ => rfl)
    have e2 : ridx_main_v111 i k = Spec.at2 k (i 1) :=
      funext fun a => Fin.ext (by match a with | ⟨0, _⟩ => rfl | ⟨1, _⟩ => rfl)
    have e3 : idx_main_v108 (idx_main_v109 (lidx_main_v111 i k)) = ValueIdx.ix1 (i 0) :=
      funext fun a => Fin.ext (by match a with | ⟨0, _⟩ => rfl)
    rw [e3, e1, e2]
    rfl
  · rw [hb (i 1)]
    exact congrArg x7 (funext fun a => Fin.ext (by match a with | ⟨0, _⟩ => rfl))

section Rows
open Spec
variable (x0 : (⟨S100000x32, .f32⟩ : BufTy).Contents (Elt Ideal)) (x1 x2 x3 : (⟨S1250000, .i32⟩ : BufTy).Contents (Elt Ideal)) (x4 : (⟨S32x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 x9 : (⟨S4, .f32⟩ : BufTy).Contents (Elt Ideal))

theorem row0 (q : Fin 64) :
    val_main_v128 (F := Ideal) x0 x1 x2 x3 x4 x5 x6 x7 x8 x9 (at2 (0 : Fin 1) q) = val_main_v115 (F := Ideal) x0 x1 x2 x3 x4 x5 x6 x7 x8 x9 (at2 (0 : Fin 100000) q) := by
  rw [val_main_v128_apply, val_main_v117_apply, val_main_v116_apply]
  exact congrArg (val_main_v115 (F := Ideal) x0 x1 x2 x3 x4 x5 x6 x7 x8 x9) (funext fun a => Fin.ext (by
      match a with
      | ⟨0, _⟩ => rfl
      | ⟨1, _⟩ => show q.val % 64 = q.val; have := q.isLt; omega))

theorem row1 (q : Fin 64) :
    val_main_v129 (F := Ideal) x0 x1 x2 x3 x4 x5 x6 x7 x8 x9 (at2 (0 : Fin 1) q) = val_main_v115 (F := Ideal) x0 x1 x2 x3 x4 x5 x6 x7 x8 x9 (at2 (1 : Fin 100000) q) := by
  rw [val_main_v129_apply, val_main_v119_apply, val_main_v118_apply]
  exact congrArg (val_main_v115 (F := Ideal) x0 x1 x2 x3 x4 x5 x6 x7 x8 x9) (funext fun a => Fin.ext (by
      match a with
      | ⟨0, _⟩ => rfl
      | ⟨1, _⟩ => show q.val % 64 = q.val; have := q.isLt; omega))

theorem row2_eq (q : Fin 64) :
    val_main_v130 (F := Ideal) x0 x1 x2 x3 x4 x5 x6 x7 x8 x9 (at2 (0 : Fin 1) q)
      = Ideal.div ((0 : EReal) + ∑ k : Fin 99998, val_main_v115 (F := Ideal) x0 x1 x2 x3 x4 x5 x6 x7 x8 x9 (at2 (row2 k) q)) (Ideal.ofBits .f32 0x47C34F00#32) := by
  rw [val_main_v130_apply, val_main_v123_apply, val_main_v121_apply, val_main_v122_apply, val_main_cst_28_apply,
    val_main_cst_27_apply]
  simp only [Ideal.hostDivf_def, Ideal.ofBits_def, ofBits_zero]
  refine congrArg (fun s => Ideal.div ((0 : EReal) + s) (Ideal.ofBits .f32 0x47C34F00#32)) (Finset.sum_congr rfl fun k _ => ?_)
  rw [val_main_v120_apply]
  exact congrArg (val_main_v115 (F := Ideal) x0 x1 x2 x3 x4 x5 x6 x7 x8 x9) (funext fun a => Fin.ext (by
      match a with
      | ⟨0, _⟩ => show 2 + k.val = k.val + 2; omega
      | ⟨1, _⟩ => rfl))

theorem row3 (q : Fin 64) :
    val_main_v131 (F := Ideal) x0 x1 x2 x3 x4 x5 x6 x7 x8 x9 (at2 (0 : Fin 1) q) = ⨆ k : Fin 99998, val_main_v115 (F := Ideal) x0 x1 x2 x3 x4 x5 x6 x7 x8 x9 (at2 (row2 k) q) := by
  rw [val_main_v131_apply]
  unfold val_main_v125
  refine (reduce_max_rows _ _ _ _ (by rw [val_main_cst_29_apply, Ideal.ofBits_def, ofBits_neg_inf]) _).trans ?_
  refine iSup_congr fun k => ?_
  rw [val_main_v124_apply]
  exact congrArg (val_main_v115 (F := Ideal) x0 x1 x2 x3 x4 x5 x6 x7 x8 x9) (funext fun a => Fin.ext (by
      match a with
      | ⟨0, _⟩ => show 2 + k.val = k.val + 2; omega
      | ⟨1, _⟩ => rfl))

theorem row4 (q : Fin 64) :
    val_main_v132 (F := Ideal) x0 x1 x2 x3 x4 x5 x6 x7 x8 x9 (at2 (0 : Fin 1) q) = ⨅ k : Fin 99998, val_main_v115 (F := Ideal) x0 x1 x2 x3 x4 x5 x6 x7 x8 x9 (at2 (row2 k) q) := by
  rw [val_main_v132_apply]
  unfold val_main_v127
  refine (reduce_min_rows _ _ _ _ (by rw [val_main_cst_30_apply, Ideal.ofBits_def, ofBits_pos_inf]) _).trans ?_
  refine iInf_congr fun k => ?_
  rw [val_main_v126_apply]
  exact congrArg (val_main_v115 (F := Ideal) x0 x1 x2 x3 x4 x5 x6 x7 x8 x9) (funext fun a => Fin.ext (by
      match a with
      | ⟨0, _⟩ => show 2 + k.val = k.val + 2; omega
      | ⟨1, _⟩ => rfl))

theorem v133_eq :
    val_main_v133 (F := Ideal) x0 x1 x2 x3 x4 x5 x6 x7 x8 x9 = Spec.stats2 (val_main_v115 (F := Ideal) x0 x1 x2 x3 x4 x5 x6 x7 x8 x9) := by
  funext i
  unfold val_main_v133
  refine (concat5_apply _ _ _ _ _ _ i).trans ?_
  unfold Spec.stats2
  rw [row0 x0 x1 x2 x3 x4 x5 x6 x7 x8 x9 (i 1), row1 x0 x1 x2 x3 x4 x5 x6 x7 x8 x9 (i 1), row2_eq x0 x1 x2 x3 x4 x5 x6 x7 x8 x9 (i 1), row3 x0 x1 x2 x3 x4 x5 x6 x7 x8 x9 (i 1), row4 x0 x1 x2 x3 x4 x5 x6 x7 x8 x9 (i 1)]

end Rows

end Cert.Hand.RefStats
-- ==== Proof.PreFacts.lean ====
-- From the precondition: every float entry is a real number and every index word lies in its range.
import proofs.«416059_j58626303591152_2_alg».proof.Proof.Gen.Pre_finite_inputs
import Idealize.ShloMosaic.Lib.ReduceAll
import Idealize.ShloMosaic.Lib.ValueIdx
import Idealize.ShloMosaic.PureOps.Ideal

namespace Cert.Hand.PreFacts

open Idealize.ShloMosaic Cert.Pre_finite_inputs

attribute [local instance] Cert.Pre_finite_inputs.Gen.facts

instance subsingleton_scalar_idx : Subsingleton S_.Idx := ⟨fun a b => funext fun d => d.elim0⟩

theorem ofBits_inf : Ideal.ofBits .f32 0x7F800000#32 = (⊤ : EReal) := by simp [Ideal.ofBits, Ideal.ieee]

theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

theorem toNat_lt_of_range (x : BitVec 32) (N : Nat) (hN : N < 2 ^ 31)
    (h0 : IntOp.cmpi .sge x 0#32 = 1#1) (h1 : IntOp.cmpi .slt x (BitVec.ofNat 32 N) = 1#1) : x.toNat < N := by
  rw [IntOp.cmpi_sge, show (0#32 : BitVec 32).toInt = 0 from by decide] at h0
  rw [IntOp.cmpi_slt, BitVec.toInt_ofNat'] at h1
  have hN' : (N : Int).bmod (2 ^ 32) = N := Int.bmod_eq_of_le (by omega) (by omega)
  rw [hN'] at h1
  have := BitVec.toInt_eq_toNat_cond x
  split at this <;> omega

theorem andi_apply {s : Shape} {w : Nat} (x y : IVec s w) (i : s.Idx) : andi x y i = IntOp.andi (x i) (y i) := rfl

theorem decode (a0 : FVec Ideal S100000x32 .f32) (a1 a2 a3 : IVec S1250000 32) (a4 : FVec Ideal S32x64 .f32)
    (a5 : FVec Ideal S64 .f32) (a6 : FVec Ideal S64x64 .f32) (a7 : FVec Ideal S64 .f32) (a8 a9 : FVec Ideal S4 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a8 i = (r : EReal)) ∧ (∀ i, ∃ r : ℝ, a9 i = (r : EReal))
      ∧ (∀ e, (a1 e).toNat < 100000) ∧ (∀ e, (a2 e).toNat < 100000) ∧ (∀ e, (a3 e).toNat < 4) := by
  have h0 := congrFun h ValueIdx.ix0
  dsimp only [Cert.Pre_finite_inputs.fn, Cert.Pre_finite_inputs.fn_part1, Cert.Pre_finite_inputs.fn_part2,
    Cert.Pre_finite_inputs.fn_part3] at h0
  simp only [andi_apply, IntOp.andi_eq_one] at h0
  obtain ⟨⟨⟨⟨⟨⟨⟨⟨⟨h3, -⟩, -⟩, -⟩, -⟩, h27⟩, h32⟩, h39⟩, h46⟩, h53⟩ := h0
  refine ⟨fun i => ?_, fun i => ?_, fun i => ?_, fun e => ?_, fun e => ?_, fun e => ?_⟩
  · exact real_of_abs_lt_top (a0 i) (Host.reduce_andi_all _ _ _ _ _ h3 i)
  · exact real_of_abs_lt_top (a8 i) (Host.reduce_andi_all _ _ _ _ _ h27 i)
  · exact real_of_abs_lt_top (a9 i) (Host.reduce_andi_all _ _ _ _ _ h32 i)
  · have := Host.reduce_andi_all _ _ _ _ _ h39 e
    rw [andi_apply, IntOp.andi_eq_one] at this
    exact toNat_lt_of_range (a1 e) 100000 (by norm_num) this.1 this.2
  · have := Host.reduce_andi_all _ _ _ _ _ h46 e
    rw [andi_apply, IntOp.andi_eq_one] at this
    exact toNat_lt_of_range (a2 e) 100000 (by norm_num) this.1 this.2
  · have := Host.reduce_andi_all _ _ _ _ _ h53 e
    rw [andi_apply, IntOp.andi_eq_one] at this
    exact toNat_lt_of_range (a3 e) 4 (by norm_num) this.1 this.2

end Cert.Hand.PreFacts
-- ==== Proof.Value.lean ====
-- Under the precondition the idealized kernel's result is the reference's last stage of the arguments.
import proofs.«416059_j58626303591152_2_alg».proof.Proof.KI.Run
import proofs.«416059_j58626303591152_2_alg».proof.Proof.KI.HostValues
import proofs.«416059_j58626303591152_2_alg».proof.Proof.KI.NormsRead
import proofs.«416059_j58626303591152_2_alg».proof.Proof.KI.Region0Value
import proofs.«416059_j58626303591152_2_alg».proof.Proof.KI.Dense1Ref
import proofs.«416059_j58626303591152_2_alg».proof.Proof.KI.Region1Write
import proofs.«416059_j58626303591152_2_alg».proof.Proof.KI.Region1Value
import proofs.«416059_j58626303591152_2_alg».proof.Proof.Bridge
import proofs.«416059_j58626303591152_2_alg».proof.Proof.RefStats
import proofs.«416059_j58626303591152_2_alg».proof.Proof.PreFacts

set_option maxRecDepth 16384

noncomputable section

namespace Cert.KernelIdeal.Hand

open Idealize.ShloMosaic Idealize.ShloMosaic.TcCoe Idealize.SL.Sem
open Cert.KernelIdeal Cert.KernelIdeal.Gen
open Cert.Hand Cert.Hand.Spec Cert.Hand.Bridge Cert.Hand.RefStats
open Cert.ReferenceIdeal.Read (val_main_v37 val_main_v48 val_main_v52 val_main_v68 val_main_v87 val_main_v91 val_main_v94 val_main_v107 val_main_v115 val_main_v133)

attribute [local instance] Cert.Pre_finite_inputs.Gen.facts

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)

theorem at2_eq_ix2 {a b : Nat} (p : Fin a) (q : Fin b) : Spec.at2 p q = ValueIdx.ix2 p q := by
  funext d; match d with | ⟨0, _⟩ => rfl | ⟨1, _⟩ => rfl

theorem res0_eq (hf0 : ∀ i, ∃ r : ℝ, a0 m c i = (r : EReal)) (hf8 : ∀ i, ∃ r : ℝ, a8 m c i = (r : EReal))
    (hf9 : ∀ i, ∃ r : ℝ, a9 m c i = (r : EReal)) (h1 : ∀ e, (a1 m c e).toNat < 100000) (h2 : ∀ e, (a2 m c e).toNat < 100000)
    (h3 : ∀ e, (a3 m c e).toNat < 4) :
    res0 (F := Ideal) m c = val_main_v94 (F := Ideal) (a0 m c) (a1 m c) (a2 m c) (a3 m c) (a4 m c) (a5 m c) (a8 m c) (a9 m c) := by
  unfold res0
  rw [res0_value (ent0 m) c]
  show dense1 (V7 m c main_v39) (V7 m c main_v31) (V7 m c main_arg4) (V7 m c main_v40) = _
  rw [V7_agg1, V7_norms, V7_W1, V7_b1, agg1_eq (a0 m c) (a1 m c) (a2 m c) (a3 m c) (a8 m c) (a9 m c) hf0 hf8 hf9 h1 h2 h3]
  exact dense1_ref (a0 m c) (a1 m c) (a2 m c) (a3 m c) (a4 m c) (a5 m c) (a8 m c) (a9 m c) (kNorms (a1 m c) (a2 m c))
    (fun p => by rw [← at2_eq_ix2, kNorms_col0, ns_eq, ns_eq'])
    (fun p => by rw [← at2_eq_ix2, kNorms_col1, nd_eq])
    (shapeCast S1x64 (a5 m c) shapeCasts_S64_S1x64) (fun q => by rw [← at2_eq_ix2]; exact bias_row _ q)

theorem value_eq (hpre : Cert.Pre_finite_inputs.fn (F := Ideal) (a0 m c) (a1 m c) (a2 m c) (a3 m c) (a4 m c) (a5 m c) (a6 m c) (a7 m c) (a8 m c) (a9 m c) = fun _ => 1#1) :
    res1 (F := Ideal) m c = val_main_v133 (F := Ideal) (a0 m c) (a1 m c) (a2 m c) (a3 m c) (a4 m c) (a5 m c) (a6 m c) (a7 m c) (a8 m c) (a9 m c) := by
  obtain ⟨hf0, hf8, hf9, h1, h2, h3⟩ := Cert.Hand.PreFacts.decode _ _ _ _ _ _ _ _ _ _ hpre
  have hr0 := res0_eq m c hf0 hf8 hf9 h1 h2 h3
  unfold res1
  rw [write_whole4 c, out1_value (ent1 m) c]
  show Spec.stats2 (Spec.dense2 (ent1W m c main_v48) (ent1W m c main_v31) (ent1W m c main_arg6) (ent1W m c main_v49)) = _
  rw [← V10_eq m c, V10_agg2, V10_norms, V10_W2, V10_b2, outs_v41, hr0,
    agg2_eq (a0 m c) (a1 m c) (a2 m c) (a3 m c) (a8 m c) (a9 m c) (a4 m c) (a5 m c) hf0 hf8 hf9 h1 h2 h3 _ rfl,
    v133_eq,
    v115_eq (a0 m c) (a1 m c) (a2 m c) (a3 m c) (a4 m c) (a5 m c) (a6 m c) (a7 m c) (a8 m c) (a9 m c) (kNorms (F := Ideal) (a1 m c) (a2 m c))
      (fun p => by rw [kNorms_col1, nd_eq, nd_eq']) (shapeCast S1x64 (a7 m c) shapeCasts_S64_S1x64) (fun q => bias_row (a7 m c) q)]

end Cert.KernelIdeal.Hand

end
-- ==== Proof.RefFold.Defs.lean ====
-- The buffer contents after each stretch of the reference's operations; the fold of the whole list is the last of them.
import proofs.«416059_j58626303591152_2_alg».proof.Proof.RefP.Run
import Idealize.ShloMosaic.Lib.Pipeline.Frame

noncomputable section

namespace Cert.ReferenceIdeal.Fold

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

abbrev L0 : Valuation τ sig (Elt F) := launchContents m c
abbrev L1 : Valuation τ sig (Elt F) := after ops1 (L0 m c)
abbrev L2 : Valuation τ sig (Elt F) := after ops2 (L1 m c)
abbrev L3 : Valuation τ sig (Elt F) := after ops3 (L2 m c)
abbrev L4 : Valuation τ sig (Elt F) := after ops4 (L3 m c)
abbrev L5 : Valuation τ sig (Elt F) := after ops5 (L4 m c)
abbrev L6 : Valuation τ sig (Elt F) := after ops6 (L5 m c)
abbrev L7 : Valuation τ sig (Elt F) := after ops7 (L6 m c)
abbrev L8 : Valuation τ sig (Elt F) := after ops8 (L7 m c)
abbrev L9 : Valuation τ sig (Elt F) := after ops9 (L8 m c)
abbrev L10 : Valuation τ sig (Elt F) := after ops10 (L9 m c)
abbrev L11 : Valuation τ sig (Elt F) := after ops11 (L10 m c)
abbrev L12 : Valuation τ sig (Elt F) := after ops12 (L11 m c)

theorem fold_eq : after (ops : List (HloOp τ sig (Elt F))) (L0 m c) = L12 m c := by
  unfold ops
  iterate 11 rw [StableHlo.after_append]

end Cert.ReferenceIdeal.Fold

end
-- ==== Proof.RefFold.Chunk1.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes1 : List (Ref sig .tc) := [main_c, main_v0, main_v1, main_c_0, main_v2, main_v3, main_v4, main_v5, main_v6]

theorem ops1_writes : (ops1 : List (HloOp τ sig (Elt F))).Forall fun op => op.writes ⊆ (writes1.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep1 (W : Valuation τ sig (Elt F)) (b : Ref sig .tc) (hb : b ∉ writes1) :
    after ops1 W (Proc.devRef .tc b) = W (Proc.devRef .tc b) :=
  StableHlo.after_of_writes_sub ops1 W ops1_writes hb

theorem out1 (W : Valuation τ sig (Elt F)) (x0 : (⟨S100000x32, .f32⟩ : BufTy).Contents (Elt F)) (x1 : (⟨S1250000, .i32⟩ : BufTy).Contents (Elt F))
    (h0 : W (Proc.devRef .tc main_arg0) = x0) (h1 : W (Proc.devRef .tc main_arg1) = x1) :
    after ops1 W (Proc.devRef .tc main_v6) = val_main_v6 (F := F) x0 x1 := by
  subst h0 h1
  after_results_simp
  rfl

end Cert.ReferenceIdeal.Fold

end
-- ==== Proof.RefFold.Chunk2.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes2 : List (Ref sig .tc) := [main_c_1, main_v7, main_v8, main_c_2, main_v9, main_v10, main_v11, main_v12, main_v13]

theorem ops2_writes : (ops2 : List (HloOp τ sig (Elt F))).Forall fun op => op.writes ⊆ (writes2.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep2 (W : Valuation τ sig (Elt F)) (b : Ref sig .tc) (hb : b ∉ writes2) :
    after ops2 W (Proc.devRef .tc b) = W (Proc.devRef .tc b) :=
  StableHlo.after_of_writes_sub ops2 W ops2_writes hb

theorem out2 (W : Valuation τ sig (Elt F)) (x0 : (⟨S100000x32, .f32⟩ : BufTy).Contents (Elt F)) (x2 : (⟨S1250000, .i32⟩ : BufTy).Contents (Elt F))
    (h0 : W (Proc.devRef .tc main_arg0) = x0) (h2 : W (Proc.devRef .tc main_arg2) = x2) :
    after ops2 W (Proc.devRef .tc main_v13) = val_main_v13 (F := F) x0 x2 := by
  subst h0 h2
  after_results_simp
  rfl

end Cert.ReferenceIdeal.Fold

end
-- ==== Proof.RefFold.Chunk3.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes3 : List (Ref sig .tc) := [main_v14, main_call0_v0, main_call0_cst, main_call0_v1, main_v15]

theorem ops3_writes : (ops3 : List (HloOp τ sig (Elt F))).Forall fun op => op.writes ⊆ (writes3.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep3 (W : Valuation τ sig (Elt F)) (b : Ref sig .tc) (hb : b ∉ writes3) :
    after ops3 W (Proc.devRef .tc b) = W (Proc.devRef .tc b) :=
  StableHlo.after_of_writes_sub ops3 W ops3_writes hb

theorem out3 (W : Valuation τ sig (Elt F)) (x0 : (⟨S100000x32, .f32⟩ : BufTy).Contents (Elt F)) (x1 x2 : (⟨S1250000, .i32⟩ : BufTy).Contents (Elt F))
    (h6 : W (Proc.devRef .tc main_v6) = val_main_v6 (F := F) x0 x1)
    (h13 : W (Proc.devRef .tc main_v13) = val_main_v13 (F := F) x0 x2) :
    after ops3 W (Proc.devRef .tc main_v15) = val_main_v15 (F := F) x0 x1 x2 := by
  after_results_simp
  simp only [TRef.ofBuf, TRef.toBuf, cast_eq]
  rw [h6, h13]
  rfl

end Cert.ReferenceIdeal.Fold

end
-- ==== Proof.RefFold.Chunk4.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes4 : List (Ref sig .tc) := [main_c_3, main_v16, main_v17, main_c_4, main_v18, main_v19, main_v20, main_v21, main_v22, main_v23, main_v24, main_v25]

theorem ops4_writes : (ops4 : List (HloOp τ sig (Elt F))).Forall fun op => op.writes ⊆ (writes4.map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep4 (W : Valuation τ sig (Elt F)) (b : Ref sig .tc) (hb : b ∉ writes4) :
    after ops4 W (Proc.devRef .tc b) = W (Proc.devRef .tc b) :=
  StableHlo.after_of_writes_sub ops4 W ops4_writes hb

theorem out4 (W : Valuation τ sig (Elt F)) (x0 : (⟨S100000x32, .f32⟩ : BufTy).Contents (Elt F))
    (x1 x2 x3 : (⟨S1250000, .i32⟩ : BufTy).Contents (Elt F)) (x8 : (⟨S4, .f32⟩ : BufTy).Contents (Elt F))
    (h15 : W (Proc.devRef .tc main_v15) = val_main_v15 (F := F) x0 x1 x2)
    (h3 : W (Proc.devRef .tc main_arg3) = x3) (h8 : W (Proc.devRef .tc main_arg8) = x8) :
    after ops4 W (Proc.devRef .tc main_v25) = val_main_v25 (F := F) x0 x1 x2 x3 x8 := by
  after_results_simp
  rw [h15, h3, h8]
  unfold val_main_v25 val_main_v24 val_main_v23 val_main_v22 val_main_v21 val_main_v20 val_main_v19 val_main_v18
    val_main_c_4 val_main_v17 val_main_v16 val_main_c_3
  rfl

end Cert.ReferenceIdeal.Fold

end
-- ==== Proof.RefFold.Chunk5.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes5 : List (Ref sig .tc) := [main_c_5, main_v26, main_v27, main_c_6, main_v28, main_v29, main_v30, main_v31, main_v32, main_v33, main_cst, main_v34, main_v35, main_v36, main_v37]

theorem ops5_writes : (ops5 : List (HloOp τ sig (Elt F))).Forall fun op => op.writes ⊆ (writes5.map (Proc.devRef (τ := τ) .tc)).toFinset := by
  simp only [List.Forall]
  refine ⟨?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep5 (W : Valuation τ sig (Elt F)) (b : Ref sig .tc) (hb : b ∉ writes5) :
    after ops5 W (Proc.devRef .tc b) = W (Proc.devRef .tc b) :=
  StableHlo.after_of_writes_sub ops5 W ops5_writes hb

theorem out5 (W : Valuation τ sig (Elt F)) (x0 : (⟨S100000x32, .f32⟩ : BufTy).Contents (Elt F))
    (x1 x2 x3 : (⟨S1250000, .i32⟩ : BufTy).Contents (Elt F)) (x8 x9 : (⟨S4, .f32⟩ : BufTy).Contents (Elt F))
    (h25 : W (Proc.devRef .tc main_v25) = val_main_v25 (F := F) x0 x1 x2 x3 x8)
    (h3 : W (Proc.devRef .tc main_arg3) = x3) (h9 : W (Proc.devRef .tc main_arg9) = x9) :
    after ops5 W (Proc.devRef .tc main_v37) = val_main_v37 (F := F) x0 x1 x2 x3 x8 x9 := by
  after_results_simp
  rw [h25, h3, h9]
  unfold val_main_v37 val_main_v36 val_main_v35 val_main_v34 val_main_cst val_main_v33 val_main_v32 val_main_v31
    val_main_v30 val_main_v29 val_main_v28 val_main_c_6 val_main_v27 val_main_v26 val_main_c_5
  rfl

end Cert.ReferenceIdeal.Fold

end
-- ==== Proof.RefFold.Chunk6.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes6 : List (Ref sig .tc) := [main_cst_7, main_v38, main_cst_8, main_v39, main_v40, main_v41, main_cst_9, main_v42, main_v43, main_v44, main_cst_10, main_v45, main_v46, main_cst_11, main_v47, main_v48, main_cst_12, main_v49, main_v50, main_cst_13, main_v51, main_v52]

theorem ops6_writes : (ops6 : List (HloOp τ sig (Elt F))).Forall fun op => op.writes ⊆ (writes6.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

theorem keep6 (W : Valuation τ sig (Elt F)) (b : Ref sig .tc) (hb : b ∉ writes6) :
    after ops6 W (Proc.devRef .tc b) = W (Proc.devRef .tc b) :=
  StableHlo.after_of_writes_sub ops6 W ops6_writes hb

theorem out6a (W : Valuation τ sig (Elt F)) (x1 : (⟨S1250000, .i32⟩ : BufTy).Contents (Elt F))
    (h1 : W (Proc.devRef .tc main_arg1) = x1) :
    after ops6 W (Proc.devRef .tc main_v48) = val_main_v48 (F := F) x1 := by
  subst h1
  after_results_simp
  rfl

theorem out6b (W : Valuation τ sig (Elt F)) (x2 : (⟨S1250000, .i32⟩ : BufTy).Contents (Elt F))
    (h2 : W (Proc.devRef .tc main_arg2) = x2) :
    after ops6 W (Proc.devRef .tc main_v52) = val_main_v52 (F := F) x2 := by
  subst h2
  after_results_simp
  rfl

end Cert.ReferenceIdeal.Fold

end
-- ==== Proof.RefFold.Chunk7.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes7 : List (Ref sig .tc) := [main_v53, main_v54, main_v55, main_c_14, main_v56, main_v57, main_c_15, main_v58, main_v59, main_v60, main_v61, main_v62, main_v63, main_v64, main_v65, main_cst_16, main_v66, main_v67, main_v68]

theorem ops7_writes : (ops7 : List (HloOp τ sig (Elt F))).Forall fun op => op.writes ⊆ (writes7.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep7 (W : Valuation τ sig (Elt F)) (b : Ref sig .tc) (hb : b ∉ writes7) :
    after ops7 W (Proc.devRef .tc b) = W (Proc.devRef .tc b) :=
  StableHlo.after_of_writes_sub ops7 W ops7_writes hb

theorem out7 (W : Valuation τ sig (Elt F)) (x0 : (⟨S100000x32, .f32⟩ : BufTy).Contents (Elt F)) (x1 x2 x3 : (⟨S1250000, .i32⟩ : BufTy).Contents (Elt F)) (x8 x9 : (⟨S4, .f32⟩ : BufTy).Contents (Elt F))
    (h48 : W (Proc.devRef .tc main_v48) = val_main_v48 (F := F) x1)
    (h37 : W (Proc.devRef .tc main_v37) = val_main_v37 (F := F) x0 x1 x2 x3 x8 x9)
    (h0 : W (Proc.devRef .tc main_arg0) = x0) (h1 : W (Proc.devRef .tc main_arg1) = x1) (h2 : W (Proc.devRef .tc main_arg2) = x2) :
    after ops7 W (Proc.devRef .tc main_v68) = val_main_v68 (F := F) x0 x1 x2 x3 x8 x9 := by
  after_results_simp
  rw [h48, h37, h0, h1, h2]
  unfold val_main_v68 val_main_v67 val_main_v66 val_main_cst_16 val_main_v65 val_main_v64 val_main_v63 val_main_v62 val_main_v61 val_main_v60
    val_main_v59 val_main_v58 val_main_c_15 val_main_v57 val_main_v56 val_main_c_14 val_main_v55 val_main_v54 val_main_v53
  rfl

end Cert.ReferenceIdeal.Fold

end
-- ==== Proof.RefFold.Chunk8.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes8 : List (Ref sig .tc) := [main_v69, main_v70, main_v71, main_v72, main_v73, main_v74, main_v75, main_call1_cst, main_call1_v0, main_v76]

theorem ops8_writes : (ops8 : List (HloOp τ sig (Elt F))).Forall fun op => op.writes ⊆ (writes8.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep8 (W : Valuation τ sig (Elt F)) (b : Ref sig .tc) (hb : b ∉ writes8) :
    after ops8 W (Proc.devRef .tc b) = W (Proc.devRef .tc b) :=
  StableHlo.after_of_writes_sub ops8 W ops8_writes hb

theorem out8 (W : Valuation τ sig (Elt F)) (x0 : (⟨S100000x32, .f32⟩ : BufTy).Contents (Elt F)) (x1 x2 x3 : (⟨S1250000, .i32⟩ : BufTy).Contents (Elt F)) (x4 : (⟨S32x64, .f32⟩ : BufTy).Contents (Elt F)) (x5 : (⟨S64, .f32⟩ : BufTy).Contents (Elt F)) (x8 x9 : (⟨S4, .f32⟩ : BufTy).Contents (Elt F))
    (h68 : W (Proc.devRef .tc main_v68) = val_main_v68 (F := F) x0 x1 x2 x3 x8 x9)
    (h52 : W (Proc.devRef .tc main_v52) = val_main_v52 (F := F) x2)
    (h4 : W (Proc.devRef .tc main_arg4) = x4) (h5 : W (Proc.devRef .tc main_arg5) = x5) :
    after ops8 W (Proc.devRef .tc main_v76) = val_main_v76 (F := F) x0 x1 x2 x3 x4 x5 x8 x9 := by
  after_results_simp
  simp only [TRef.ofBuf, TRef.toBuf, cast_eq]
  rw [h68, h52, h4, h5]
  unfold val_main_v76 val_main_v75 val_main_v74 val_main_v73 val_main_v72 val_main_v71 val_main_v70 val_main_v69 val_main_call1_v0 val_main_call1_cst
  rfl

end Cert.ReferenceIdeal.Fold

end
-- ==== Proof.RefFold.Chunk9.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes9 : List (Ref sig .tc) := [main_cst_17, main_v77, main_cst_18, main_v78, main_v79, main_v80, main_cst_19, main_v81, main_v82, main_v83, main_cst_20, main_v84, main_v85, main_cst_21, main_v86, main_v87, main_cst_22, main_v88, main_v89, main_cst_23, main_v90, main_v91, main_v92, main_v93, main_v94]

theorem ops9_writes : (ops9 : List (HloOp τ sig (Elt F))).Forall fun op => op.writes ⊆ (writes9.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, Finset.singleton_subset_iff, List.mem_toFinset]; exact List.mem_map_of_mem (by decide))

theorem keep9 (W : Valuation τ sig (Elt F)) (b : Ref sig .tc) (hb : b ∉ writes9) :
    after ops9 W (Proc.devRef .tc b) = W (Proc.devRef .tc b) :=
  StableHlo.after_of_writes_sub ops9 W ops9_writes hb

theorem out9a (W : Valuation τ sig (Elt F)) (x0 : (⟨S100000x32, .f32⟩ : BufTy).Contents (Elt F)) (x1 x2 x3 : (⟨S1250000, .i32⟩ : BufTy).Contents (Elt F)) (x4 : (⟨S32x64, .f32⟩ : BufTy).Contents (Elt F)) (x5 : (⟨S64, .f32⟩ : BufTy).Contents (Elt F)) (x8 x9 : (⟨S4, .f32⟩ : BufTy).Contents (Elt F))
    (h76 : W (Proc.devRef .tc main_v76) = val_main_v76 (F := F) x0 x1 x2 x3 x4 x5 x8 x9) (h1 : W (Proc.devRef .tc main_arg1) = x1) :
    after ops9 W (Proc.devRef .tc main_v94) = val_main_v94 (F := F) x0 x1 x2 x3 x4 x5 x8 x9 := by
  after_results_simp
  rw [h76, h1]
  unfold val_main_v94 val_main_v93 val_main_v92 val_main_v87 val_main_v86 val_main_cst_21 val_main_v85 val_main_v84 val_main_cst_20 val_main_v80 val_main_v79 val_main_v78 val_main_cst_18 val_main_v77 val_main_cst_17
  rfl

theorem out9b (W : Valuation τ sig (Elt F)) (x2 : (⟨S1250000, .i32⟩ : BufTy).Contents (Elt F))
    (h2 : W (Proc.devRef .tc main_arg2) = x2) :
    after ops9 W (Proc.devRef .tc main_v91) = val_main_v91 (F := F) x2 := by
  after_results_simp
  rw [h2]
  unfold val_main_v91 val_main_v90 val_main_cst_23 val_main_v89 val_main_v88 val_main_cst_22 val_main_v83 val_main_v82 val_main_v81 val_main_cst_19 val_main_v77 val_main_cst_17
  rfl

end Cert.ReferenceIdeal.Fold

end
-- ==== Proof.RefFold.Chunk10.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes10 : List (Ref sig .tc) :=
  [main_c_24, main_v95, main_v96, main_c_25, main_v97, main_v98, main_v99, main_v100, main_v101, main_v102, main_v103, main_v104,
   main_cst_26, main_v105, main_v106, main_v107]

theorem ops10_writes : (ops10 : List (HloOp τ sig (Elt F))).Forall fun op => op.writes ⊆ (writes10.map (Proc.devRef (τ := τ) .tc)).toFinset := by
  simp only [List.Forall]
  refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep10 (W : Valuation τ sig (Elt F)) (b : Ref sig .tc) (hb : b ∉ writes10) :
    after ops10 W (Proc.devRef .tc b) = W (Proc.devRef .tc b) :=
  StableHlo.after_of_writes_sub ops10 W ops10_writes hb

theorem out10 (W : Valuation τ sig (Elt F)) (x0 : (⟨S100000x32, .f32⟩ : BufTy).Contents (Elt F)) (x1 x2 x3 : (⟨S1250000, .i32⟩ : BufTy).Contents (Elt F)) (x4 : (⟨S32x64, .f32⟩ : BufTy).Contents (Elt F)) (x5 : (⟨S64, .f32⟩ : BufTy).Contents (Elt F)) (x8 x9 : (⟨S4, .f32⟩ : BufTy).Contents (Elt F))
    (h94 : W (Proc.devRef .tc main_v94) = val_main_v94 (F := F) x0 x1 x2 x3 x4 x5 x8 x9)
    (h37 : W (Proc.devRef .tc main_v37) = val_main_v37 (F := F) x0 x1 x2 x3 x8 x9)
    (h1 : W (Proc.devRef .tc main_arg1) = x1) (h2 : W (Proc.devRef .tc main_arg2) = x2) :
    after ops10 W (Proc.devRef .tc main_v107) = val_main_v107 (F := F) x0 x1 x2 x3 x4 x5 x8 x9 := by
  after_results_simp
  rw [h94, h37, h1, h2]
  unfold val_main_v107 val_main_v106 val_main_v105 val_main_cst_26 val_main_v104 val_main_v103 val_main_v102 val_main_v101
    val_main_v100 val_main_v99 val_main_v98 val_main_v97 val_main_c_25 val_main_v96 val_main_v95 val_main_c_24
  rfl

end Cert.ReferenceIdeal.Fold

end
-- ==== Proof.RefFold.Chunk11.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev writes11 : List (Ref sig .tc) :=
  [main_v108, main_v109, main_v110, main_v111, main_v112, main_v113, main_v114, main_call2_cst, main_call2_v0, main_v115]

theorem ops11_writes : (ops11 : List (HloOp τ sig (Elt F))).Forall fun op => op.writes ⊆ (writes11.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem keep11 (W : Valuation τ sig (Elt F)) (b : Ref sig .tc) (hb : b ∉ writes11) :
    after ops11 W (Proc.devRef .tc b) = W (Proc.devRef .tc b) :=
  StableHlo.after_of_writes_sub ops11 W ops11_writes hb

theorem out11 (W : Valuation τ sig (Elt F)) (x0 : (⟨S100000x32, .f32⟩ : BufTy).Contents (Elt F)) (x1 x2 x3 : (⟨S1250000, .i32⟩ : BufTy).Contents (Elt F)) (x4 : (⟨S32x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 x9 : (⟨S4, .f32⟩ : BufTy).Contents (Elt F))
    (h107 : W (Proc.devRef .tc main_v107) = val_main_v107 (F := F) x0 x1 x2 x3 x4 x5 x8 x9)
    (h91 : W (Proc.devRef .tc main_v91) = val_main_v91 (F := F) x2)
    (h6 : W (Proc.devRef .tc main_arg6) = x6) (h7 : W (Proc.devRef .tc main_arg7) = x7) :
    after ops11 W (Proc.devRef .tc main_v115) = val_main_v115 (F := F) x0 x1 x2 x3 x4 x5 x6 x7 x8 x9 := by
  after_results_simp
  simp only [TRef.ofBuf, TRef.toBuf, cast_eq]
  rw [h107, h91, h6, h7]
  unfold val_main_v115 val_main_call2_v0 val_main_call2_cst val_main_v114 val_main_v113 val_main_v112 val_main_v111 val_main_v110
    val_main_v109 val_main_v108
  rfl

end Cert.ReferenceIdeal.Fold

end
-- ==== Proof.RefFold.Chunk12.lean ====
import proofs.«416059_j58626303591152_2_alg».proof.Proof.RefFold.Defs
import proofs.«416059_j58626303591152_2_alg».proof.Proof.RefP.Read

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]
variable (x0 : (⟨S100000x32, .f32⟩ : BufTy).Contents (Elt F)) (x1 x2 x3 : (⟨S1250000, .i32⟩ : BufTy).Contents (Elt F)) (x4 : (⟨S32x64, .f32⟩ : BufTy).Contents (Elt F))
  (x5 : (⟨S64, .f32⟩ : BufTy).Contents (Elt F)) (x6 : (⟨S64x64, .f32⟩ : BufTy).Contents (Elt F)) (x7 : (⟨S64, .f32⟩ : BufTy).Contents (Elt F)) (x8 x9 : (⟨S4, .f32⟩ : BufTy).Contents (Elt F))

theorem ops12_eq : (ops12 : List (HloOp τ sig (Elt F))) = ops12a ++ ops12b := rfl

theorem row12_128 (W : Valuation τ sig (Elt F))
    (h115 : W (Proc.devRef .tc main_v115) = val_main_v115 (F := F) x0 x1 x2 x3 x4 x5 x6 x7 x8 x9) :
    after ops12a W (Proc.devRef .tc main_v128) = val_main_v128 (F := F) x0 x1 x2 x3 x4 x5 x6 x7 x8 x9 := by
  after_results_simp
  rw [h115]
  unfold val_main_v128 val_main_v117 val_main_v116
  rfl

theorem row12_129 (W : Valuation τ sig (Elt F))
    (h115 : W (Proc.devRef .tc main_v115) = val_main_v115 (F := F) x0 x1 x2 x3 x4 x5 x6 x7 x8 x9) :
    after ops12a W (Proc.devRef .tc main_v129) = val_main_v129 (F := F) x0 x1 x2 x3 x4 x5 x6 x7 x8 x9 := by
  after_results_simp
  rw [h115]
  unfold val_main_v129 val_main_v119 val_main_v118
  rfl

theorem row12_130 (W : Valuation τ sig (Elt F))
    (h115 : W (Proc.devRef .tc main_v115) = val_main_v115 (F := F) x0 x1 x2 x3 x4 x5 x6 x7 x8 x9) :
    after ops12a W (Proc.devRef .tc main_v130) = val_main_v130 (F := F) x0 x1 x2 x3 x4 x5 x6 x7 x8 x9 := by
  after_results_simp
  rw [h115]
  unfold val_main_v130 val_main_v123 val_main_v122 val_main_cst_28 val_main_v121 val_main_cst_27 val_main_v120
  rfl

theorem row12_131 (W : Valuation τ sig (Elt F))
    (h115 : W (Proc.devRef .tc main_v115) = val_main_v115 (F := F) x0 x1 x2 x3 x4 x5 x6 x7 x8 x9) :
    after ops12a W (Proc.devRef .tc main_v131) = val_main_v131 (F := F) x0 x1 x2 x3 x4 x5 x6 x7 x8 x9 := by
  after_results_simp
  rw [h115]
  unfold val_main_v131 val_main_v125 val_main_cst_29 val_main_v124
  rfl

theorem row12_132 (W : Valuation τ sig (Elt F))
    (h115 : W (Proc.devRef .tc main_v115) = val_main_v115 (F := F) x0 x1 x2 x3 x4 x5 x6 x7 x8 x9) :
    after ops12a W (Proc.devRef .tc main_v132) = val_main_v132 (F := F) x0 x1 x2 x3 x4 x5 x6 x7 x8 x9 := by
  after_results_simp
  rw [h115]
  unfold val_main_v132 val_main_v127 val_main_cst_30 val_main_v126
  rfl

theorem out12 (W : Valuation τ sig (Elt F))
    (h115 : W (Proc.devRef .tc main_v115) = val_main_v115 (F := F) x0 x1 x2 x3 x4 x5 x6 x7 x8 x9) :
    after ops12 W (Proc.devRef .tc main_v133) = val_main_v133 (F := F) x0 x1 x2 x3 x4 x5 x6 x7 x8 x9 := by
  rw [ops12_eq, StableHlo.after_append, after_cons, after_nil, nary_result]
  unfold val_main_v133
  rw [← row12_128 x0 x1 x2 x3 x4 x5 x6 x7 x8 x9 W h115, ← row12_129 x0 x1 x2 x3 x4 x5 x6 x7 x8 x9 W h115, ← row12_130 x0 x1 x2 x3 x4 x5 x6 x7 x8 x9 W h115, ← row12_131 x0 x1 x2 x3 x4 x5 x6 x7 x8 x9 W h115, ← row12_132 x0 x1 x2 x3 x4 x5 x6 x7 x8 x9 W h115]
  rfl

end Cert.ReferenceIdeal.Fold

end
-- ==== Proof.RefFold.Fold.lean ====
-- Stretch by stretch, the fold of the reference's operations leaves the result buffer at the last stage of the arguments.
import proofs.«416059_j58626303591152_2_alg».proof.Proof.RefFold.Defs
import proofs.«416059_j58626303591152_2_alg».proof.Proof.RefP.Read
import proofs.«416059_j58626303591152_2_alg».proof.Proof.RefFold.Chunk1
import proofs.«416059_j58626303591152_2_alg».proof.Proof.RefFold.Chunk2
import proofs.«416059_j58626303591152_2_alg».proof.Proof.RefFold.Chunk3
import proofs.«416059_j58626303591152_2_alg».proof.Proof.RefFold.Chunk4
import proofs.«416059_j58626303591152_2_alg».proof.Proof.RefFold.Chunk5
import proofs.«416059_j58626303591152_2_alg».proof.Proof.RefFold.Chunk6
import proofs.«416059_j58626303591152_2_alg».proof.Proof.RefFold.Chunk7
import proofs.«416059_j58626303591152_2_alg».proof.Proof.RefFold.Chunk8
import proofs.«416059_j58626303591152_2_alg».proof.Proof.RefFold.Chunk9
import proofs.«416059_j58626303591152_2_alg».proof.Proof.RefFold.Chunk10
import proofs.«416059_j58626303591152_2_alg».proof.Proof.RefFold.Chunk11
import proofs.«416059_j58626303591152_2_alg».proof.Proof.RefFold.Chunk12

noncomputable section

namespace Cert.ReferenceIdeal.Fold

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

abbrev argsL : List (Ref sig .tc) := [main_arg0, main_arg1, main_arg2, main_arg3, main_arg4, main_arg5, main_arg6, main_arg7, main_arg8, main_arg9]

theorem dis1 : ∀ b ∈ argsL, b ∉ writes1 := by decide
theorem dis2 : ∀ b ∈ argsL, b ∉ writes2 := by decide
theorem dis3 : ∀ b ∈ argsL, b ∉ writes3 := by decide
theorem dis4 : ∀ b ∈ argsL, b ∉ writes4 := by decide
theorem dis5 : ∀ b ∈ argsL, b ∉ writes5 := by decide
theorem dis6 : ∀ b ∈ argsL, b ∉ writes6 := by decide
theorem dis7 : ∀ b ∈ argsL, b ∉ writes7 := by decide
theorem dis8 : ∀ b ∈ argsL, b ∉ writes8 := by decide
theorem dis9 : ∀ b ∈ argsL, b ∉ writes9 := by decide
theorem dis10 : ∀ b ∈ argsL, b ∉ writes10 := by decide
theorem dis11 : ∀ b ∈ argsL, b ∉ writes11 := by decide

theorem arg1 (b : Ref sig .tc) (hb : b ∈ argsL) : L1 m c (Proc.devRef .tc b) = L0 m c (Proc.devRef .tc b) := keep1 _ b (dis1 b hb)
theorem arg2 (b : Ref sig .tc) (hb : b ∈ argsL) : L2 m c (Proc.devRef .tc b) = L0 m c (Proc.devRef .tc b) := (keep2 _ b (dis2 b hb)).trans (arg1 m c b hb)
theorem arg3 (b : Ref sig .tc) (hb : b ∈ argsL) : L3 m c (Proc.devRef .tc b) = L0 m c (Proc.devRef .tc b) := (keep3 _ b (dis3 b hb)).trans (arg2 m c b hb)
theorem arg4 (b : Ref sig .tc) (hb : b ∈ argsL) : L4 m c (Proc.devRef .tc b) = L0 m c (Proc.devRef .tc b) := (keep4 _ b (dis4 b hb)).trans (arg3 m c b hb)
theorem arg5 (b : Ref sig .tc) (hb : b ∈ argsL) : L5 m c (Proc.devRef .tc b) = L0 m c (Proc.devRef .tc b) := (keep5 _ b (dis5 b hb)).trans (arg4 m c b hb)
theorem arg6 (b : Ref sig .tc) (hb : b ∈ argsL) : L6 m c (Proc.devRef .tc b) = L0 m c (Proc.devRef .tc b) := (keep6 _ b (dis6 b hb)).trans (arg5 m c b hb)
theorem arg7 (b : Ref sig .tc) (hb : b ∈ argsL) : L7 m c (Proc.devRef .tc b) = L0 m c (Proc.devRef .tc b) := (keep7 _ b (dis7 b hb)).trans (arg6 m c b hb)
theorem arg8 (b : Ref sig .tc) (hb : b ∈ argsL) : L8 m c (Proc.devRef .tc b) = L0 m c (Proc.devRef .tc b) := (keep8 _ b (dis8 b hb)).trans (arg7 m c b hb)
theorem arg9 (b : Ref sig .tc) (hb : b ∈ argsL) : L9 m c (Proc.devRef .tc b) = L0 m c (Proc.devRef .tc b) := (keep9 _ b (dis9 b hb)).trans (arg8 m c b hb)
theorem arg10 (b : Ref sig .tc) (hb : b ∈ argsL) : L10 m c (Proc.devRef .tc b) = L0 m c (Proc.devRef .tc b) := (keep10 _ b (dis10 b hb)).trans (arg9 m c b hb)
theorem arg11 (b : Ref sig .tc) (hb : b ∈ argsL) : L11 m c (Proc.devRef .tc b) = L0 m c (Proc.devRef .tc b) := (keep11 _ b (dis11 b hb)).trans (arg10 m c b hb)

abbrev x0 := L0 m c (Proc.devRef .tc main_arg0)
abbrev x1 := L0 m c (Proc.devRef .tc main_arg1)
abbrev x2 := L0 m c (Proc.devRef .tc main_arg2)
abbrev x3 := L0 m c (Proc.devRef .tc main_arg3)
abbrev x4 := L0 m c (Proc.devRef .tc main_arg4)
abbrev x5 := L0 m c (Proc.devRef .tc main_arg5)
abbrev x6 := L0 m c (Proc.devRef .tc main_arg6)
abbrev x7 := L0 m c (Proc.devRef .tc main_arg7)
abbrev x8 := L0 m c (Proc.devRef .tc main_arg8)
abbrev x9 := L0 m c (Proc.devRef .tc main_arg9)

theorem s6 : L1 m c (Proc.devRef .tc main_v6) = val_main_v6 (F := F) (x0 m c) (x1 m c) := out1 _ _ _ rfl rfl
theorem s13 : L2 m c (Proc.devRef .tc main_v13) = val_main_v13 (F := F) (x0 m c) (x2 m c) :=
  out2 _ _ _ (arg1 m c main_arg0 (by decide)) (arg1 m c main_arg2 (by decide))
theorem s15 : L3 m c (Proc.devRef .tc main_v15) = val_main_v15 (F := F) (x0 m c) (x1 m c) (x2 m c) :=
  out3 _ _ _ _ ((keep2 _ main_v6 (by decide)).trans (s6 m c)) (s13 m c)
theorem s25 : L4 m c (Proc.devRef .tc main_v25) = val_main_v25 (F := F) (x0 m c) (x1 m c) (x2 m c) (x3 m c) (x8 m c) :=
  out4 _ _ _ _ _ _ (s15 m c) (arg3 m c main_arg3 (by decide)) (arg3 m c main_arg8 (by decide))
theorem s37 : L5 m c (Proc.devRef .tc main_v37) = val_main_v37 (F := F) (x0 m c) (x1 m c) (x2 m c) (x3 m c) (x8 m c) (x9 m c) :=
  out5 _ _ _ _ _ _ _ (s25 m c) (arg4 m c main_arg3 (by decide)) (arg4 m c main_arg9 (by decide))
theorem s48 : L6 m c (Proc.devRef .tc main_v48) = val_main_v48 (F := F) (x1 m c) := out6a _ _ (arg5 m c main_arg1 (by decide))
theorem s52 : L6 m c (Proc.devRef .tc main_v52) = val_main_v52 (F := F) (x2 m c) := out6b _ _ (arg5 m c main_arg2 (by decide))
theorem s37_6 : L6 m c (Proc.devRef .tc main_v37) = val_main_v37 (F := F) (x0 m c) (x1 m c) (x2 m c) (x3 m c) (x8 m c) (x9 m c) :=
  (keep6 _ main_v37 (by decide)).trans (s37 m c)
theorem s68 : L7 m c (Proc.devRef .tc main_v68) = val_main_v68 (F := F) (x0 m c) (x1 m c) (x2 m c) (x3 m c) (x8 m c) (x9 m c) :=
  out7 _ _ _ _ _ _ _ (s48 m c) (s37_6 m c) (arg6 m c main_arg0 (by decide)) (arg6 m c main_arg1 (by decide)) (arg6 m c main_arg2 (by decide))
theorem s76 : L8 m c (Proc.devRef .tc main_v76) = val_main_v76 (F := F) (x0 m c) (x1 m c) (x2 m c) (x3 m c) (x4 m c) (x5 m c) (x8 m c) (x9 m c) :=
  out8 _ _ _ _ _ _ _ _ _ (s68 m c) ((keep7 _ main_v52 (by decide)).trans (s52 m c)) (arg7 m c main_arg4 (by decide)) (arg7 m c main_arg5 (by decide))
theorem s37_8 : L8 m c (Proc.devRef .tc main_v37) = val_main_v37 (F := F) (x0 m c) (x1 m c) (x2 m c) (x3 m c) (x8 m c) (x9 m c) :=
  (keep8 _ main_v37 (by decide)).trans ((keep7 _ main_v37 (by decide)).trans (s37_6 m c))
theorem s94 : L9 m c (Proc.devRef .tc main_v94) = val_main_v94 (F := F) (x0 m c) (x1 m c) (x2 m c) (x3 m c) (x4 m c) (x5 m c) (x8 m c) (x9 m c) :=
  out9a _ _ _ _ _ _ _ _ _ (s76 m c) (arg8 m c main_arg1 (by decide))
theorem s91 : L9 m c (Proc.devRef .tc main_v91) = val_main_v91 (F := F) (x2 m c) := out9b _ _ (arg8 m c main_arg2 (by decide))
theorem s107 : L10 m c (Proc.devRef .tc main_v107) = val_main_v107 (F := F) (x0 m c) (x1 m c) (x2 m c) (x3 m c) (x4 m c) (x5 m c) (x8 m c) (x9 m c) :=
  out10 _ _ _ _ _ _ _ _ _ (s94 m c) ((keep9 _ main_v37 (by decide)).trans (s37_8 m c)) (arg9 m c main_arg1 (by decide)) (arg9 m c main_arg2 (by decide))
theorem s115 : L11 m c (Proc.devRef .tc main_v115) = val_main_v115 (F := F) (x0 m c) (x1 m c) (x2 m c) (x3 m c) (x4 m c) (x5 m c) (x6 m c) (x7 m c) (x8 m c) (x9 m c) :=
  out11 _ _ _ _ _ _ _ _ _ _ _ (s107 m c) ((keep10 _ main_v91 (by decide)).trans (s91 m c)) (arg10 m c main_arg6 (by decide)) (arg10 m c main_arg7 (by decide))
theorem s133 : L12 m c (Proc.devRef .tc main_v133) = val_main_v133 (F := F) (x0 m c) (x1 m c) (x2 m c) (x3 m c) (x4 m c) (x5 m c) (x6 m c) (x7 m c) (x8 m c) (x9 m c) :=
  out12 _ _ _ _ _ _ _ _ _ _ _ (s115 m c)

end Cert.ReferenceIdeal.Fold

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

theorem val_main_v133_eq (m : (ℓ : Loc nD τ sig) → Buf (Elt F) ℓ) (c : Dev nD) :
    Cert.ReferenceIdeal.Value.res_main_v133 m c = val_main_v133 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v133
  rw [show after (Cert.ReferenceIdeal.Value.ops : List (HloOp τ sig (Elt F))) (launchContents m c) = Cert.ReferenceIdeal.Fold.L12 m c from Cert.ReferenceIdeal.Fold.fold_eq m c]
  exact Cert.ReferenceIdeal.Fold.s133 m c

end Cert.ReferenceIdeal.Read

end
-- ==== Proof.RefRun.lean ====
import proofs.«416059_j58626303591152_2_alg».proof.Proof.RefP.Run
import proofs.«416059_j58626303591152_2_alg».proof.Proof.RefP.Read
import proofs.«416059_j58626303591152_2_alg».proof.Proof.RefFold.Fold
-- ==== Proof.lean ====
-- Each program runs to the end leaving its arguments unchanged, and under the precondition the idealized kernel's five result rows are the reference's.
import proofs.«416059_j58626303591152_2_alg».proof.Defs
import proofs.«416059_j58626303591152_2_alg».proof.Proof.Gen.Kernel
import proofs.«416059_j58626303591152_2_alg».proof.Proof.Gen.KernelIdeal
import proofs.«416059_j58626303591152_2_alg».proof.Proof.Gen.ReferenceIdeal
import proofs.«416059_j58626303591152_2_alg».proof.Proof.Gen.Pre_finite_inputs
import proofs.«416059_j58626303591152_2_alg».proof.Proof.K.Run
import proofs.«416059_j58626303591152_2_alg».proof.Proof.KI.Run
import proofs.«416059_j58626303591152_2_alg».proof.Proof.Value
import proofs.«416059_j58626303591152_2_alg».proof.Proof.RefRun
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Hand.res1 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v133_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact (Cert.KernelIdeal.Hand.value_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
